-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x128 : Shape := ⟨2, ![640000, 128]⟩
abbrev S4x128x128 : Shape := ⟨3, ![4, 128, 128]⟩
abbrev S4 : Shape := ⟨1, ![4]⟩
abbrev S4x128 : Shape := ⟨2, ![4, 128]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4 : S_.BroadcastsInDim S4 (![] : Fin 0 → Fin S4.rank)
  reducesTo_S4_S_d0 : S4.ReducesTo [0] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S2x640000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : IVec S1x640000 32 := (extractStridedSlice S1x640000 ![0, 0] · slices_S2x640000_S1x640000_0_0) main_arg1
  let main_v40 : IVec S640000 32 := shapeCast S640000 main_v39 shapeCasts_S1x640000_S640000
  let main_c_14 : IVec S_ 32 := constantI S_ 32 4294867296#32
  let main_v41 : IVec S640000 32 := broadcastInDim S640000 ![] bcast_S_S640000 main_c_14
  let main_v42 : IVec S640000 1 := cmpi .sge main_v40 main_v41
  let main_c_15 : IVec S_ 1 := constantI S_ 1 1#1
  let main_v43 : IVec S_ 1 := (fun x v => Host.reduce IntOp.andi x v reducesTo_S640000_S_d0 h_S_) main_v42 main_c_15
  let main_v44 : IVec S_ 1 := andi main_v38 main_v43
  let main_v45 : IVec S1x640000 32 := (extractStridedSlice S1x640000 ![0, 0] · slices_S2x640000_S1x640000_0_0) main_arg1
  let main_v46 : IVec S640000 32 := shapeCast S640000 main_v45 shapeCasts_S1x640000_S640000
  let main_c_16 : IVec S_ 32 := constantI S_ 32 100000#32
  let main_v47 : IVec S640000 32 := broadcastInDim S640000 ![] bcast_S_S640000 main_c_16
  let main_v48 : IVec S640000 1 := cmpi .slt main_v46 main_v47
  let main_c_17 : IVec S_ 1 := constantI S_ 1 1#1
  let main_v49 : IVec S_ 1 := (fun x v => Host.reduce IntOp.andi x v reducesTo_S640000_S_d0 h_S_) main_v48 main_c_17
  let main_v50 : IVec S_ 1 := andi main_v44 main_v49
  main_v50

def fn_part1 {F : FTy → Type} [FloatOps F] (main_arg1 : IVec S2x640000 32) (main_arg5 : FVec F S4x128 .f32) (main_arg6 : FVec F S4x128 .f32) (main_arg7 : FVec F S128x128 .f32) (main_arg8 : FVec F S128 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_v33

def fn {F : FTy → Type} [FloatOps F] (main_arg0 : FVec F S100000x128 .f32) (main_arg1 : IVec S2x640000 32) (main_arg2 : FVec F S640000x128 .f32) (main_arg3 : FVec F S4x128x128 .f32) (main_arg4 : FVec F S4 .f32) (main_arg5 : FVec F S4x128 .f32) (main_arg6 : FVec F S4x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg1 main_arg5 main_arg6 main_arg7 main_arg8 main_v13 main_v16
-- ==== Kernel.lean ====
abbrev S100000x128 : Shape := ⟨2, ![100000, 128]⟩
abbrev S2x640000 : Shape := ⟨2, ![2, 640000]⟩
abbrev S640000x128 : Shape := ⟨2, ![640000, 128]⟩
abbrev S4x128x128 : Shape := ⟨3, ![4, 128, 128]⟩
abbrev S4 : Shape := ⟨1, ![4]⟩
abbrev S4x128 : Shape := ⟨2, ![4, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128x128 : Shape := ⟨3, ![1, 128, 128]⟩
abbrev S1x128 : Shape := ⟨2, ![1, 128]⟩
abbrev S5000x128 : Shape := ⟨2, ![5000, 128]⟩

abbrev nBuf : Space → Nat
  | .hbm => 239
  | .vmem => 86
  | .smem => 0
  | _ => 0

abbrev hbmTy0_0 (i : Nat) : BufTy := match i % 128 with
  | 0 => ⟨S100000x128, .f32⟩
  | 1 => ⟨S2x640000, .i32⟩
  | 2 => ⟨S640000x128, .f32⟩
  | 3 => ⟨S4x128x128, .f32⟩
  | 4 => ⟨S4, .f32⟩
  | 5 => ⟨S4x128, .f32⟩
  | 6 => ⟨S4x128, .f32⟩
  | 7 => ⟨S128x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S1, .i32⟩
  | 22 => ⟨S_, .i32⟩
  | 23 => ⟨S640000x1, .i32⟩
  | 24 => ⟨S640000x1, .i1⟩
  | 25 => ⟨S1x1, .i32⟩
  | 26 => ⟨S640000x1, .i32⟩
  | 27 => ⟨S640000x1, .i1⟩
  | 28 => ⟨S640000x1, .i1⟩
  | 29 => ⟨S_, .i1⟩
  | 30 => ⟨S640000, .i1⟩
  | 31 => ⟨S640000x128, .f32⟩
  | 32 => ⟨S640000x128, .i1⟩
  | 33 => ⟨S_, .f32⟩
  | 34 => ⟨S640000x128, .f32⟩
  | 35 => ⟨S640000x128, .f32⟩
  | 36 => ⟨S640000x128, .f32⟩
  | 37 => ⟨S_, .f32⟩
  | 38 => ⟨S640000x128, .f32⟩
  | 39 => ⟨S640000x128, .f32⟩
  | 40 => ⟨S_, .f32⟩
  | 41 => ⟨S100000x128, .f32⟩
  | 42 => ⟨S640000x1, .i32⟩
  | 43 => ⟨S100000x128, .f32⟩
  | 44 => ⟨S1, .f32⟩
  | 45 => ⟨S_, .f32⟩
  | 46 => ⟨S_, .f32⟩
  | 47 => ⟨S_, .f32⟩
  | 48 => ⟨S1x1, .f32⟩
  | 49 => ⟨S1x128x128, .f32⟩
  | 50 => ⟨S128x128, .f32⟩
  | 51 => ⟨S100000x128, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S128, .f32⟩
  | 64 => ⟨S1x128, .f32⟩
  | 65 => ⟨S1x128, .f32⟩
  | 66 => ⟨S128, .f32⟩
  | 67 => ⟨S1x128, .f32⟩
  | 68 => ⟨S100000x128, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S1, .i32⟩
  | 78 => ⟨S_, .i32⟩
  | 79 => ⟨S640000x1, .i32⟩
  | 80 => ⟨S640000x1, .i1⟩
  | 81 => ⟨S1x1, .i32⟩
  | 82 => ⟨S640000x1, .i32⟩
  | 83 => ⟨S640000x1, .i1⟩
  | 84 => ⟨S640000x1, .i1⟩
  | 85 => ⟨S_, .i1⟩
  | 86 => ⟨S640000, .i1⟩
  | 87 => ⟨S640000x128, .f32⟩
  | 88 => ⟨S640000x128, .i1⟩
  | 89 => ⟨S_, .f32⟩
  | 90 => ⟨S640000x128, .f32⟩
  | 91 => ⟨S640000x128, .f32⟩
  | 92 => ⟨S640000x128, .f32⟩
  | 93 => ⟨S_, .f32⟩
  | 94 => ⟨S640000x128, .f32⟩
  | 95 => ⟨S640000x128, .f32⟩
  | 96 => ⟨S_, .f32⟩
  | 97 => ⟨S100000x128, .f32⟩
  | 98 => ⟨S640000x1, .i32⟩
  | 99 => ⟨S100000x128, .f32⟩
  | 100 => ⟨S1, .f32⟩
  | 101 => ⟨S_, .f32⟩
  | 102 => ⟨S_, .f32⟩
  | 103 => ⟨S_, .f32⟩
  | 104 => ⟨S1x1, .f32⟩
  | 105 => ⟨S1x128x128, .f32⟩
  | 106 => ⟨S128x128, .f32⟩
  | 107 => ⟨S100000x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S128, .f32⟩
  | 120 => ⟨S1x128, .f32⟩
  | 121 => ⟨S1x128, .f32⟩
  | 122 => ⟨S128, .f32⟩
  | 123 => ⟨S1x128, .f32⟩
  | 124 => ⟨S100000x128, .f32⟩
  | 125 => ⟨S_, .i32⟩
  | 126 => ⟨S640000, .i32⟩
  | 127 => ⟨S640000, .i1⟩
  | _ => ⟨S100000x128, .f32⟩

abbrev hbmTy0_1 (i : Nat) : BufTy := match i % 128 with
  | 0 => ⟨S_, .i32⟩
  | 1 => ⟨S640000, .i32⟩
  | 2 => ⟨S640000, .i32⟩
  | 3 => ⟨S640000, .i32⟩
  | 4 => ⟨S640000x1, .i32⟩
  | 5 => ⟨S1, .i32⟩
  | 6 => ⟨S_, .i32⟩
  | 7 => ⟨S640000x1, .i32⟩
  | 8 => ⟨S640000x1, .i1⟩
  | 9 => ⟨S1x1, .i32⟩
  | 10 => ⟨S640000x1, .i32⟩
  | 11 => ⟨S640000x1, .i1⟩
  | 12 => ⟨S640000x1, .i1⟩
  | 13 => ⟨S_, .i1⟩
  | 14 => ⟨S640000, .i1⟩
  | 15 => ⟨S640000x128, .f32⟩
  | 16 => ⟨S640000x128, .i1⟩
  | 17 => ⟨S_, .f32⟩
  | 18 => ⟨S640000x128, .f32⟩
  | 19 => ⟨S640000x128, .f32⟩
  | 20 => ⟨S640000x128, .f32⟩
  | 21 => ⟨S_, .f32⟩
  | 22 => ⟨S640000x128, .f32⟩
  | 23 => ⟨S640000x128, .f32⟩
  | 24 => ⟨S_, .f32⟩
  | 25 => ⟨S100000x128, .f32⟩
  | 26 => ⟨S640000x1, .i32⟩
  | 27 => ⟨S100000x128, .f32⟩
  | 28 => ⟨S1, .f32⟩
  | 29 => ⟨S_, .f32⟩
  | 30 => ⟨S_, .f32⟩
  | 31 => ⟨S_, .f32⟩
  | 32 => ⟨S1x1, .f32⟩
  | 33 => ⟨S1x128x128, .f32⟩
  | 34 => ⟨S128x128, .f32⟩
  | 35 => ⟨S100000x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S100000x128, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S1, .i32⟩
  | 62 => ⟨S_, .i32⟩
  | 63 => ⟨S640000x1, .i32⟩
  | 64 => ⟨S640000x1, .i1⟩
  | 65 => ⟨S1x1, .i32⟩
  | 66 => ⟨S640000x1, .i32⟩
  | 67 => ⟨S640000x1, .i1⟩
  | 68 => ⟨S640000x1, .i1⟩
  | 69 => ⟨S_, .i1⟩
  | 70 => ⟨S640000, .i1⟩
  | 71 => ⟨S640000x128, .f32⟩
  | 72 => ⟨S640000x128, .i1⟩
  | 73 => ⟨S_, .f32⟩
  | 74 => ⟨S640000x128, .f32⟩
  | 75 => ⟨S640000x128, .f32⟩
  | 76 => ⟨S640000x128, .f32⟩
  | 77 => ⟨S_, .f32⟩
  | 78 => ⟨S640000x128, .f32⟩
  | 79 => ⟨S640000x128, .f32⟩
  | 80 => ⟨S_, .f32⟩
  | 81 => ⟨S100000x128, .f32⟩
  | 82 => ⟨S640000x1, .i32⟩
  | 83 => ⟨S100000x128, .f32⟩
  | 84 => ⟨S1, .f32⟩
  | 85 => ⟨S_, .f32⟩
  | 86 => ⟨S_, .f32⟩
  | 87 => ⟨S_, .f32⟩
  | 88 => ⟨S1x1, .f32⟩
  | 89 => ⟨S1x128x128, .f32⟩
  | 90 => ⟨S128x128, .f32⟩
  | 91 => ⟨S100000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S128, .f32⟩
  | 104 => ⟨S1x128, .f32⟩
  | 105 => ⟨S1x128, .f32⟩
  | 106 => ⟨S128, .f32⟩
  | 107 => ⟨S1x128, .f32⟩
  | 108 => ⟨S100000x128, .f32⟩
  | 109 => ⟨S1x128, .f32⟩
  | 110 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x1, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x1, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x1, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x1, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S128x128, .f32⟩
  | .local _ .vmem, ⟨83, _⟩ => ⟨S1x128, .f32⟩
  | .local _ .vmem, ⟨84, _⟩ => ⟨S5000x128, .f32⟩
  | .local _ .vmem, ⟨85, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_call1_cst : Ref sig .tc := ⟨.hbm, 37, rfl⟩
abbrev main_call1_v0 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_0 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16_0 : Ref sig .tc := ⟨.hbm, 51, rfl⟩
abbrev main_v16_1 : Ref sig .tc := ⟨.hbm, 52, rfl⟩
abbrev main_v16_2 : Ref sig .tc := ⟨.hbm, 53, rfl⟩
abbrev main_cst_1 : Ref sig .tc := ⟨.hbm, 54, rfl⟩
abbrev main_v17 : Ref sig .tc := ⟨.hbm, 55, rfl⟩
abbrev main_v18 : Ref sig .tc := ⟨.hbm, 56, rfl⟩
abbrev main_cst_2 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v30 : Ref sig .tc := ⟨.hbm, 91, rfl⟩
abbrev main_v31 : Ref sig .tc := ⟨.hbm, 92, rfl⟩
abbrev main_call3_cst : Ref sig .tc := ⟨.hbm, 93, rfl⟩
abbrev main_call3_v0 : Ref sig .tc := ⟨.hbm, 94, rfl⟩
abbrev main_v32 : Ref sig .tc := ⟨.hbm, 95, rfl⟩
abbrev main_cst_3 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_cst_4 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42_0 : Ref sig .tc := ⟨.hbm, 107, rfl⟩
abbrev main_v42_1 : Ref sig .tc := ⟨.hbm, 108, rfl⟩
abbrev main_v42_2 : Ref sig .tc := ⟨.hbm, 109, rfl⟩
abbrev main_cst_5 : Ref sig .tc := ⟨.hbm, 110, rfl⟩
abbrev main_v43 : Ref sig .tc := ⟨.hbm, 111, rfl⟩
abbrev main_v44 : Ref sig .tc := ⟨.hbm, 112, rfl⟩
abbrev main_cst_6 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_call4_c : Ref sig .tc := ⟨.hbm, 125, rfl⟩
abbrev main_call4_v0 : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_c_1 : Ref sig .tc := ⟨.hbm, 133, rfl⟩
abbrev main_call4_c_2 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_c_3 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_call4_cst : Ref sig .tc := ⟨.hbm, 145, rfl⟩
abbrev main_call4_v15 : Ref sig .tc := ⟨.hbm, 146, rfl⟩
abbrev main_v56 : Ref sig .tc := ⟨.hbm, 147, rfl⟩
abbrev main_v57 : Ref sig .tc := ⟨.hbm, 148, rfl⟩
abbrev main_call5_cst : Ref sig .tc := ⟨.hbm, 149, rfl⟩
abbrev main_call5_v0 : Ref sig .tc := ⟨.hbm, 150, rfl⟩
abbrev main_v58 : Ref sig .tc := ⟨.hbm, 151, rfl⟩
abbrev main_cst_7 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_cst_8 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68_0 : Ref sig .tc := ⟨.hbm, 163, rfl⟩
abbrev main_v68_1 : Ref sig .tc := ⟨.hbm, 164, rfl⟩
abbrev main_v68_2 : Ref sig .tc := ⟨.hbm, 165, rfl⟩
abbrev main_cst_9 : Ref sig .tc := ⟨.hbm, 166, rfl⟩
abbrev main_v69 : Ref sig .tc := ⟨.hbm, 167, rfl⟩
abbrev main_v70 : Ref sig .tc := ⟨.hbm, 168, rfl⟩
abbrev main_cst_10 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_call6_c : Ref sig .tc := ⟨.hbm, 181, rfl⟩
abbrev main_call6_v0 : Ref sig .tc := ⟨.hbm, 182, rfl⟩
abbrev main_call6_v1 : Ref sig .tc := ⟨.hbm, 183, rfl⟩
abbrev main_call6_c_0 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_call6_v5 : Ref sig .tc := ⟨.hbm, 188, rfl⟩
abbrev main_call6_c_1 : Ref sig .tc := ⟨.hbm, 189, rfl⟩
abbrev main_call6_c_2 : Ref sig .tc := ⟨.hbm, 190, rfl⟩
abbrev main_call6_v6 : Ref sig .tc := ⟨.hbm, 191, rfl⟩
abbrev main_call6_v7 : Ref sig .tc := ⟨.hbm, 192, rfl⟩
abbrev main_call6_v8 : Ref sig .tc := ⟨.hbm, 193, rfl⟩
abbrev main_call6_v9 : Ref sig .tc := ⟨.hbm, 194, rfl⟩
abbrev main_call6_v10 : Ref sig .tc := ⟨.hbm, 195, rfl⟩
abbrev main_call6_v11 : Ref sig .tc := ⟨.hbm, 196, rfl⟩
abbrev main_call6_c_3 : Ref sig .tc := ⟨.hbm, 197, rfl⟩
abbrev main_call6_v12 : Ref sig .tc := ⟨.hbm, 198, rfl⟩
abbrev main_call6_v13 : Ref sig .tc := ⟨.hbm, 199, rfl⟩
abbrev main_call6_v14 : Ref sig .tc := ⟨.hbm, 200, rfl⟩
abbrev main_call6_cst : Ref sig .tc := ⟨.hbm, 201, rfl⟩
abbrev main_call6_v15 : Ref sig .tc := ⟨.hbm, 202, rfl⟩
abbrev main_v82 : Ref sig .tc := ⟨.hbm, 203, rfl⟩
abbrev main_v83 : Ref sig .tc := ⟨.hbm, 204, rfl⟩
abbrev main_call7_cst : Ref sig .tc := ⟨.hbm, 205, rfl⟩
abbrev main_call7_v0 : Ref sig .tc := ⟨.hbm, 206, rfl⟩
abbrev main_v84 : Ref sig .tc := ⟨.hbm, 207, rfl⟩
abbrev main_cst_11 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_cst_12 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_v94_0 : Ref sig .tc := ⟨.hbm, 219, rfl⟩
abbrev main_v94_1 : Ref sig .tc := ⟨.hbm, 220, rfl⟩
abbrev main_v94_2 : Ref sig .tc := ⟨.hbm, 221, rfl⟩
abbrev main_cst_13 : Ref sig .tc := ⟨.hbm, 222, rfl⟩
abbrev main_v95 : Ref sig .tc := ⟨.hbm, 223, rfl⟩
abbrev main_v96 : Ref sig .tc := ⟨.hbm, 224, rfl⟩
abbrev main_cst_14 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg6_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg3_1 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem6_0 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem6_0 : DmaSem sig := 78
abbrev cc7_sem6_1 : DmaSem sig := 79
abbrev cc8_sem0_0 : DmaSem sig := 80
abbrev cc8_sem0_1 : DmaSem sig := 81
abbrev cc8_sem1_0 : DmaSem sig := 82
abbrev cc8_sem2_0 : DmaSem sig := 83
abbrev cc8_sem3_0 : DmaSem sig := 84
abbrev cc8_sem3_1 : DmaSem sig := 85

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  slices_S4_S1_0 : S4.Slices ![0] S1
  shapeCasts_S1_S_ : S1.ShapeCasts S_
  shapeCasts_S_S1x1 : S_.ShapeCasts S1x1
  slices_S4x128x128_S1x128x128_0_0_0 : S4x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  slices_S4x128_S1x128_0_0 : S4x128.Slices ![0, 0] S1x128
  shapeCasts_S1x128_S128 : S1x128.ShapeCasts S128
  broadcasts_S1x128_S5000x128 : S1x128.Broadcasts S5000x128
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S100000x128.size a
  hwx7_6 : ∀ i : grid7.Coords, EltTy.bits .f32 = 32 ∨ (Rect.block (s := S100000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v68_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v81) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v93) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v94_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v94_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v94_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v94_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v81) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v96) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v100) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v103) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v106) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v107) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v107) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v108) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v109) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x128 : Shape := ⟨2, ![640000, 128]⟩
abbrev S4x128x128 : Shape := ⟨3, ![4, 128, 128]⟩
abbrev S4 : Shape := ⟨1, ![4]⟩
abbrev S4x128 : Shape := ⟨2, ![4, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x128x128 : Shape := ⟨3, ![1, 128, 128]⟩
abbrev S1x128 : Shape := ⟨2, ![1, 128]⟩

abbrev nBuf : Space → Nat
  | .hbm => 277
  | .vmem => 0
  | .smem => 0
  | _ => 0

abbrev hbmTy0_0 (i : Nat) : BufTy := match i % 128 with
  | 0 => ⟨S100000x128, .f32⟩
  | 1 => ⟨S2x640000, .i32⟩
  | 2 => ⟨S640000x128, .f32⟩
  | 3 => ⟨S4x128x128, .f32⟩
  | 4 => ⟨S4, .f32⟩
  | 5 => ⟨S4x128, .f32⟩
  | 6 => ⟨S4x128, .f32⟩
  | 7 => ⟨S128x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x128, .f32⟩
  | 22 => ⟨S640000x128, .f32⟩
  | 23 => ⟨S_, .f32⟩
  | 24 => ⟨S640000x128, .f32⟩
  | 25 => ⟨S640000x128, .f32⟩
  | 26 => ⟨S_, .f32⟩
  | 27 => ⟨S100000x128, .f32⟩
  | 28 => ⟨S640000x1, .i32⟩
  | 29 => ⟨S100000x128, .f32⟩
  | 30 => ⟨S1, .f32⟩
  | 31 => ⟨S_, .f32⟩
  | 32 => ⟨S_, .f32⟩
  | 33 => ⟨S_, .f32⟩
  | 34 => ⟨S100000x128, .f32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S100000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x128, .f32⟩
  | 87 => ⟨S640000x128, .f32⟩
  | 88 => ⟨S_, .f32⟩
  | 89 => ⟨S640000x128, .f32⟩
  | 90 => ⟨S640000x128, .f32⟩
  | 91 => ⟨S_, .f32⟩
  | 92 => ⟨S100000x128, .f32⟩
  | 93 => ⟨S640000x1, .i32⟩
  | 94 => ⟨S100000x128, .f32⟩
  | 95 => ⟨S1, .f32⟩
  | 96 => ⟨S_, .f32⟩
  | 97 => ⟨S_, .f32⟩
  | 98 => ⟨S_, .f32⟩
  | 99 => ⟨S100000x128, .f32⟩
  | 100 => ⟨S100000x128, .f32⟩
  | 101 => ⟨S100000x128, .f32⟩
  | 102 => ⟨S1x128x128, .f32⟩
  | 103 => ⟨S128x128, .f32⟩
  | 104 => ⟨S100000x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S640000x128, .f32⟩
  | 25 => ⟨S_, .f32⟩
  | 26 => ⟨S640000x128, .f32⟩
  | 27 => ⟨S640000x128, .f32⟩
  | 28 => ⟨S_, .f32⟩
  | 29 => ⟨S100000x128, .f32⟩
  | 30 => ⟨S640000x1, .i32⟩
  | 31 => ⟨S100000x128, .f32⟩
  | 32 => ⟨S1, .f32⟩
  | 33 => ⟨S_, .f32⟩
  | 34 => ⟨S_, .f32⟩
  | 35 => ⟨S_, .f32⟩
  | 36 => ⟨S100000x128, .f32⟩
  | 37 => ⟨S100000x128, .f32⟩
  | 38 => ⟨S100000x128, .f32⟩
  | 39 => ⟨S1x128x128, .f32⟩
  | 40 => ⟨S128x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S_, .f32⟩
  | 60 => ⟨S128, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x128, .f32⟩
  | 89 => ⟨S640000x128, .f32⟩
  | 90 => ⟨S_, .f32⟩
  | 91 => ⟨S640000x128, .f32⟩
  | 92 => ⟨S640000x128, .f32⟩
  | 93 => ⟨S_, .f32⟩
  | 94 => ⟨S100000x128, .f32⟩
  | 95 => ⟨S640000x1, .i32⟩
  | 96 => ⟨S100000x128, .f32⟩
  | 97 => ⟨S1, .f32⟩
  | 98 => ⟨S_, .f32⟩
  | 99 => ⟨S_, .f32⟩
  | 100 => ⟨S_, .f32⟩
  | 101 => ⟨S100000x128, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S100000x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_cst : Ref sig .tc := ⟨.hbm, 74, rfl⟩
abbrev main_call1_v0 : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_c_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_call3_cst : Ref sig .tc := ⟨.hbm, 139, rfl⟩
abbrev main_call3_v0 : Ref sig .tc := ⟨.hbm, 140, rfl⟩
abbrev main_v106 : Ref sig .tc := ⟨.hbm, 141, rfl⟩
abbrev main_v107 : Ref sig .tc := ⟨.hbm, 142, rfl⟩
abbrev main_c_16 : Ref sig .tc := ⟨.hbm, 143, rfl⟩
abbrev main_v108 : Ref sig .tc := ⟨.hbm, 144, rfl⟩
abbrev main_v109 : Ref sig .tc := ⟨.hbm, 145, rfl⟩
abbrev main_c_17 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_call4_cst : Ref sig .tc := ⟨.hbm, 153, rfl⟩
abbrev main_call4_v0 : Ref sig .tc := ⟨.hbm, 154, rfl⟩
abbrev main_v116 : Ref sig .tc := ⟨.hbm, 155, rfl⟩
abbrev main_cst_18 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_19 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_20 : Ref sig .tc := ⟨.hbm, 170, rfl⟩
abbrev main_v129 : Ref sig .tc := ⟨.hbm, 171, rfl⟩
abbrev main_cst_21 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_22 : Ref sig .tc := ⟨.hbm, 179, rfl⟩
abbrev main_v136 : Ref sig .tc := ⟨.hbm, 180, rfl⟩
abbrev main_cst_23 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_24 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_call5_cst : Ref sig .tc := ⟨.hbm, 204, rfl⟩
abbrev main_call5_v0 : Ref sig .tc := ⟨.hbm, 205, rfl⟩
abbrev main_v158 : Ref sig .tc := ⟨.hbm, 206, rfl⟩
abbrev main_v159 : Ref sig .tc := ⟨.hbm, 207, rfl⟩
abbrev main_c_25 : Ref sig .tc := ⟨.hbm, 208, rfl⟩
abbrev main_v160 : Ref sig .tc := ⟨.hbm, 209, rfl⟩
abbrev main_v161 : Ref sig .tc := ⟨.hbm, 210, rfl⟩
abbrev main_c_26 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_call6_cst : Ref sig .tc := ⟨.hbm, 218, rfl⟩
abbrev main_call6_v0 : Ref sig .tc := ⟨.hbm, 219, rfl⟩
abbrev main_v168 : Ref sig .tc := ⟨.hbm, 220, rfl⟩
abbrev main_cst_27 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_28 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_cst_29 : Ref sig .tc := ⟨.hbm, 235, rfl⟩
abbrev main_v181 : Ref sig .tc := ⟨.hbm, 236, rfl⟩
abbrev main_cst_30 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_31 : Ref sig .tc := ⟨.hbm, 244, rfl⟩
abbrev main_v188 : Ref sig .tc := ⟨.hbm, 245, rfl⟩
abbrev main_cst_32 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_cst_33 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_call7_cst : Ref sig .tc := ⟨.hbm, 269, rfl⟩
abbrev main_call7_v0 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128_S1x128_0_0 : S4x128.Slices ![0, 0] S1x128
  shapeCasts_S1x128_S128 : S1x128.ShapeCasts S128
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
import Idealize.ShloMosaic.PureOps.Ideal
import Idealize.ShloMosaic.Lib.ValueIdx

noncomputable section

namespace Cert.Gin

open Idealize.ShloMosaic Idealize.ShloMosaic.ValueIdx

abbrev SN : Shape := ⟨2, ![100000, 128]⟩
abbrev SE : Shape := ⟨2, ![640000, 128]⟩
abbrev SW : Shape := ⟨2, ![128, 128]⟩
abbrev SR : Shape := ⟨2, ![1, 128]⟩
abbrev S11 : Shape := ⟨2, ![1, 1]⟩
abbrev SI : Shape := ⟨2, ![640000, 1]⟩
abbrev S2E : Shape := ⟨2, ![2, 640000]⟩
abbrev S4 : Shape := ⟨1, ![4]⟩
abbrev S4R : Shape := ⟨2, ![4, 128]⟩
abbrev S4W : Shape := ⟨3, ![4, 128, 128]⟩
abbrev S128 : Shape := ⟨1, ![128]⟩

abbrev Mat (a b : ℕ) : Type := Fin a → Fin b → EReal

def toMat {a b : ℕ} (X : (⟨2, ![a, b]⟩ : Shape).Idx → EReal) : Mat a b := fun i j => X (ix2 i j)

def ofMat {a b : ℕ} (M : Mat a b) : (⟨2, ![a, b]⟩ : Shape).Idx → EReal := fun j => M (j 0) (j 1)

@[simp] theorem ofMat_ix2 {a b : ℕ} (M : Mat a b) (i : Fin a) (j : Fin b) : ofMat M (ix2 i j) = M i j := rfl
@[simp] theorem toMat_apply {a b : ℕ} (X : (⟨2, ![a, b]⟩ : Shape).Idx → EReal) (i : Fin a) (j : Fin b) :
    toMat X i j = X (ix2 i j) := rfl
theorem toMat_ofMat {a b : ℕ} (M : Mat a b) : toMat (ofMat M) = M := rfl
theorem ofMat_toMat {a b : ℕ} (X : (⟨2, ![a, b]⟩ : Shape).Idx → EReal) : ofMat (toMat X) = X := by
  funext j; exact congrArg X (eq_ix2 j).symm

def rowOf {b : ℕ} (X : (⟨2, ![1, b]⟩ : Shape).Idx → EReal) : Fin b → EReal := fun d => X (ix2 (0 : Fin 1) d)

def ofRow {b : ℕ} (r : Fin b → EReal) : (⟨2, ![1, b]⟩ : Shape).Idx → EReal := fun j => r (j 1)
@[simp] theorem ofRow_ix2 {b : ℕ} (r : Fin b → EReal) (u : Fin 1) (d : Fin b) : ofRow r (ix2 u d) = r d := rfl
theorem rowOf_ofRow {b : ℕ} (r : Fin b → EReal) : rowOf (ofRow r) = r := rfl

def bnEps : EReal := Ideal.ofBits .f32 0x3727C5AC#32

def nodeCount : EReal := Ideal.ofBits .f32 0x47C35000#32

-- h = (c·x + a) W, entry by entry.
def linM (c : EReal) (x a : Mat 100000 128) (W : Mat 128 128) : Mat 100000 128 :=
  fun n d => ∑ k : Fin 128, (c * x n k + a n k) * W k d

def colSum (h : Mat 100000 128) : Fin 128 → EReal := fun d => ∑ n : Fin 100000, h n d

def colSumSq (h : Mat 100000 128) : Fin 128 → EReal := fun d => ∑ n : Fin 100000, h n d * h n d

def meanOf (h : Mat 100000 128) : Fin 128 → EReal := fun d => Ideal.div (colSum h d) nodeCount

-- The batch variance as the mean of the squares minus the square of the mean.
def varK (h : Mat 100000 128) : Fin 128 → EReal :=
  fun d => Ideal.div (colSumSq h d) nodeCount - meanOf h d * meanOf h d

-- The batch variance as the mean of the squared deviations.
def varR (h : Mat 100000 128) : Fin 128 → EReal :=
  fun d => Ideal.div (∑ n : Fin 100000, (h n d - meanOf h d) * (h n d - meanOf h d)) nodeCount

-- max(((h − mu)·rsqrt(var + eps))·gamma + beta, 0) + x.
def bnM (h x : Mat 100000 128) (mu var gamma beta : Fin 128 → EReal) : Mat 100000 128 :=
  fun n d => max ((h n d - mu d) * Ideal.rsqrt (var d + bnEps) * gamma d + beta d) 0 + x n d

def projM (x : Mat 100000 128) (W : Mat 128 128) (b : Fin 128 → EReal) : Mat 100000 128 :=
  fun n d => (∑ k : Fin 128, x n k * W k d) + b d

def IsFin (v : EReal) : Prop := v ≠ ⊤ ∧ v ≠ ⊥

def linA (coef : S11.Idx → EReal) (x a : SN.Idx → EReal) (W : SW.Idx → EReal) : SN.Idx → EReal :=
  ofMat (linM (coef (ix2 (0 : Fin 1) (0 : Fin 1))) (toMat x) (toMat a) (toMat W))
def sumA (h : SN.Idx → EReal) : SR.Idx → EReal := ofRow (colSum (toMat h))
def sumSqA (h : SN.Idx → EReal) : SR.Idx → EReal := ofRow (colSumSq (toMat h))
def bnA (h x : SN.Idx → EReal) (mu var gamma beta : SR.Idx → EReal) : SN.Idx → EReal :=
  ofMat (bnM (toMat h) (toMat x) (rowOf mu) (rowOf var) (rowOf gamma) (rowOf beta))
def projA (x : SN.Idx → EReal) (W : SW.Idx → EReal) (b : SR.Idx → EReal) : SN.Idx → EReal :=
  ofMat (projM (toMat x) (toMat W) (rowOf b))

def wrapRow (i : BitVec 32) : BitVec 32 := if i.slt 0#32 then i + 100000#32 else i

def rowOk (i : BitVec 32) : Prop := (0#32).sle i ∧ i.sle 99999#32
instance : DecidablePred rowOk := fun i => inferInstanceAs (Decidable ((0#32).sle i ∧ i.sle 99999#32))

def srcCol (ei : IVec S2E 32) : IVec SI 32 := fun j => wrapRow (ei (ix2 (0 : Fin 2) (j 0)))

def dstCol (ei : IVec S2E 32) : IVec SI 32 := fun j => ei (ix2 (1 : Fin 2) (j 0))

abbrev SV : Shape := ⟨1, ![640000]⟩

def srcColOfVec (v : IVec SV 32) : IVec SI 32 := fun j => wrapRow (v (ix1 (j 0)))
def colOfVec (v : IVec SV 32) : IVec SI 32 := fun j => v (ix1 (j 0))

def edgeRow (ei : IVec S2E 32) (r : Fin 2) : IVec SV 32 := fun j => ei (ix2 r (j 0))
theorem srcColOfVec_edgeRow (ei : IVec S2E 32) : srcColOfVec (edgeRow ei 0) = srcCol ei := rfl
theorem colOfVec_edgeRow (ei : IVec S2E 32) : colOfVec (edgeRow ei 1) = dstCol ei := rfl

-- The row gather that answers ⊥ where the row number is out of range.
def takeK (dG : GatherDims SN SI SE) (x : SN.Idx → EReal) (w : IVec SI 32) : SE.Idx → EReal :=
  fun j => if rowOk (w (ix2 (j 0) (0 : Fin 1))) then Host.gather dG x w j else ⊥

def takeR (dG : GatherDims SN SI SE) (x : SN.Idx → EReal) (w : IVec SI 32) : SE.Idx → EReal :=
  Host.gather dG x w

-- The rectified messages g + e summed into their destination rows.
def aggOf (dS : ScatterDims SN SI SE) (g : SE.Idx → EReal) (dst : IVec SI 32) (e : SE.Idx → EReal) : SN.Idx → EReal :=
  Host.scatterAdd (F := Ideal) (φ := .f32) dS (fun _ => (0 : EReal)) dst (fun j => max (g j + e j) 0)

-- One layer, generic in how the batch variance is computed.
def layerOf (var : Mat 100000 128 → Fin 128 → EReal) (cur a : SN.Idx → EReal) (c : EReal) (W : SW.Idx → EReal)
    (gamma beta : Fin 128 → EReal) : SN.Idx → EReal :=
  ofMat (bnM (linM c (toMat cur) (toMat a) (toMat W)) (toMat cur)
    (meanOf (linM c (toMat cur) (toMat a) (toMat W))) (var (linM c (toMat cur) (toMat a) (toMat W))) gamma beta)

def layerK (dG : GatherDims SN SI SE) (dS : ScatterDims SN SI SE) (cur : SN.Idx → EReal) (w dst : IVec SI 32)
    (e : SE.Idx → EReal) (c : EReal) (W : SW.Idx → EReal) (gamma beta : Fin 128 → EReal) : SN.Idx → EReal :=
  layerOf varK cur (aggOf dS (takeK dG cur w) dst e) c W gamma beta

def layerR (dG : GatherDims SN SI SE) (dS : ScatterDims SN SI SE) (cur : SN.Idx → EReal) (w dst : IVec SI 32)
    (e : SE.Idx → EReal) (c : EReal) (W : SW.Idx → EReal) (gamma beta : Fin 128 → EReal) : SN.Idx → EReal :=
  layerOf varR cur (aggOf dS (takeR dG cur w) dst e) c W gamma beta

def coefAt (eps : S4.Idx → EReal) (l : Fin 4) : EReal := Ideal.ofBits .f32 0x3F800000#32 + eps (ix1 l)
def weightAt (Ws : S4W.Idx → EReal) (l : Fin 4) : SW.Idx → EReal := fun j => Ws (ix3 l (j 0) (j 1))
def rowAt (g : S4R.Idx → EReal) (l : Fin 4) : Fin 128 → EReal := fun d => g (ix2 l d)

-- Four layers, then the output projection.
def netOf (layer : (SN.Idx → EReal) → IVec SI 32 → IVec SI 32 → (SE.Idx → EReal) → EReal → (SW.Idx → EReal) →
      (Fin 128 → EReal) → (Fin 128 → EReal) → SN.Idx → EReal)
    (x : SN.Idx → EReal) (ei : IVec S2E 32) (e : SE.Idx → EReal) (Ws : S4W.Idx → EReal) (eps : S4.Idx → EReal)
    (gamma beta : S4R.Idx → EReal) (Wout : SW.Idx → EReal) (bout : S128.Idx → EReal) : SN.Idx → EReal :=
  let step (cur : SN.Idx → EReal) (l : Fin 4) : SN.Idx → EReal :=
    layer cur (srcCol ei) (dstCol ei) e (coefAt eps l) (weightAt Ws l) (rowAt gamma l) (rowAt beta l)
  ofMat (projM (toMat (step (step (step (step x 0) 1) 2) 3)) (toMat Wout) (fun d => bout (ix1 d)))

end Cert.Gin

end
-- ==== Proof.Variance.lean ====
import proofs.«410150_j30107720744960_1_alg».proof.Proof.Spec

noncomputable section

namespace Cert.Gin

open Idealize.ShloMosaic Idealize.ShloMosaic.ValueIdx

theorem nodeCount_eq : nodeCount = ((100000 : ℝ) : EReal) := by
  simp [nodeCount, Ideal.ofBits, Ideal.ieee, -EReal.coe_mul]; norm_num

theorem bnEps_pos : ∃ r : ℝ, 0 < r ∧ bnEps = (r : EReal) := by
  refine ⟨(10995116 : ℝ) * (2 : ℝ) ^ (-40 : Int), by positivity, ?_⟩
  simp [bnEps, Ideal.ofBits, Ideal.ieee, -EReal.coe_mul]

theorem one_word_eq : Ideal.ofBits .f32 0x3F800000#32 = ((1 : ℝ) : EReal) := by
  simp [Ideal.ofBits, Ideal.ieee, -EReal.coe_mul]; norm_num

theorem isFin_coe (r : ℝ) : IsFin (r : EReal) := ⟨EReal.coe_ne_top r, EReal.coe_ne_bot r⟩

private theorem isFin_iff {v : EReal} : IsFin v ↔ ∃ r : ℝ, v = (r : EReal) := by
  constructor
  · rintro ⟨ht, hb⟩
    lift v to ℝ using ⟨ht, hb⟩
    exact ⟨v, rfl⟩
  · rintro ⟨r, rfl⟩
    exact isFin_coe r

theorem isFin_zero : IsFin 0 := by
  rw [← EReal.coe_zero]; exact isFin_coe 0

theorem isFin_add {a b : EReal} (ha : IsFin a) (hb : IsFin b) : IsFin (a + b) := by
  obtain ⟨r, rfl⟩ := isFin_iff.mp ha
  obtain ⟨s, rfl⟩ := isFin_iff.mp hb
  rw [← EReal.coe_add]; exact isFin_coe _

theorem isFin_mul {a b : EReal} (ha : IsFin a) (hb : IsFin b) : IsFin (a * b) := by
  obtain ⟨r, rfl⟩ := isFin_iff.mp ha
  obtain ⟨s, rfl⟩ := isFin_iff.mp hb
  rw [← EReal.coe_mul]; exact isFin_coe _

theorem isFin_sub {a b : EReal} (ha : IsFin a) (hb : IsFin b) : IsFin (a - b) := by
  obtain ⟨r, rfl⟩ := isFin_iff.mp ha
  obtain ⟨s, rfl⟩ := isFin_iff.mp hb
  rw [← EReal.coe_sub]; exact isFin_coe _

theorem isFin_max {a b : EReal} (ha : IsFin a) (hb : IsFin b) : IsFin (max a b) := by
  rcases max_choice a b with h | h <;> rw [h] <;> assumption

theorem isFin_sum {ι : Type*} (s : Finset ι) (f : ι → EReal) (h : ∀ i ∈ s, IsFin (f i)) : IsFin (∑ i ∈ s, f i) := by
  classical
  induction s using Finset.induction_on with
  | empty => rw [Finset.sum_empty]; exact isFin_zero
  | insert a s ha ih =>
    rw [Finset.sum_insert ha]
    exact isFin_add (h a (Finset.mem_insert_self a s)) (ih fun i hi => h i (Finset.mem_insert_of_mem hi))

theorem isFin_div_nodeCount {a : EReal} (ha : IsFin a) : IsFin (Ideal.div a nodeCount) := by
  rw [nodeCount_eq, Ideal.div_coe (by norm_num : (100000 : ℝ) ≠ 0)]
  exact isFin_mul ha (isFin_coe _)

private theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- E[g²] − E[g]² = E[(g − E[g])²] over the reals, with c = 1/|s|.
private theorem var_identity {ι : Type*} (s : Finset ι) (g : ι → ℝ) (c : ℝ) (hc : (s.card : ℝ) * c = 1) :
    (∑ i ∈ s, g i * g i) * c - ((∑ i ∈ s, g i) * c) * ((∑ i ∈ s, g i) * c)
      = (∑ i ∈ s, (g i - (∑ j ∈ s, g j) * c) * (g i - (∑ j ∈ s, g j) * c)) * c := by
  have hexp : ∀ i, (g i - (∑ j ∈ s, g j) * c) * (g i - (∑ j ∈ s, g j) * c)
      = g i * g i - 2 * ((∑ j ∈ s, g j) * c) * g i + ((∑ j ∈ s, g j) * c) * ((∑ j ∈ s, g j) * c) := fun i => by ring
  simp only [hexp, Finset.sum_add_distrib, Finset.sum_sub_distrib, ← Finset.mul_sum, Finset.sum_const, nsmul_eq_mul]
  linear_combination (-((∑ j ∈ s, g j) * c * ((∑ j ∈ s, g j) * c))) * hc

-- The two variances agree when every entry is a real number: cast to ℝ and use the identity above.
theorem varK_eq_varR (h : Mat 100000 128) (hh : ∀ n d, IsFin (h n d)) : varK h = varR h := by
  choose g hg using fun n d => isFin_iff.mp (hh n d)
  funext d
  have hN : (100000 : ℝ) ≠ 0 := by norm_num
  simp only [varK, varR, meanOf, colSum, colSumSq, nodeCount_eq, Ideal.div_coe hN, hg]
  simp only [← EReal.coe_mul, ← coe_finset_sum, ← EReal.coe_sub]
  rw [EReal.coe_eq_coe_iff]
  exact var_identity Finset.univ (fun n => g n d) (1 / 100000) (by simp)

theorem linM_fin (c : EReal) (x a : Mat 100000 128) (W : Mat 128 128) (hc : IsFin c) (hx : ∀ n d, IsFin (x n d))
    (ha : ∀ n d, IsFin (a n d)) (hW : ∀ k d, IsFin (W k d)) : ∀ n d, IsFin (linM c x a W n d) := by
  intro n d
  exact isFin_sum _ _ fun k _ => isFin_mul (isFin_add (isFin_mul hc (hx n k)) (ha n k)) (hW k d)

private theorem varR_nonneg (h : Mat 100000 128) (hh : ∀ n d, IsFin (h n d)) (d : Fin 128) :
    ∃ r : ℝ, 0 ≤ r ∧ varR h d = (r : EReal) := by
  choose g hg using fun n d => isFin_iff.mp (hh n d)
  have hN : (100000 : ℝ) ≠ 0 := by norm_num
  refine ⟨(∑ n : Fin 100000, (g n d - (∑ j : Fin 100000, g j d) * (1 / 100000)) * (g n d - (∑ j : Fin 100000, g j d) * (1 / 100000)))
      * (1 / 100000), mul_nonneg (Finset.sum_nonneg fun n _ => mul_self_nonneg _) (by norm_num), ?_⟩
  simp only [varR, meanOf, colSum, nodeCount_eq, Ideal.div_coe hN, hg]
  simp only [← EReal.coe_mul, ← coe_finset_sum, ← EReal.coe_sub]

private theorem rsqrt_fin_of_pos {r : ℝ} (hr : 0 < r) : IsFin (Ideal.rsqrt (r : EReal)) := by
  rw [Ideal.rsqrt_coe, if_neg (not_lt.mpr hr.le), if_neg hr.ne']
  exact isFin_coe _

-- A normalised layer of real numbers is real: var + eps is a positive real, so its rsqrt is real.
theorem bnM_varR_fin (h x : Mat 100000 128) (gamma beta : Fin 128 → EReal) (hh : ∀ n d, IsFin (h n d))
    (hx : ∀ n d, IsFin (x n d)) (hg : ∀ d, IsFin (gamma d)) (hb : ∀ d, IsFin (beta d)) :
    ∀ n d, IsFin (bnM h x (meanOf h) (varR h) gamma beta n d) := by
  intro n d
  have hmu : IsFin (meanOf h d) := isFin_div_nodeCount (isFin_sum _ _ fun n _ => hh n d)
  obtain ⟨v, hv0, hv⟩ := varR_nonneg h hh d
  obtain ⟨e, he0, he⟩ := bnEps_pos
  have hrs : IsFin (Ideal.rsqrt (varR h d + bnEps)) := by
    rw [hv, he, ← EReal.coe_add]
    exact rsqrt_fin_of_pos (add_pos_of_nonneg_of_pos hv0 he0)
  exact isFin_add (isFin_max (isFin_add (isFin_mul (isFin_mul (isFin_sub (hh n d) hmu) hrs) (hg d)) (hb d)) isFin_zero)
    (hx n d)

end Cert.Gin

end
-- ==== Proof.Algebra.lean ====
import proofs.«410150_j30107720744960_1_alg».proof.Proof.Variance

noncomputable section

namespace Cert.Gin

open Idealize.ShloMosaic Idealize.ShloMosaic.ValueIdx

theorem takeK_eq_takeR (dG : GatherDims SN SI SE) (x : SN.Idx → EReal) (w : IVec SI 32)
    (hw : ∀ p : Fin 640000, rowOk (w (ix2 p (0 : Fin 1)))) : takeK dG x w = takeR dG x w := by
  funext j
  unfold takeK takeR
  exact if_pos (hw (j 0))

theorem takeR_fin (dG : GatherDims SN SI SE) (x : SN.Idx → EReal) (w : IVec SI 32) (hx : ∀ j, IsFin (x j)) :
    ∀ j, IsFin (takeR dG x w j) := by
  intro j
  show IsFin (x (dG.operandIdx j w))
  exact hx _

private theorem scatterAdd_fin {s si su : Shape} {w : ℕ} (d : ScatterDims s si su) (x : s.Idx → EReal) (idx : IVec si w)
    (upd : su.Idx → EReal) (hx : ∀ i, IsFin (x i)) (hu : ∀ j, IsFin (upd j)) (i : s.Idx) :
    IsFin (Host.scatterAdd (F := Ideal) (φ := .f32) d x idx upd i) := by
  show IsFin (x i + ∑ j ∈ Finset.univ.filter (fun j => d.resultIdx? j idx = some i), upd j)
  exact isFin_add (hx i) (isFin_sum _ _ fun j _ => hu j)

theorem aggOf_fin (dS : ScatterDims SN SI SE) (g : SE.Idx → EReal) (dst : IVec SI 32) (e : SE.Idx → EReal)
    (hg : ∀ j, IsFin (g j)) (he : ∀ j, IsFin (e j)) : ∀ j, IsFin (aggOf dS g dst e j) := by
  intro j
  unfold aggOf
  exact scatterAdd_fin dS (fun _ => (0 : EReal)) dst (fun r => max (g r + e r) 0) (fun _ => isFin_zero)
    (fun r => isFin_max (isFin_add (hg r) (he r)) isFin_zero) j

-- With in-range rows the gathers agree; with real entries the variances agree, and the layer's output is real again.
theorem layer_eq (dG : GatherDims SN SI SE) (dS : ScatterDims SN SI SE) (cur : SN.Idx → EReal) (w dst : IVec SI 32)
    (e : SE.Idx → EReal) (c : EReal) (W : SW.Idx → EReal) (gamma beta : Fin 128 → EReal)
    (hcur : ∀ j, IsFin (cur j)) (he : ∀ j, IsFin (e j)) (hc : IsFin c) (hW : ∀ j, IsFin (W j))
    (hg : ∀ d, IsFin (gamma d)) (hb : ∀ d, IsFin (beta d))
    (hrow : ∀ p : Fin 640000, rowOk (w (ix2 p (0 : Fin 1)))) :
    layerK dG dS cur w dst e c W gamma beta = layerR dG dS cur w dst e c W gamma beta
      ∧ ∀ j, IsFin (layerR dG dS cur w dst e c W gamma beta j) := by
  have htake : takeK dG cur w = takeR dG cur w := takeK_eq_takeR dG cur w hrow
  have hcurM : ∀ n d, IsFin (toMat cur n d) := fun n d => hcur (ix2 n d)
  have hagg : ∀ j, IsFin (aggOf dS (takeR dG cur w) dst e j) :=
    aggOf_fin dS (takeR dG cur w) dst e (takeR_fin dG cur w hcur) he
  have hlin : ∀ n d, IsFin (linM c (toMat cur) (toMat (aggOf dS (takeR dG cur w) dst e)) (toMat W) n d) :=
    linM_fin c (toMat cur) (toMat (aggOf dS (takeR dG cur w) dst e)) (toMat W) hc hcurM
      (fun n d => hagg (ix2 n d)) (fun k d => hW (ix2 k d))
  refine ⟨?_, ?_⟩
  · unfold layerK layerR layerOf
    rw [htake, varK_eq_varR _ hlin]
  · intro j
    unfold layerR layerOf
    exact bnM_varR_fin _ _ gamma beta hlin hcurM hg hb (j 0) (j 1)

-- Layer by layer: each layer's equality needs the previous layer's output to be real.
theorem net_eq (dG : GatherDims SN SI SE) (dS : ScatterDims SN SI SE) (x : SN.Idx → EReal) (ei : IVec S2E 32)
    (e : SE.Idx → EReal) (Ws : S4W.Idx → EReal) (eps : S4.Idx → EReal) (gamma beta : S4R.Idx → EReal)
    (Wout : SW.Idx → EReal) (bout : S128.Idx → EReal)
    (hx : ∀ j, IsFin (x j)) (he : ∀ j, IsFin (e j)) (hWs : ∀ j, IsFin (Ws j)) (heps : ∀ j, IsFin (eps j))
    (hgamma : ∀ j, IsFin (gamma j)) (hbeta : ∀ j, IsFin (beta j))
    (hrow : ∀ p : Fin 640000, rowOk (srcCol ei (ix2 p (0 : Fin 1)))) :
    netOf (layerK dG dS) x ei e Ws eps gamma beta Wout bout = netOf (layerR dG dS) x ei e Ws eps gamma beta Wout bout := by
  have hcoef : ∀ l, IsFin (coefAt eps l) := fun l => by
    unfold coefAt
    rw [one_word_eq]
    exact isFin_add (isFin_coe 1) (heps (ix1 l))
  have hWl : ∀ l j, IsFin (weightAt Ws l j) := fun l j => hWs (ix3 l (j 0) (j 1))
  have hgl : ∀ l d, IsFin (rowAt gamma l d) := fun l d => hgamma (ix2 l d)
  have hbl : ∀ l d, IsFin (rowAt beta l d) := fun l d => hbeta (ix2 l d)
  have step : ∀ (cur : SN.Idx → EReal) (l : Fin 4), (∀ j, IsFin (cur j)) →
      layerK dG dS cur (srcCol ei) (dstCol ei) e (coefAt eps l) (weightAt Ws l) (rowAt gamma l) (rowAt beta l)
        = layerR dG dS cur (srcCol ei) (dstCol ei) e (coefAt eps l) (weightAt Ws l) (rowAt gamma l) (rowAt beta l)
      ∧ ∀ j, IsFin (layerR dG dS cur (srcCol ei) (dstCol ei) e (coefAt eps l) (weightAt Ws l) (rowAt gamma l)
          (rowAt beta l) j) :=
    fun cur l hcur => layer_eq dG dS cur (srcCol ei) (dstCol ei) e (coefAt eps l) (weightAt Ws l) (rowAt gamma l)
      (rowAt beta l) hcur he (hcoef l) (hWl l) (hgl l) (hbl l) hrow
  obtain ⟨e0, f0⟩ := step x 0 hx
  obtain ⟨e1, f1⟩ := step _ 1 f0
  obtain ⟨e2, f2⟩ := step _ 2 f1
  obtain ⟨e3, _⟩ := step _ 3 f2
  show ofMat (projM (toMat (layerK dG dS (layerK dG dS (layerK dG dS (layerK dG dS x (srcCol ei) (dstCol ei) e
      (coefAt eps 0) (weightAt Ws 0) (rowAt gamma 0) (rowAt beta 0)) (srcCol ei) (dstCol ei) e (coefAt eps 1)
      (weightAt Ws 1) (rowAt gamma 1) (rowAt beta 1)) (srcCol ei) (dstCol ei) e (coefAt eps 2) (weightAt Ws 2)
      (rowAt gamma 2) (rowAt beta 2)) (srcCol ei) (dstCol ei) e (coefAt eps 3) (weightAt Ws 3) (rowAt gamma 3)
      (rowAt beta 3))) (toMat Wout) (fun d => bout (ix1 d))) = _
  rw [e0, e1, e2, e3]
  rfl

end Cert.Gin

end
-- ==== Proof.PreFacts.lean ====
import proofs.«410150_j30107720744960_1_alg».proof.Proof.Spec
import proofs.«410150_j30107720744960_1_alg».proof.Pre_finite_inputs
import proofs.«410150_j30107720744960_1_alg».proof.Proof.Gen.Pre_finite_inputs
import Idealize.ShloMosaic.Lib.ReduceAll
import Idealize.ShloMosaic.Lib.StableHlo.Predicate
import Idealize.ShloMosaic.Lib.ValueLayout
import Idealize.ShloMosaic.Lib.WordArith

noncomputable section

namespace Cert.Gin

open Idealize.ShloMosaic Idealize.ShloMosaic.ValueIdx

private instance : Subsingleton Cert.Pre_finite_inputs.S_.Idx := ⟨fun a b => funext fun d => d.elim0⟩

private theorem isFin_of_abs_lt (v : EReal)
    (h : Ideal.cmp .olt (max v (-v)) (Ideal.ofBits .f32 0x7F800000#32) = 1#1) : IsFin v := by
  have htop : Ideal.ofBits .f32 0x7F800000#32 = (⊤ : EReal) := by simp [Ideal.ofBits, Ideal.ieee]
  rw [htop] at h
  induction v using EReal.rec with
  | bot => simp [Ideal.cmp] at h
  | top => simp [Ideal.cmp] at h
  | coe r => exact ⟨EReal.coe_ne_top r, EReal.coe_ne_bot r⟩

private theorem all_isFin {s : Shape} {axes : List (Fin s.rank)} (v : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
        (cmpf (F := Ideal) (φ := .f32) .olt (Host.absf (F := Ideal) (φ := .f32) v)
          (broadcastInDim s ![] hb (constant (F := Ideal) Cert.Pre_finite_inputs.S_ .f32 0x7F800000#32)))
        init hr hu ix0 = 1#1) (j : s.Idx) : IsFin (v j) :=
  isFin_of_abs_lt (v j) (Host.reduce_andi_all _ init hr hu ix0 h j)

-- A signed word in [−100000, 100000), moved up by 100000 when negative, lies in [0, 99999].
private theorem rowOk_wrapRow (i : BitVec 32) (hge : (4294867296#32).sle i = true) (hlt : i.slt 100000#32 = true) :
    rowOk (wrapRow i) := by
  have c0 : (0#32 : BitVec 32).toInt = 0 := by decide
  have c1 : (4294867296#32 : BitVec 32).toInt = -100000 := by decide
  have c2 : (100000#32 : BitVec 32).toInt = 100000 := by decide
  have c3 : (99999#32 : BitVec 32).toInt = 99999 := by decide
  unfold rowOk wrapRow
  simp only [BitVec.slt, BitVec.sle, decide_eq_true_eq, c0, c1, c2, c3] at hge hlt ⊢
  by_cases hn : i.toInt < 0
  · rw [if_pos hn]
    have hs : (i + 100000#32).toInt = i.toInt + 100000 := by
      rw [WordArith.toInt_add_of_bounds i 100000#32 (by rw [c2]; omega) (by rw [c2]; omega), c2]
    rw [hs]; omega
  · rw [if_neg hn]; omega

private theorem src_read (ei : IVec S2E 32) (hs : S2E.Slices ![0, 0] Cert.Pre_finite_inputs.S1x640000)
    (hc : Cert.Pre_finite_inputs.S1x640000.ShapeCasts Cert.Pre_finite_inputs.S640000) (p : Fin 640000) :
    shapeCast Cert.Pre_finite_inputs.S640000 (extractStridedSlice Cert.Pre_finite_inputs.S1x640000 ![0, 0] ei hs) hc (ix1 p)
      = ei (ix2 (0 : Fin 2) p) := by
  rw [shapeCast_1a_a_apply]
  exact extractStridedSlice_apply _ ei hs _ _ fun a => by
    match a with
    | ⟨0, _⟩ => rfl
    | ⟨1, _⟩ => show p.val = 0 + p.val; omega

-- The precondition read: every float input is a real number, and every normalised source row names a row of the table.
theorem pre_facts [Cert.Pre_finite_inputs.Facts] (x : SN.Idx → EReal) (ei : IVec S2E 32) (e : SE.Idx → EReal)
    (Ws : S4W.Idx → EReal) (eps : S4.Idx → EReal) (gamma beta : S4R.Idx → EReal) (Wout : SW.Idx → EReal)
    (bout : S128.Idx → EReal)
    (h : Cert.Pre_finite_inputs.fn (F := Ideal) x ei e Ws eps gamma beta Wout bout = fun _ => 1#1) :
    (∀ j, IsFin (x j)) ∧ (∀ j, IsFin (e j)) ∧ (∀ j, IsFin (Ws j)) ∧ (∀ j, IsFin (eps j)) ∧ (∀ j, IsFin (gamma j))
      ∧ (∀ j, IsFin (beta j)) ∧ (∀ p : Fin 640000, rowOk (srcCol ei (ix2 p (0 : Fin 1)))) := by
  have e0 := congrFun h ix0
  dsimp only [Cert.Pre_finite_inputs.fn, Cert.Pre_finite_inputs.fn_part1, Cert.Pre_finite_inputs.fn_part2] at e0
  simp only [andi, IntOp.andi_eq_one] at e0
  obtain ⟨⟨⟨⟨⟨⟨⟨⟨⟨hx, he⟩, hWs⟩, heps⟩, hgamma⟩, hbeta⟩, -⟩, -⟩, hge⟩, hlt⟩ := e0
  refine ⟨all_isFin x _ _ _ _ hx, all_isFin e _ _ _ _ he, all_isFin Ws _ _ _ _ hWs, all_isFin eps _ _ _ _ heps,
    all_isFin gamma _ _ _ _ hgamma, all_isFin beta _ _ _ _ hbeta, fun p => ?_⟩
  have g := Host.reduce_andi_all _ _ _ _ ix0 hge (ix1 p)
  have l := Host.reduce_andi_all _ _ _ _ ix0 hlt (ix1 p)
  dsimp only [cmpi, IntOp.cmpi, broadcastInDim, constantI] at g l
  rw [src_read, StableHlo.Predicate.ofBool_eq_one_iff] at g l
  exact rowOk_wrapRow _ g l

end Cert.Gin

end
-- ==== Proof.KRecords.lean ====
import proofs.«410150_j30107720744960_1_alg».proof.Proof.Spec
import proofs.«410150_j30107720744960_1_alg».proof.Proof.Gen.KernelIdeal.Frame

noncomputable section

namespace Cert.KernelIdeal.Val

open Idealize.ShloMosaic Cert.KernelIdeal Cert.KernelIdeal.Gen Cert.Gin

abbrev dGK : GatherDims SN SI SE := gather_S100000x128_S640000x1_S640000x128_1_0_n_n_0_1_1128
abbrev dSK : ScatterDims SN SI SE := scatter_S100000x128_S640000x1_S640000x128_1_0_0_1

end Cert.KernelIdeal.Val

end
-- ==== Proof.KKept.lean ====
import proofs.«410150_j30107720744960_1_alg».proof.Proof.KRecords
import Idealize.ShloMosaic.Lib.StableHlo.Run

noncomputable section

namespace Cert.KernelIdeal.Val

open Idealize.ShloMosaic Idealize.ShloMosaic.TcCoe Idealize.ShloMosaic.StableHlo Idealize.SL.Sem
open Cert.KernelIdeal Cert.KernelIdeal.Gen Cert.Gin

variable (m : (ℓ : Loc nD τ sig) → Buf (Elt Ideal) ℓ) (ρ : Dev nD → PrngReg)

abbrev keptArgs : List (Ref sig .tc) := [main_arg2, main_arg3, main_arg4, main_arg5, main_arg6, main_arg7, main_arg8]

-- The buffers the layers read that nothing writes once the two row vectors are made.
abbrev kept : List (Ref sig .tc) := main_v1 :: main_v3 :: keptArgs

theorem after_kept {K : List (Ref sig .tc)} {b : Ref sig .tc} (hb : b ∈ K) (ops : List (HloOp τ sig (Elt Ideal)))
    {V : Valuation τ sig (Elt Ideal)}
    (h : ops.Forall fun op => ∃ y ∉ K, op.writes = {Proc.devRef .tc y} := by
      repeat' apply And.intro
      all_goals exact ⟨_, by decide, rfl⟩) :
    after ops V (Proc.devRef .tc b) = V (Proc.devRef .tc b) :=
  after_of_forall_not_mem ops V fun op hop hw => by
    obtain ⟨y, hy, e⟩ := List.forall_iff_forall_mem.mp h op hop
    rw [e, Finset.mem_singleton] at hw
    exact hy (Proc.devRef_injective _ hw ▸ hb)

theorem kept_off0 : ∀ b ∈ kept, ∀ w, Pipeline.arrRef spec0 w ≠ b := by decide
theorem kept_off1 : ∀ b ∈ kept, ∀ w, Pipeline.arrRef spec1 w ≠ b := by decide
theorem kept_off2 : ∀ b ∈ kept, ∀ w, Pipeline.arrRef spec2 w ≠ b := by decide
theorem kept_off3 : ∀ b ∈ kept, ∀ w, Pipeline.arrRef spec3 w ≠ b := by decide
theorem kept_off4 : ∀ b ∈ kept, ∀ w, Pipeline.arrRef spec4 w ≠ b := by decide
theorem kept_off5 : ∀ b ∈ kept, ∀ w, Pipeline.arrRef spec5 w ≠ b := by decide
theorem kept_off6 : ∀ b ∈ kept, ∀ w, Pipeline.arrRef spec6 w ≠ b := by decide
theorem kept_off7 : ∀ b ∈ kept, ∀ w, Pipeline.arrRef spec7 w ≠ b := by decide

theorem kept8 (c : Dev nD) {b : Ref sig .tc} (hb : b ∈ kept) :
    W8 m ρ c (Proc.devRef .tc b) = W1 m ρ c (Proc.devRef .tc b) :=
  (W8_of_ne m ρ c b (kept_off1 b hb)).trans <| (after_kept hb hostOps1).trans <| (W6_of_ne m ρ c b (kept_off0 b hb)).trans <|
    (after_kept hb hostOps0_4).trans <| (after_kept hb hostOps0_3).trans <| (after_kept hb hostOps0_2).trans
      (after_kept hb hostOps0_1)

theorem kept15 (c : Dev nD) {b : Ref sig .tc} (hb : b ∈ kept) :
    W15 m ρ c (Proc.devRef .tc b) = W1 m ρ c (Proc.devRef .tc b) :=
  (W15_of_ne m ρ c b (kept_off3 b hb)).trans <| (after_kept hb hostOps3).trans <| (W13_of_ne m ρ c b (kept_off2 b hb)).trans <|
    (after_kept hb hostOps2_3).trans <| (after_kept hb hostOps2_2).trans <| (after_kept hb hostOps2_1).trans <|
      (after_kept hb hostOps2).trans (kept8 m ρ c hb)

theorem kept22 (c : Dev nD) {b : Ref sig .tc} (hb : b ∈ kept) :
    W22 m ρ c (Proc.devRef .tc b) = W1 m ρ c (Proc.devRef .tc b) :=
  (W22_of_ne m ρ c b (kept_off5 b hb)).trans <| (after_kept hb hostOps5).trans <| (W20_of_ne m ρ c b (kept_off4 b hb)).trans <|
    (after_kept hb hostOps4_3).trans <| (after_kept hb hostOps4_2).trans <| (after_kept hb hostOps4_1).trans <|
      (after_kept hb hostOps4).trans (kept15 m ρ c hb)

theorem kept29 (c : Dev nD) {b : Ref sig .tc} (hb : b ∈ kept) :
    W29 m ρ c (Proc.devRef .tc b) = W1 m ρ c (Proc.devRef .tc b) :=
  (W29_of_ne m ρ c b (kept_off7 b hb)).trans <| (after_kept hb hostOps7).trans <| (W27_of_ne m ρ c b (kept_off6 b hb)).trans <|
    (after_kept hb hostOps6_3).trans <| (after_kept hb hostOps6_2).trans <| (after_kept hb hostOps6_1).trans <|
      (after_kept hb hostOps6).trans (kept22 m ρ c hb)

-- The first stretch writes the row vectors and no argument.
theorem kept_launch (c : Dev nD) {b : Ref sig .tc} (hb : b ∈ keptArgs) :
    W1 m ρ c (Proc.devRef .tc b) = m ((c : Thread nD τ).loc b) :=
  after_kept hb hostOps0

theorem kept8_arg2 (c : Dev nD) : W8 m ρ c (Proc.devRef .tc main_arg2) = (m ((c : Thread nD τ).loc main_arg2)) :=
  (kept8 m ρ c (by decide)).trans (kept_launch m ρ c (by decide))

theorem kept8_arg3 (c : Dev nD) : W8 m ρ c (Proc.devRef .tc main_arg3) = (m ((c : Thread nD τ).loc main_arg3)) :=
  (kept8 m ρ c (by decide)).trans (kept_launch m ρ c (by decide))

theorem kept8_arg4 (c : Dev nD) : W8 m ρ c (Proc.devRef .tc main_arg4) = (m ((c : Thread nD τ).loc main_arg4)) :=
  (kept8 m ρ c (by decide)).trans (kept_launch m ρ c (by decide))

theorem kept8_arg5 (c : Dev nD) : W8 m ρ c (Proc.devRef .tc main_arg5) = (m ((c : Thread nD τ).loc main_arg5)) :=
  (kept8 m ρ c (by decide)).trans (kept_launch m ρ c (by decide))

theorem kept8_arg6 (c : Dev nD) : W8 m ρ c (Proc.devRef .tc main_arg6) = (m ((c : Thread nD τ).loc main_arg6)) :=
  (kept8 m ρ c (by decide)).trans (kept_launch m ρ c (by decide))

theorem kept8_v1 (c : Dev nD) : W8 m ρ c (Proc.devRef .tc main_v1) = W1 m ρ c (Proc.devRef .tc main_v1) :=
  kept8 m ρ c (by decide)

theorem kept8_v3 (c : Dev nD) : W8 m ρ c (Proc.devRef .tc main_v3) = W1 m ρ c (Proc.devRef .tc main_v3) :=
  kept8 m ρ c (by decide)

theorem kept15_arg2 (c : Dev nD) : W15 m ρ c (Proc.devRef .tc main_arg2) = (m ((c : Thread nD τ).loc main_arg2)) :=
  (kept15 m ρ c (by decide)).trans (kept_launch m ρ c (by decide))

theorem kept15_arg3 (c : Dev nD) : W15 m ρ c (Proc.devRef .tc main_arg3) = (m ((c : Thread nD τ).loc main_arg3)) :=
  (kept15 m ρ c (by decide)).trans (kept_launch m ρ c (by decide))

theorem kept15_arg4 (c : Dev nD) : W15 m ρ c (Proc.devRef .tc main_arg4) = (m ((c : Thread nD τ).loc main_arg4)) :=
  (kept15 m ρ c (by decide)).trans (kept_launch m ρ c (by decide))

theorem kept15_arg5 (c : Dev nD) : W15 m ρ c (Proc.devRef .tc main_arg5) = (m ((c : Thread nD τ).loc main_arg5)) :=
  (kept15 m ρ c (by decide)).trans (kept_launch m ρ c (by decide))

theorem kept15_arg6 (c : Dev nD) : W15 m ρ c (Proc.devRef .tc main_arg6) = (m ((c : Thread nD τ).loc main_arg6)) :=
  (kept15 m ρ c (by decide)).trans (kept_launch m ρ c (by decide))

theorem kept15_v1 (c : Dev nD) : W15 m ρ c (Proc.devRef .tc main_v1) = W1 m ρ c (Proc.devRef .tc main_v1) :=
  kept15 m ρ c (by decide)

theorem kept15_v3 (c : Dev nD) : W15 m ρ c (Proc.devRef .tc main_v3) = W1 m ρ c (Proc.devRef .tc main_v3) :=
  kept15 m ρ c (by decide)

theorem kept22_arg2 (c : Dev nD) : W22 m ρ c (Proc.devRef .tc main_arg2) = (m ((c : Thread nD τ).loc main_arg2)) :=
  (kept22 m ρ c (by decide)).trans (kept_launch m ρ c (by decide))

theorem kept22_arg3 (c : Dev nD) : W22 m ρ c (Proc.devRef .tc main_arg3) = (m ((c : Thread nD τ).loc main_arg3)) :=
  (kept22 m ρ c (by decide)).trans (kept_launch m ρ c (by decide))

theorem kept22_arg4 (c : Dev nD) : W22 m ρ c (Proc.devRef .tc main_arg4) = (m ((c : Thread nD τ).loc main_arg4)) :=
  (kept22 m ρ c (by decide)).trans (kept_launch m ρ c (by decide))

theorem kept22_arg5 (c : Dev nD) : W22 m ρ c (Proc.devRef .tc main_arg5) = (m ((c : Thread nD τ).loc main_arg5)) :=
  (kept22 m ρ c (by decide)).trans (kept_launch m ρ c (by decide))

theorem kept22_arg6 (c : Dev nD) : W22 m ρ c (Proc.devRef .tc main_arg6) = (m ((c : Thread nD τ).loc main_arg6)) :=
  (kept22 m ρ c (by decide)).trans (kept_launch m ρ c (by decide))

theorem kept22_v1 (c : Dev nD) : W22 m ρ c (Proc.devRef .tc main_v1) = W1 m ρ c (Proc.devRef .tc main_v1) :=
  kept22 m ρ c (by decide)

theorem kept22_v3 (c : Dev nD) : W22 m ρ c (Proc.devRef .tc main_v3) = W1 m ρ c (Proc.devRef .tc main_v3) :=
  kept22 m ρ c (by decide)

theorem kept29_arg7 (c : Dev nD) : W29 m ρ c (Proc.devRef .tc main_arg7) = (m ((c : Thread nD τ).loc main_arg7)) :=
  (kept29 m ρ c (by decide)).trans (kept_launch m ρ c (by decide))

theorem kept29_arg8 (c : Dev nD) : W29 m ρ c (Proc.devRef .tc main_arg8) = (m ((c : Thread nD τ).loc main_arg8)) :=
  (kept29 m ρ c (by decide)).trans (kept_launch m ρ c (by decide))

end Cert.KernelIdeal.Val

end
-- ==== Proof.BnShared.lean ====
import proofs.«410150_j30107720744960_1_alg».proof.Proof.Spec
import proofs.«410150_j30107720744960_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Cert.KernelIdeal Cert.KernelIdeal.Gen Cert.Gin

theorem bn_zero : (![0, 0] : Fin 2 → ℕ) = fun _ => 0 := funext fun a => by fin_cases a <;> rfl

-- Two blocks with the same block index sit at the same place.
theorem bn_emb_eq {r : ℕ} {s s' sz : Fin r → ℕ} {e e' : (⟨r, s⟩ : Shape).Idx → (⟨r, s'⟩ : Shape).Idx} {i i' : Fin r → ℕ}
    (h : ∀ y a, (e y a : ℕ) = i a * sz a + y a) (h' : ∀ y a, (e' y a : ℕ) = i' a * sz a + y a) (hi : i = i')
    (y : (⟨r, s⟩ : Shape).Idx) : e y = e' y :=
  funext fun a => Fin.ext ((h y a).trans (hi ▸ (h' y a).symm))

-- A block with block index zero on every axis sits where its own coordinates say.
theorem bn_emb_self {r : ℕ} {s sz : Fin r → ℕ} {e : (⟨r, s⟩ : Shape).Idx → (⟨r, s⟩ : Shape).Idx} {i : Fin r → ℕ}
    (h : ∀ y a, (e y a : ℕ) = i a * sz a + y a) (hi : i = fun _ => 0) (y : (⟨r, s⟩ : Shape).Idx) : e y = y :=
  funext fun a => Fin.ext (by rw [h, hi, Nat.zero_mul, Nat.zero_add])

-- An index within the rectangle's bounds on every axis is under the slice of the whole array.
theorem bn_mem_slice {b : Ref sig .tc} {off size : Fin b.ty.shape.rank → ℕ} {inb} {i : b.ty.shape.Idx}
    (h : ∀ a, off a ≤ i a ∧ (i a : ℕ) < off a + size a) : i ∈ ((View.whole b).slice (Rect.unit off size inb)).set := by
  rw [View.set_slice_whole]; exact Rect.mem_set_unit.mpr h

-- Row n of a [100000, 128] array lies in the block of 5000 rows with block index (n / 5000, 0).
theorem bn_rows_cover {N : ℕ} (hN : N = 20) {idx : Fin N → Fin 2 → ℕ} (hidx : ∀ t, idx t = ![t.val, 0]) (i : S100000x128.Idx) :
    ∃ t : Fin N, ∀ a : Fin 2, idx t a * S5000x128.size a ≤ (i a).val
      ∧ (i a).val < idx t a * S5000x128.size a + S5000x128.size a := by
  subst hN
  have h0 : (i 0).val < 100000 := (i 0).isLt
  have h1 : (i 1).val < 128 := (i 1).isLt
  refine ⟨⟨(i 0).val / 5000, by omega⟩, fun a => ?_⟩
  rw [hidx]
  match a with
  | ⟨0, _⟩ => show (i 0).val / 5000 * 5000 ≤ (i 0).val ∧ (i 0).val < (i 0).val / 5000 * 5000 + 5000; omega
  | ⟨1, _⟩ => show 0 * 128 ≤ (i 1).val ∧ (i 1).val < 0 * 128 + 128; omega

-- The pointwise body at row r, column d of a block.
theorem bn_pay_ix (vr : Vec Ideal S1x128 .f32) (hb : Vec Ideal S5000x128 .f32) (mu ga be : Vec Ideal S1x128 .f32)
    (xb : Vec Ideal S5000x128 .f32) (r : Fin 5000) (d : Fin 128) :
    k1_pay1 (F := Ideal) vr hb mu ga be xb (ix2 r d)
      = max ((hb (ix2 r d) - mu (ix2 (0 : Fin 1) d)) * Ideal.rsqrt (vr (ix2 (0 : Fin 1) d) + bnEps) * ga (ix2 (0 : Fin 1) d)
          + be (ix2 (0 : Fin 1) d)) 0 + xb (ix2 r d) := by
  unfold k1_pay1
  simp only [shapeCast_self, addf_apply, maximumf_apply, mulf_apply, subf_apply, broadcast_apply, broadcastTo_1b_ab_apply,
    Ideal.ofBits_def, Ideal.ofBits_zero_f32]
  rfl

theorem bn_pay1 : k1_pay1 (F := Ideal) = k1_pay1 := rfl
theorem bn_pay3 : k3_pay1 (F := Ideal) = k1_pay1 := by
  funext v0 v5 v7 v13 v17 v23; simp only [k3_pay1, k1_pay1, shapeCast_self]
theorem bn_pay5 : k5_pay1 (F := Ideal) = k1_pay1 := bn_pay3
theorem bn_pay7 : k7_pay1 (F := Ideal) = k1_pay1 := bn_pay3

-- What the seven block indices at one point satisfy.
abbrev BnIdx (i0 i1 i2 i3 i4 i5 i6 : Fin 2 → ℕ) (n : ℕ) : Prop :=
  i0 = i6 ∧ i1 = i6 ∧ i2 = ![0, 0] ∧ i3 = ![0, 0] ∧ i4 = ![0, 0] ∧ i5 = ![0, 0] ∧ i6 = ![n, 0]

-- The body on blocks of A0 .. A5 at such block indices is the same block of the specification's array.
theorem bn_point {pay} (hp : pay = k1_pay1 (F := Ideal)) (A0 A1 : SN.Idx → EReal) (A2 A3 A4 A5 : SR.Idx → EReal)
    {e0 e1 e6 : S5000x128.Idx → S100000x128.Idx} {e2 e3 e4 e5 : S1x128.Idx → S1x128.Idx} {i0 i1 i2 i3 i4 i5 i6 : Fin 2 → ℕ} {n : ℕ}
    (h0 : ∀ y a, (e0 y a : ℕ) = i0 a * S5000x128.size a + y a) (h1 : ∀ y a, (e1 y a : ℕ) = i1 a * S5000x128.size a + y a)
    (h2 : ∀ y a, (e2 y a : ℕ) = i2 a * S1x128.size a + y a) (h3 : ∀ y a, (e3 y a : ℕ) = i3 a * S1x128.size a + y a)
    (h4 : ∀ y a, (e4 y a : ℕ) = i4 a * S1x128.size a + y a) (h5 : ∀ y a, (e5 y a : ℕ) = i5 a * S1x128.size a + y a)
    (h6 : ∀ y a, (e6 y a : ℕ) = i6 a * S5000x128.size a + y a) (hi : BnIdx i0 i1 i2 i3 i4 i5 i6 n) (j : S5000x128.Idx) :
    View.canon [(⟨r1_1, pay (View.ld (fun y => A3 (e3 y)) r1_0) (View.ld (fun y => A0 (e0 y)) r1_1)
        (View.ld (fun y => A2 (e2 y)) r1_0) (View.ld (fun y => A4 (e4 y)) r1_0) (View.ld (fun y => A5 (e5 y)) r1_0)
        (View.ld (fun y => A1 (e1 y)) r1_1)⟩ : View.Piece (Elt Ideal) S5000x128 .f32)] j
      = bnA A0 A1 A2 A3 A4 A5 (e6 j) := by
  obtain ⟨q0, q1, q2, q3, q4, q5, q6⟩ := hi
  obtain ⟨r, d, rfl⟩ : ∃ r d, j = ix2 r d := ⟨j 0, j 1, eq_ix2 j⟩
  have hc : e6 (ix2 r d) = ix2 (e6 (ix2 r d) 0) d :=
    Shape.idx_ext₂ rfl (by rw [h6, q6]; show 0 * 128 + d.val = d.val; omega)
  rw [View.canon_unit_zero bn_zero]
  simp only [View.ld_unit_zero (S := S5000x128) bn_zero, View.ld_unit_zero (S := S1x128) bn_zero]
  rw [hp, bn_pay_ix, bn_emb_eq h0 h6 q0, bn_emb_eq h1 h6 q1, bn_emb_self h2 (q2.trans bn_zero), bn_emb_self h3 (q3.trans bn_zero),
    bn_emb_self h4 (q4.trans bn_zero), bn_emb_self h5 (q5.trans bn_zero), hc]
  rfl

end Cert.KernelIdeal.Val

end
-- ==== Proof.RegProj8.lean ====
import proofs.«410150_j30107720744960_1_alg».proof.Proof.BnShared
import Idealize.ShloMosaic.Lib.StackMember

noncomputable section

namespace Cert.KernelIdeal.Val

open Idealize.ShloMosaic Idealize.ShloMosaic.TcCoe Idealize.ShloMosaic.ValueIdx Cert.KernelIdeal Cert.KernelIdeal.Gen Cert.Gin

-- The body at row r, column d of a block: row r of x times column d of W, plus b at d.
theorem proj8_pay_ix (x : Vec Ideal S5000x128 .f32) (W : Vec Ideal S128x128 .f32) (b : Vec Ideal S1x128 .f32) (r : Fin 5000)
    (d : Fin 128) :
    k8_pay1 (F := Ideal) x W b (ix2 r d) = (∑ k : Fin 128, x (ix2 r k) * W (ix2 k d)) + b (ix2 (0 : Fin 1) d) := by
  unfold k8_pay1
  rw [addf_apply, shapeCast_self, shapeCast_self, broadcastTo_1b_ab_apply, matmul_zero_eq_dotGeneral]
  exact congrArg (· + b (ix2 (0 : Fin 1) d)) (StackMember.dotGeneral_plain_apply none _ _ r d)

-- The body on a block of rows of A0, with A1 and A2 whole, is the same block of rows of the projection.
theorem proj8_point (A0 : SN.Idx → EReal) (A1 : SW.Idx → EReal) (A2 : SR.Idx → EReal)
    {e0 e3 : S5000x128.Idx → S100000x128.Idx} {e1 : S128x128.Idx → S128x128.Idx} {e2 : S1x128.Idx → S1x128.Idx}
    {i0 i1 i2 i3 : Fin 2 → ℕ} {n : ℕ}
    (h0 : ∀ y a, (e0 y a : ℕ) = i0 a * S5000x128.size a + y a) (h1 : ∀ y a, (e1 y a : ℕ) = i1 a * S128x128.size a + y a)
    (h2 : ∀ y a, (e2 y a : ℕ) = i2 a * S1x128.size a + y a) (h3 : ∀ y a, (e3 y a : ℕ) = i3 a * S5000x128.size a + y a)
    (hi : i0 = i3 ∧ i1 = ![0, 0] ∧ i2 = ![0, 0] ∧ i3 = ![n, 0]) (j : S5000x128.Idx) :
    View.canon [(⟨r8_0, k8_pay1 (F := Ideal) (View.ld (fun y => A0 (e0 y)) r8_0) (View.ld (fun y => A1 (e1 y)) r8_1)
        (View.ld (fun y => A2 (e2 y)) r8_2)⟩ : View.Piece (Elt Ideal) S5000x128 .f32)] j = projA A0 A1 A2 (e3 j) := by
  obtain ⟨q0, q1, q2, q3⟩ := hi
  obtain ⟨r, d, rfl⟩ : ∃ r d, j = ix2 r d := ⟨j 0, j 1, eq_ix2 j⟩
  obtain ⟨m, hm⟩ : ∃ m, ∀ k, e3 (ix2 r k) = ix2 m k :=
    ⟨e3 (ix2 r d) 0, fun k => Shape.idx_ext₂ (by rw [h3, h3]) (by rw [h3, q3]; show 0 * 128 + k.val = k.val; omega)⟩
  rw [View.canon_unit_zero bn_zero]
  simp only [View.ld_unit_zero (S := S5000x128) bn_zero, View.ld_unit_zero (S := S128x128) bn_zero,
    View.ld_unit_zero (S := S1x128) bn_zero]
  rw [proj8_pay_ix, hm]
  simp only [bn_emb_eq h0 h3 q0, bn_emb_self h1 (q1.trans bn_zero), bn_emb_self h2 (q2.trans bn_zero), hm]
  rfl

variable (V : (c : Dev nD) → (b : Ref sig .tc) → Buf (Elt Ideal) ((c : Thread nD τ).loc b))

theorem proj8_idx : ∀ t : Fin cfg8.N, win8_0.index t = win8_3.index t ∧ win8_1.index t = ![0, 0] ∧ win8_2.index t = ![0, 0]
    ∧ win8_3.index t = ![t.val, 0] :=
  (by decide +kernel : ∀ t : Fin grid8.N, _)

theorem proj8_cover (i : S100000x128.Idx) :
    ∃ t : Fin cfg8.N, (cfg8.win 3).flush t = true ∧ i ∈ ((cfg8.win 3).blk t).view.set :=
  (bn_rows_cover N_8 (fun t => (proj8_idx t).2.2.2) i).imp fun t h =>
    ⟨flush8_3 t, bn_mem_slice (b := Pipeline.arrRef spec8 3) h⟩

theorem proj8_value (c : Dev nD) :
    (dat8 (F := Ideal) V c).arrAt 3 cfg8.N
      = projA (V c (Pipeline.arrRef spec8 0)) (V c (Pipeline.arrRef spec8 1)) (V c (Pipeline.arrRef spec8 2)) :=
  (dat8 (F := Ideal) V c).arrAt_eq_of_cover 3 _
    (fun t _ => by
      show (cfg8.win 3).cut (grid8.coords t) ((dat8 (F := Ideal) V c).after 3 t) = _
      rw [after8_3]
      funext j
      exact (proj8_point (V c (Pipeline.arrRef spec8 0)) (V c (Pipeline.arrRef spec8 1)) (V c (Pipeline.arrRef spec8 2))
        (win8_0.rect_emb_val t) (win8_1.rect_emb_val t) (win8_2.rect_emb_val t)
        (win8_3.rect_emb_val t) (proj8_idx t) j :))
    proj8_cover

end Cert.KernelIdeal.Val

end
-- ==== Proof.KLayerShared.lean ====
import proofs.«410150_j30107720744960_1_alg».proof.Proof.KRecords
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Reduce
import Idealize.ShloMosaic.PureOps.Ideal.Laws

set_option maxRecDepth 16384

noncomputable section

namespace Cert.KernelIdeal.Val

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.Gin

theorem junk_f32 : Ideal.ofBits .f32 0x7FC00000#32 = ⊥ := by simp [Ideal.ofBits, Ideal.ieee]

-- a negative row number counts from the end of the table
theorem wrap_word (x : BitVec 32) :
    Scalar.select (IntOp.cmpi .slt x 0#32) (IntOp.addi x 100000#32) x = wrapRow x := by
  unfold wrapRow Scalar.select IntOp.cmpi IntOp.addi
  cases h : x.slt 0#32 <;> simp

-- the two range tests joined say the row number names a row
theorem range_word (x : BitVec 32) :
    IntOp.andi (IntOp.cmpi .sge x 0#32) (IntOp.cmpi .sle x 99999#32) = 1#1 ↔ rowOk x := by
  unfold rowOk IntOp.andi IntOp.cmpi
  cases h1 : (0#32).sle x <;> cases h2 : x.sle 99999#32 <;> simp

theorem and_one_bit (b : BitVec 1) : IntOp.andi b 1#1 = b := by
  rcases BitVec.eq_zero_or_eq_one b with h | h <;> subst h <;> decide

theorem bcast_rows_read {α : Type} {n k : ℕ} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  refine broadcastInDim_apply _ h v (ix2 p q) (ix1 p) fun a => ?_
  match a with
  | ⟨0, _⟩ =>
    show p.val = if n = 1 then 0 else p.val
    split
    · have := p.isLt; omega
    · rfl

theorem lift_cols_eq {a b : ℕ} (h : (⟨2, ![a, b]⟩ : Shape).Reduces [1] ⟨1, ![a]⟩) (i : Fin a) (k : Fin b) :
    h.lift (ix1 i) k = ix2 i k := by
  funext ax
  match ax with
  | ⟨0, _⟩ => exact Fin.ext rfl
  | ⟨1, _⟩ => exact Fin.ext rfl

-- a fold of `and` from the bit 1 along an axis of length one is the entry itself
theorem reduce_and_unit {n : ℕ} (P : IVec ⟨2, ![n, 1]⟩ 1) {u : Shape} (init : IVec u 1)
    (h' : (⟨2, ![n, 1]⟩ : Shape).ReducesTo [1] ⟨1, ![n]⟩) (hu : 0 < u.numel)
    (hinit : init (Shape.Idx.first hu) = 1#1) (p : Fin n) :
    Host.reduce IntOp.andi P init h' hu (ix1 p) = P (ix2 p (0 : Fin 1)) := by
  have h : (⟨2, ![n, 1]⟩ : Shape).Reduces [1] ⟨1, ![n]⟩ := ⟨h'.1, Nat.one_pos, h'.2⟩
  have hfold : ∀ f : Fin 1 → BitVec 1, (Finset.univ : Finset (Fin 1)).fold IntOp.andi 1#1 f = IntOp.andi (f 0) 1#1 := by
    intro f; rw [Finset.univ_unique, Finset.fold_singleton]; rfl
  rw [Host.reduce_eq_fold_single IntOp.andi P init h' h hu (ix1 p), hinit]
  exact (hfold (P ∘ h.lift (ix1 p))).trans (by rw [and_one_bit]; exact congrArg P (lift_cols_eq h p 0))

theorem src_col_read (v : IVec SV 32) (h0 : S_.BroadcastsInDim SV ![]) (hc : SV.BroadcastsInDim SI ![0]) :
    broadcastInDim SI ![0] hc
        (select (cmpi .slt v (broadcastInDim SV ![] h0 (constantI S_ 32 0#32)))
          (addi v (broadcastInDim SV ![] h0 (constantI S_ 32 100000#32))) v)
      = srcColOfVec v := by
  funext j
  obtain ⟨p, u, rfl⟩ : ∃ (p : Fin 640000) (u : Fin 1), j = ix2 p u := ⟨j 0, j 1, eq_ix2 j⟩
  rw [bcast_rows_read]
  exact wrap_word (v (ix1 p))

-- rectified sums added into the destination rows of a zero table
theorem agg_read (dS : ScatterDims SN SI SE) (g e : SE.Idx → EReal) (v : IVec SV 32)
    (hz : S_.BroadcastsInDim SN ![]) (hc : SV.BroadcastsInDim SI ![0]) (hz' : S_.BroadcastsInDim SE ![]) :
    Host.scatterAdd (F := Ideal) (φ := .f32) dS (broadcastInDim SN ![] hz (constant (F := Ideal) S_ .f32 0x00000000#32))
        (broadcastInDim SI ![0] hc v)
        (maximumf (addf g e) (broadcastInDim SE ![] hz' (constant (F := Ideal) S_ .f32 0x00000000#32)))
      = aggOf dS g (colOfVec v) e := by
  have h1 : broadcastInDim SN ![] hz (constant (F := Ideal) S_ .f32 0x00000000#32) = fun _ => (0 : EReal) := by
    funext j; exact Ideal.ofBits_zero_f32
  have h2 : broadcastInDim SI ![0] hc v = colOfVec v := by
    funext j
    obtain ⟨p, u, rfl⟩ : ∃ (p : Fin 640000) (u : Fin 1), j = ix2 p u := ⟨j 0, j 1, eq_ix2 j⟩
    exact bcast_rows_read hc v p u
  have h3 : maximumf (addf g e) (broadcastInDim SE ![] hz' (constant (F := Ideal) S_ .f32 0x00000000#32))
      = fun j => max (g j + e j) 0 := by
    funext j
    show max (g j + e j) (Ideal.ofBits .f32 0x00000000#32) = _
    rw [Ideal.ofBits_zero_f32]
  rw [h1, h2, h3]
  rfl

theorem coef_read (eps : S4.Idx → EReal) (l : Fin 4) (hs : S4.Slices ![l.val] S1) (hc1 : S1.ShapeCasts S_)
    (hc2 : S_.ShapeCasts S11) :
    shapeCast S11 (addf (constant (F := Ideal) S_ .f32 0x3F800000#32) (shapeCast S_ (extractStridedSlice S1 ![l.val] eps hs) hc1)) hc2
        (ix2 (0 : Fin 1) (0 : Fin 1))
      = coefAt eps l := by
  unfold coefAt shapeCast
  show Ideal.ofBits .f32 0x3F800000#32 + extractStridedSlice S1 ![l.val] eps hs _ = _
  congr 1
  refine extractStridedSlice_apply _ eps hs _ (ix1 l) fun a => ?_
  match a with
  | ⟨0, _⟩ =>
    generalize Shape.reshapeEquiv hc1 _ = k
    have hk : (k 0).val < 1 := (k 0).isLt
    show l.val = l.val + (k 0).val
    omega

theorem weight_read (Ws : S4W.Idx → EReal) (l : Fin 4) (hs : S4W.Slices ![l.val, 0, 0] S1x128x128)
    (hc : S1x128x128.ShapeCasts SW) :
    shapeCast SW (extractStridedSlice S1x128x128 ![l.val, 0, 0] Ws hs) hc = weightAt Ws l := by
  funext j
  obtain ⟨a, b, rfl⟩ : ∃ (a b : Fin 128), j = ix2 a b := ⟨j 0, j 1, eq_ix2 j⟩
  rw [shapeCast_1ab_ab_apply]
  exact extractStridedSlice_apply _ Ws hs _ (ix3 l a b) fun ax => by
    match ax with
    | ⟨0, _⟩ => exact (Nat.add_zero _).symm
    | ⟨1, _⟩ => exact (Nat.zero_add _).symm
    | ⟨2, _⟩ => exact (Nat.zero_add _).symm

theorem row_read (g : S4R.Idx → EReal) (l : Fin 4) (hs : S4R.Slices ![l.val, 0] SR) (hc1 : SR.ShapeCasts S128)
    (hc2 : S128.ShapeCasts SR) :
    rowOf (shapeCast SR (shapeCast S128 (extractStridedSlice SR ![l.val, 0] g hs) hc1) hc2) = rowAt g l := by
  funext d
  show shapeCast SR _ hc2 (ix2 (0 : Fin 1) d) = g (ix2 l d)
  rw [shapeCast_a_1a_apply, shapeCast_1a_a_apply]
  exact slice2_axis0_apply l.val g hs (0 : Fin 1) d l (Nat.add_zero _).symm

theorem mean_read (h : SN.Idx → EReal) (hb : S_.BroadcastsInDim SR ![]) :
    Host.divf (F := Ideal) (φ := .f32) (sumA h) (broadcastInDim SR ![] hb (constant (F := Ideal) S_ .f32 0x47C35000#32))
      = ofRow (meanOf (toMat h)) := by
  funext j; rfl

theorem var_read (h : SN.Idx → EReal) (hb : S_.BroadcastsInDim SR ![]) :
    subf (Host.divf (F := Ideal) (φ := .f32) (sumSqA h) (broadcastInDim SR ![] hb (constant (F := Ideal) S_ .f32 0x47C35000#32)))
        (mulf (Host.divf (F := Ideal) (φ := .f32) (sumA h) (broadcastInDim SR ![] hb (constant (F := Ideal) S_ .f32 0x47C35000#32)))
          (Host.divf (F := Ideal) (φ := .f32) (sumA h) (broadcastInDim SR ![] hb (constant (F := Ideal) S_ .f32 0x47C35000#32))))
      = ofRow (varK (toMat h)) := by
  funext j; rfl

-- the normalising call over the linear call's product, its batch mean and variance is the layer
theorem layer_assemble (dG : GatherDims SN SI SE) (dS : ScatterDims SN SI SE) (cur : SN.Idx → EReal) (w dst : IVec SI 32)
    (e : SE.Idx → EReal) (cf : EReal) (Wt : SW.Idx → EReal) (g b : Fin 128 → EReal)
    (cfA : S11.Idx → EReal) (x a : SN.Idx → EReal) (WtA : SW.Idx → EReal) (h res : SN.Idx → EReal) (mu var gam bet : SR.Idx → EReal)
    (hh : h = linA cfA x a WtA) (hres : res = cur) (hmu : mu = ofRow (meanOf (toMat (linA cfA x a WtA))))
    (hvar : var = ofRow (varK (toMat (linA cfA x a WtA)))) (hg : rowOf gam = g) (hb : rowOf bet = b)
    (hcf : cfA (ix2 (0 : Fin 1) (0 : Fin 1)) = cf) (hx : x = cur) (ha : a = aggOf dS (takeK dG cur w) dst e) (hW : WtA = Wt) :
    bnA h res mu var gam bet = layerK dG dS cur w dst e cf Wt g b := by
  subst hh hres hmu hvar hg hb hcf hx ha hW
  rfl

-- each row number is wrapped, then the gathered row where it is in range, the junk value ⊥ elsewhere
theorem take_run (dG : GatherDims SN SI SE) (cur : SN.Idx → EReal) (v : IVec SV 32)
    (h0v : S_.BroadcastsInDim SV ![]) (hc : SV.BroadcastsInDim SI ![0])
    (hm : SV.BroadcastsInDim SE ![0]) (h0 : S_.BroadcastsInDim SI ![])
    (h9 : S1x1.BroadcastsInDim SI ![0, 1]) (h9' : S1.BroadcastsInDim S1x1 ![1])
    (hf : S_.BroadcastsInDim SE ![]) (hr : SI.ReducesTo [1] SV) (hu : 0 < S_.numel) :
    select
        (broadcastInDim SE ![0] hm
          (Host.reduce IntOp.andi
            (andi
              (cmpi .sge
                (broadcastInDim SI ![0] hc
                  (select (cmpi .slt v (broadcastInDim SV ![] h0v (constantI S_ 32 0#32)))
                    (addi v (broadcastInDim SV ![] h0v (constantI S_ 32 100000#32))) v))
                (broadcastInDim SI ![] h0 (constantI S_ 32 0#32)))
              (cmpi .sle
                (broadcastInDim SI ![0] hc
                  (select (cmpi .slt v (broadcastInDim SV ![] h0v (constantI S_ 32 0#32)))
                    (addi v (broadcastInDim SV ![] h0v (constantI S_ 32 100000#32))) v))
                (broadcastInDim SI ![0, 1] h9 (broadcastInDim S1x1 ![1] h9' (constantI S1 32 99999#32)))))
            (constantI S_ 1 1#1) hr hu))
        (Host.gather dG cur
          (broadcastInDim SI ![0] hc
            (select (cmpi .slt v (broadcastInDim SV ![] h0v (constantI S_ 32 0#32)))
              (addi v (broadcastInDim SV ![] h0v (constantI S_ 32 100000#32))) v)))
        (broadcastInDim SE ![] hf (constant (F := Ideal) S_ .f32 0x7FC00000#32))
      = takeK dG cur (srcColOfVec v) := by
  rw [src_col_read]
  generalize srcColOfVec v = w
  funext j
  obtain ⟨p, q, rfl⟩ : ∃ (p : Fin 640000) (q : Fin 128), j = ix2 p q := ⟨j 0, j 1, eq_ix2 j⟩
  rw [select_apply, bcast_rows_read, reduce_and_unit _ _ _ _ rfl]
  show Scalar.select (IntOp.andi (IntOp.cmpi .sge (w (ix2 p (0 : Fin 1))) 0#32) (IntOp.cmpi .sle (w (ix2 p (0 : Fin 1))) 99999#32))
      (Host.gather dG cur w (ix2 p q)) (Ideal.ofBits .f32 0x7FC00000#32)
    = if rowOk (w (ix2 p (0 : Fin 1))) then Host.gather dG cur w (ix2 p q) else ⊥
  by_cases hok : rowOk (w (ix2 p (0 : Fin 1)))
  · rw [if_pos hok, (range_word _).mpr hok, select_one]
  · rw [if_neg hok, eq_zero_of_ne_one (fun h => hok ((range_word _).mp h)), select_zero, junk_f32]

theorem edge_row_read (ei : IVec S2E 32) (o : Nat) (r : Fin 2) (hr : r.val = o)
    (hs : S2E.Slices ![o, 0] (⟨2, ![1, 640000]⟩ : Shape)) (hc : (⟨2, ![1, 640000]⟩ : Shape).ShapeCasts SV) :
    shapeCast SV (extractStridedSlice ⟨2, ![1, 640000]⟩ ![o, 0] ei hs) hc = edgeRow ei r := by
  funext j
  obtain ⟨p, rfl⟩ : ∃ p : Fin 640000, j = ix1 p := ⟨j 0, eq_ix1 j⟩
  rw [shapeCast_1a_a_apply]
  show _ = ei (ix2 r p)
  exact extractStridedSlice_apply _ ei hs _ _ fun a => by
    match a with
    | ⟨0, _⟩ => show r.val = o + 0; omega
    | ⟨1, _⟩ => show p.val = 0 + p.val; omega

theorem ofBuf_toBuf {T : BufTy} (x : StableHlo.TRef sig T) (v : T.Contents (Elt Ideal)) : x.ofBuf (x.toBuf v) = v := by
  obtain ⟨r, rfl, h2, h3⟩ := x; rfl

theorem toBuf_of (r : Ref sig .tc) (h2 h3) (v : r.ty.Contents (Elt Ideal)) :
    (⟨r, rfl, h2, h3⟩ : StableHlo.TRef sig r.ty).toBuf v = v := rfl

end Cert.KernelIdeal.Val

end
-- ==== Proof.LinShared.lean ====
import proofs.«410150_j30107720744960_1_alg».proof.Proof.Spec
import proofs.«410150_j30107720744960_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Val.Lin

open Idealize.ShloMosaic Idealize.ShloMosaic.TcCoe Idealize.ShloMosaic.ValueIdx Idealize.SL.Sem
open Cert.KernelIdeal Cert.KernelIdeal.Gen Cert.Gin

abbrev dotD := dot_S5000x128_S128x128_S5000x128_1_0_0_1_n_n

private theorem lhs_axis0 (i : S5000x128.Idx) (q : dotD.contr.Idx) : (dotD.lhsIdx i q 0).val = (i 0).val := by
  unfold DotDims.lhsIdx
  rw [dif_neg (show ¬(0 : Fin S5000x128.rank) ∈ dotD.lhsBatch by decide), dif_pos (show (0 : Fin S5000x128.rank) ∈ dotD.lhsNonContracting by decide)]
  rfl
private theorem rhs_axis1 (i : S5000x128.Idx) (q : dotD.contr.Idx) : (dotD.rhsIdx i q 1).val = (i 1).val := by
  unfold DotDims.rhsIdx
  rw [dif_neg (show ¬(1 : Fin S128x128.rank) ∈ dotD.rhsBatch by decide), dif_pos (show (1 : Fin S128x128.rank) ∈ dotD.rhsNonContracting by decide)]
  rfl

theorem extract_one (v : Vec Ideal S1x1 .f32) (h : ∀ a, (![0, 0] : Fin S1x1.rank → Nat) a < S1x1.size a) :
    extractAt ![0, 0] v h = v (ix2 (0 : Fin 1) (0 : Fin 1)) := by
  unfold extractAt
  exact congrArg v (funext fun a => by match a with | ⟨0, _⟩ => rfl | ⟨1, _⟩ => rfl)

-- Entry (r, d) of a block product is the sum over k of lhs[r, k] · rhs[k, d].
theorem matmul_entry (l : FVec Ideal S5000x128 .bf16) (w : FVec Ideal S128x128 .bf16) (r : Fin 5000) (d : Fin 128) :
    FloatOps.matmul dotD none l w (constant S5000x128 .f32 0x00000000#32) (ix2 r d) = ∑ k : Fin 128, l (ix2 r k) * w (ix2 k d) := by
  rw [Ideal.matmul_constant_zero_apply, ← Equiv.sum_comp (contrEquiv1 dotD 128 rfl rfl).symm]
  refine Finset.sum_congr rfl fun k _ => ?_
  have hk := contrEquiv1_symm_val dotD 128 rfl rfl k
  have el : dotD.lhsIdx (ix2 r d) ((contrEquiv1 dotD 128 rfl rfl).symm k) = ix2 r k := funext fun a => Fin.ext (by
    match a with
    | ⟨0, _⟩ => exact lhs_axis0 _ _
    | ⟨1, _⟩ => exact (dotD.lhsIdx_val_of_single rfl _ _).trans hk)
  have er : dotD.rhsIdx (ix2 r d) ((contrEquiv1 dotD 128 rfl rfl).symm k) = ix2 k d := funext fun a => Fin.ext (by
    match a with
    | ⟨0, _⟩ => exact (dotD.rhsIdx_val_of_single rfl _ _).trans hk
    | ⟨1, _⟩ => exact rhs_axis1 _ _)
  rw [el, er]

private theorem lift_rows_eq {a b : ℕ} (h : (⟨2, ![a, b]⟩ : Shape).Reduces [0] ⟨1, ![b]⟩) (d : Fin b) (k : Fin a) :
    h.lift (ix1 d) k = ix2 k d := by
  funext ax
  match ax with
  | ⟨0, _⟩ => exact Fin.ext rfl
  | ⟨1, _⟩ => exact Fin.ext rfl

-- An accumulator row plus the column sums of a block, at (u, d).
theorem acc_apply (acc : Vec Ideal S1x128 .f32) (h : FVec Ideal S5000x128 .f32) (u : Fin 1) (d : Fin 128) :
    addf (shapeCast S1x128 acc shapeCasts_S1x128_S1x128) (shapeCast S1x128 (multiReduction (F := Ideal) .add [0] S128 h 0x00000000#32 reduces_S5000x128_S128 (.inl rfl) rfl)
        shapeCasts_S128_S1x128) (ix2 u d) = acc (ix2 u d) + ∑ r : Fin 5000, h (ix2 r d) := by
  refine (addf_apply _ _ _).trans ?_
  rw [shapeCast_self]
  exact congrArg (acc (ix2 u d) + ·) ((shapeCast_a_1a_apply _ shapeCasts_S128_S1x128 u d).trans
    ((Ideal.multiReduction_add_single h 0x00000000#32 reduces_S5000x128_S128 (.inl rfl) rfl (ix1 d)).trans
      (Finset.sum_congr rfl fun r _ => congrArg h (lift_rows_eq reduces_S5000x128_S128 d r))))

theorem hz : (![0, 0] : Fin 2 → Nat) = fun _ => 0 := funext fun a => by fin_cases a <;> rfl

abbrev VB := Vec Ideal S5000x128 .f32
abbrev VW := Vec Ideal S128x128 .f32
abbrev VC := Vec Ideal S1x1 .f32
abbrev VR := Vec Ideal S1x128 .f32

/-- The body's arithmetic: the product block (c·x + a)·W, the two accumulator updates, the two cleared rows. -/
structure Pay where
  p3 : VC → VB → VB → VW → VB
  p4 : VC → VB → VB → VW → VR → VR
  p5 : VC → VB → VB → VW → VR → VR
  z1 : VR
  z2 : VR
  h3 : ∀ v3 v5 v9 v13 (r : Fin 5000) (d : Fin 128), p3 v3 v5 v9 v13 (ix2 r d)
    = ∑ k : Fin 128, (v3 (ix2 (0 : Fin 1) (0 : Fin 1)) * v5 (ix2 r k) + v9 (ix2 r k)) * v13 (ix2 k d)
  h4 : ∀ v3 v5 v9 v13 acc (u : Fin 1) (d : Fin 128), p4 v3 v5 v9 v13 acc (ix2 u d)
    = acc (ix2 u d) + ∑ r : Fin 5000, p3 v3 v5 v9 v13 (ix2 r d)
  h5 : ∀ v3 v5 v9 v13 acc (u : Fin 1) (d : Fin 128), p5 v3 v5 v9 v13 acc (ix2 u d)
    = acc (ix2 u d) + ∑ r : Fin 5000, p3 v3 v5 v9 v13 (ix2 r d) * p3 v3 v5 v9 v13 (ix2 r d)
  hz1 : ∀ (u : Fin 1) (d : Fin 128), z1 (ix2 u d) = 0
  hz2 : ∀ (u : Fin 1) (d : Fin 128), z2 (ix2 u d) = 0

def pay0 : Pay where
  p3 := k0_pay3 (F := Ideal)
  p4 := k0_pay4 (F := Ideal)
  p5 := k0_pay5 (F := Ideal)
  z1 := k0_pay1 (F := Ideal)
  z2 := k0_pay2 (F := Ideal)
  h3 v3 v5 v9 v13 r d := by
    unfold k0_pay3
    refine (matmul_entry _ _ r d).trans (Finset.sum_congr rfl fun k _ => ?_)
    simp only [truncf_apply, addf_apply, mulf_apply, broadcast_apply, shapeCast_self]
    rw [extract_one v3 inpos_S1x1_p0_0]
  h4 v3 v5 v9 v13 acc u d := by unfold k0_pay4; exact acc_apply acc _ u d
  h5 v3 v5 v9 v13 acc u d := by unfold k0_pay5; exact acc_apply acc (mulf _ _) u d
  hz1 u d := by unfold k0_pay1; exact Ideal.ofBits_zero_f32
  hz2 u d := by unfold k0_pay2; exact Ideal.ofBits_zero_f32

def pay2 : Pay where
  p3 := k2_pay3 (F := Ideal)
  p4 := k2_pay4 (F := Ideal)
  p5 := k2_pay5 (F := Ideal)
  z1 := k2_pay1 (F := Ideal)
  z2 := k2_pay2 (F := Ideal)
  h3 v3 v5 v9 v13 r d := by
    unfold k2_pay3
    refine (matmul_entry _ _ r d).trans (Finset.sum_congr rfl fun k _ => ?_)
    simp only [truncf_apply, addf_apply, mulf_apply, broadcast_apply, shapeCast_self]
    rw [extract_one v3 inpos_S1x1_p0_0]
  h4 v3 v5 v9 v13 acc u d := by unfold k2_pay4; exact acc_apply acc _ u d
  h5 v3 v5 v9 v13 acc u d := by unfold k2_pay5; exact acc_apply acc (mulf _ _) u d
  hz1 u d := by unfold k2_pay1; exact Ideal.ofBits_zero_f32
  hz2 u d := by unfold k2_pay2; exact Ideal.ofBits_zero_f32

/-- Row n of a matrix, zero past its last row. -/
def rowOr0 (h : Mat 100000 128) (n : ℕ) (d : Fin 128) : EReal := if hn : n < 100000 then h ⟨n, hn⟩ d else 0

-- The sum over 100000 rows is the sum over 20 blocks of the sums over each block's 5000 rows.
theorem sum_blocks (f : ℕ → EReal) :
    ∑ s ∈ Finset.range 20, ∑ r : Fin 5000, f (5000 * s + r.val) = ∑ n : Fin 100000, f n.val := by
  rw [Finset.sum_range]
  have e := Equiv.sum_comp (finProdFinEquiv (m := 20) (n := 5000)) (fun n : Fin (20 * 5000) => f n.val)
  rw [Fintype.sum_prod_type] at e
  refine Eq.trans ?_ e
  refine Finset.sum_congr rfl fun s _ => Finset.sum_congr rfl fun r _ => congrArg f ?_
  show 5000 * s.val + r.val = r.val + 5000 * s.val
  omega

/-- A run over N = 20 points: point t loads rows 5000·t … 5000·t + 4999 of X, A and all of W, C; the accumulators start cleared at point 0. -/
structure Run (P : Pay) (N : ℕ) where
  o : (n : ℕ) → n < N → VB × VR × VR
  bx : Fin N → VB
  ba : Fin N → VB
  bw : Fin N → VW
  bc : Fin N → VC
  X : SN.Idx → EReal
  A : SN.Idx → EReal
  W : SW.Idx → EReal
  C : S11.Idx → EReal
  hN : N = 20
  hx : ∀ t r k (n : Fin 100000), n.val = 5000 * t.val + r.val → bx t (ix2 r k) = X (ix2 n k)
  ha : ∀ t r k (n : Fin 100000), n.val = 5000 * t.val + r.val → ba t (ix2 r k) = A (ix2 n k)
  hw : ∀ t k d, bw t (ix2 k d) = W (ix2 k d)
  hc : ∀ t, bc t (ix2 (0 : Fin 1) (0 : Fin 1)) = C (ix2 (0 : Fin 1) (0 : Fin 1))
  hA : ∀ t : Fin N, t.val % 20 = 0 → o t.val t.isLt
    = (P.p3 (bc t) (bx t) (ba t) (bw t), P.p4 (bc t) (bx t) (ba t) (bw t) P.z1, P.p5 (bc t) (bx t) (ba t) (bw t) P.z2)
  hB : ∀ t : Fin N, ¬t.val % 20 = 0 → o t.val t.isLt
    = (P.p3 (bc t) (bx t) (ba t) (bw t),
       P.p4 (bc t) (bx t) (ba t) (bw t) (o (t.val - 1) (Nat.lt_of_le_of_lt (Nat.sub_le _ _) t.isLt)).2.1,
       P.p5 (bc t) (bx t) (ba t) (bw t) (o (t.val - 1) (Nat.lt_of_le_of_lt (Nat.sub_le _ _) t.isLt)).2.2)

namespace Run
variable {P : Pay} {N : ℕ} (R : Run P N)

/-- The product matrix (C·X + A)·W. -/
abbrev hMat : Mat 100000 128 := linM (R.C (ix2 (0 : Fin 1) (0 : Fin 1))) (toMat R.X) (toMat R.A) (toMat R.W)

-- Entry (r, d) of the product of point t's blocks is entry (5000·t + r, d) of the product matrix.
theorem blk_entry (t : Fin N) (r : Fin 5000) (d : Fin 128) (n : Fin 100000) (hn : n.val = 5000 * t.val + r.val) :
    P.p3 (R.bc t) (R.bx t) (R.ba t) (R.bw t) (ix2 r d) = R.hMat n d := by
  refine (P.h3 _ _ _ _ r d).trans (Finset.sum_congr rfl fun k _ => ?_)
  rw [R.hx t r k n hn, R.ha t r k n hn, R.hw t k d, R.hc t]
  rfl

theorem out_entry (t : Fin N) (r : Fin 5000) (d : Fin 128) (n : Fin 100000) (hn : n.val = 5000 * t.val + r.val) :
    (R.o t.val t.isLt).1 (ix2 r d) = linA R.C R.X R.A R.W (ix2 n d) := by
  by_cases h0 : t.val % 20 = 0
  · rw [R.hA t h0]; exact R.blk_entry t r d n hn
  · rw [R.hB t h0]; exact R.blk_entry t r d n hn

theorem blk_colsum (f : EReal → EReal) (t : Fin N) (d : Fin 128) :
    ∑ r : Fin 5000, f (P.p3 (R.bc t) (R.bx t) (R.ba t) (R.bw t) (ix2 r d))
      = ∑ r : Fin 5000, f (rowOr0 R.hMat (5000 * t.val + r.val) d) := by
  have hN' : t.val < 20 := by have := t.isLt; have := R.hN; omega
  refine Finset.sum_congr rfl fun r _ => ?_
  have hr : r.val < 5000 := r.isLt
  have hlt : 5000 * t.val + r.val < 100000 := by omega
  rw [R.blk_entry t r d ⟨5000 * t.val + r.val, hlt⟩ rfl]
  unfold rowOr0
  rw [dif_pos hlt]

-- After point n the first accumulator holds the column sums of the blocks up to n.
theorem acc5 : ∀ (n : ℕ) (hn : n < N) (u : Fin 1) (d : Fin 128),
    (R.o n hn).2.1 (ix2 u d) = ∑ s ∈ Finset.range (n + 1), ∑ r : Fin 5000, rowOr0 R.hMat (5000 * s + r.val) d
  | 0, hn, u, d => by
    rw [R.hA ⟨0, hn⟩ rfl]
    refine (P.h4 _ _ _ _ _ u d).trans ?_
    rw [P.hz1, zero_add, Finset.sum_range_one]
    exact R.blk_colsum id ⟨0, hn⟩ d
  | n + 1, hn, u, d => by
    rw [R.hB ⟨n + 1, hn⟩ (by have := R.hN; dsimp only; omega)]
    refine (P.h4 _ _ _ _ _ u d).trans ?_
    show (R.o n (Nat.lt_of_succ_lt hn)).2.1 (ix2 u d) + _ = _
    rw [acc5 n (Nat.lt_of_succ_lt hn) u d, Finset.sum_range_succ _ (n + 1)]
    exact congrArg (_ + ·) (R.blk_colsum id ⟨n + 1, hn⟩ d)

theorem acc6 : ∀ (n : ℕ) (hn : n < N) (u : Fin 1) (d : Fin 128),
    (R.o n hn).2.2 (ix2 u d) = ∑ s ∈ Finset.range (n + 1), ∑ r : Fin 5000, (rowOr0 R.hMat (5000 * s + r.val) d * rowOr0 R.hMat (5000 * s + r.val) d)
  | 0, hn, u, d => by
    rw [R.hA ⟨0, hn⟩ rfl]
    refine (P.h5 _ _ _ _ _ u d).trans ?_
    rw [P.hz2, zero_add, Finset.sum_range_one]
    exact R.blk_colsum (fun x => x * x) ⟨0, hn⟩ d
  | n + 1, hn, u, d => by
    rw [R.hB ⟨n + 1, hn⟩ (by have := R.hN; dsimp only; omega)]
    refine (P.h5 _ _ _ _ _ u d).trans ?_
    show (R.o n (Nat.lt_of_succ_lt hn)).2.2 (ix2 u d) + _ = _
    rw [acc6 n (Nat.lt_of_succ_lt hn) u d, Finset.sum_range_succ _ (n + 1)]
    exact congrArg (_ + ·) (R.blk_colsum (fun x => x * x) ⟨n + 1, hn⟩ d)

-- After the last point the accumulators hold the sums over all 100000 rows.
theorem total5 (t : Fin N) (h19 : t.val = 19) (u : Fin 1) (d : Fin 128) :
    (R.o t.val t.isLt).2.1 (ix2 u d) = sumA (linA R.C R.X R.A R.W) (ix2 u d) := by
  rw [R.acc5 t.val t.isLt u d, h19]
  show ∑ s ∈ Finset.range 20, ∑ r : Fin 5000, rowOr0 R.hMat (5000 * s + r.val) d = colSum R.hMat d
  rw [sum_blocks (fun n => rowOr0 R.hMat n d)]
  unfold colSum rowOr0
  exact Finset.sum_congr rfl fun n _ => by rw [dif_pos n.isLt]

theorem total6 (t : Fin N) (h19 : t.val = 19) (u : Fin 1) (d : Fin 128) :
    (R.o t.val t.isLt).2.2 (ix2 u d) = sumSqA (linA R.C R.X R.A R.W) (ix2 u d) := by
  rw [R.acc6 t.val t.isLt u d, h19]
  show ∑ s ∈ Finset.range 20, ∑ r : Fin 5000, (rowOr0 R.hMat (5000 * s + r.val) d * rowOr0 R.hMat (5000 * s + r.val) d) = colSumSq R.hMat d
  rw [sum_blocks (fun n => rowOr0 R.hMat n d * rowOr0 R.hMat n d)]
  unfold colSumSq rowOr0
  exact Finset.sum_congr rfl fun n _ => by rw [dif_pos n.isLt]

end Run

end Cert.KernelIdeal.Val.Lin

end
-- ==== Proof.RegLin0.lean ====
import proofs.«410150_j30107720744960_1_alg».proof.Proof.LinShared

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Gin Lin

section Pieces
variable {F : FTy → Type} [FloatOps F] (c : Dev nD) (i : grid0.Coords)
  (arg1 : Memref sig .tc .vmem S5000x128 .f32) (harg1 : arg1.IsWhole) (arg2 : Memref sig .tc .vmem S5000x128 .f32) (harg2 : arg2.IsWhole)
  (arg3 : Memref sig .tc .vmem S128x128 .f32) (harg3 : arg3.IsWhole) (arg4 : Memref sig .tc .vmem S1x1 .f32) (harg4 : arg4.IsWhole)
  (arg5 : Memref sig .tc .vmem S5000x128 .f32) (harg5 : arg5.IsWhole) (arg6 : Memref sig .tc .vmem S1x128 .f32) (harg6 : arg6.IsWhole)
  (arg7 : Memref sig .tc .vmem S1x128 .f32) (harg7 : arg7.IsWhole)
  (x0 x1 : Vec F S5000x128 .f32) (x2 : Vec F S128x128 .f32) (x3 : Vec F S1x1 .f32) (xo5 xo6 : Vec F S1x128 .f32)

-- What each case of the body leaves in its three outputs: the body's arithmetic of the blocks it loads.
private theorem out_A_eq (hc0 : cond0_0 i) :
    out0_A_4 c i arg1 harg1 arg2 harg2 arg3 harg3 arg4 harg4 arg5 harg5 arg6 harg6 arg7 harg7 hc0 x0 x1 x2 x3 = k0_pay3 x3 x0 x1 x2 ∧ out0_A_5 c i arg1 harg1 arg2 harg2 arg3 harg3 arg4 harg4 arg5 harg5 arg6 harg6 arg7 harg7 hc0 x0 x1 x2 x3 = k0_pay4 x3 x0 x1 x2 (k0_pay1 (F := F))
      ∧ out0_A_6 c i arg1 harg1 arg2 harg2 arg3 harg3 arg4 harg4 arg5 harg5 arg6 harg6 arg7 harg7 hc0 x0 x1 x2 x3 = k0_pay5 x3 x0 x1 x2 (k0_pay2 (F := F)) := by
  unfold out0_A_4 out0_A_5 out0_A_6
  rw [View.read_writes_eq_canon _ _ _ (cover0_A_4 c i arg1 harg1 arg2 harg2 arg3 harg3 arg4 harg4 arg5 harg5 arg6 harg6 arg7 harg7 hc0 x0 x1 x2 x3), View.read_writes_eq_canon _ _ _ (cover0_A_5 c i arg1 harg1 arg2 harg2 arg3 harg3 arg4 harg4 arg5 harg5 arg6 harg6 arg7 harg7 hc0 x0 x1 x2 x3),
    View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  simp only [View.canon_unit_zero (S := S5000x128) hz, View.canon_cons_unit_zero (S := S1x128) hz, View.readCov_unit_zero (S := S1x128) _ hz,
    View.readAt_eq_ld, harg1.read_unread, harg2.read_unread, harg3.read_unread, harg4.read_unread,
    View.ld_unit_zero (S := S5000x128) hz, View.ld_unit_zero (S := S128x128) hz, View.ld_unit_zero (S := S1x1) hz, View.ld_unit_zero (S := S1x128) hz, and_self]

private theorem out_B_eq (hc0 : ¬cond0_0 i) :
    out0_B_4 c i arg1 harg1 arg2 harg2 arg3 harg3 arg4 harg4 arg5 harg5 arg6 harg6 arg7 harg7 hc0 x0 x1 x2 x3 xo5 xo6 = k0_pay3 x3 x0 x1 x2 ∧ out0_B_5 c i arg1 harg1 arg2 harg2 arg3 harg3 arg4 harg4 arg5 harg5 arg6 harg6 arg7 harg7 hc0 x0 x1 x2 x3 xo5 xo6 = k0_pay4 x3 x0 x1 x2 xo5 ∧ out0_B_6 c i arg1 harg1 arg2 harg2 arg3 harg3 arg4 harg4 arg5 harg5 arg6 harg6 arg7 harg7 hc0 x0 x1 x2 x3 xo5 xo6 = k0_pay5 x3 x0 x1 x2 xo6 := by
  unfold out0_B_4 out0_B_5 out0_B_6
  rw [View.read_writes_eq_canon _ _ _ (cover0_B_4 c i arg1 harg1 arg2 harg2 arg3 harg3 arg4 harg4 arg5 harg5 arg6 harg6 arg7 harg7 hc0 x0 x1 x2 x3 xo5 xo6), View.read_writes_eq_canon _ _ _ (cover0_B_5 c i arg1 harg1 arg2 harg2 arg3 harg3 arg4 harg4 arg5 harg5 arg6 harg6 arg7 harg7 hc0 x0 x1 x2 x3 xo5 xo6),
    View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  sl_unfold_words
  simp only [View.canon_unit_zero (S := S5000x128) hz, View.canon_unit_zero (S := S1x128) hz,
    View.readAt_eq_ld, harg1.read_unread, harg2.read_unread, harg3.read_unread, harg4.read_unread, harg6.read_unread, harg7.read_unread,
    View.ld_unit_zero (S := S5000x128) hz, View.ld_unit_zero (S := S128x128) hz, View.ld_unit_zero (S := S1x1) hz, View.ld_unit_zero (S := S1x128) hz, and_self]

end Pieces

variable (V : (c : Dev nD) → (b : Ref sig .tc) → Buf (Elt Ideal) ((c : Thread nD τ).loc b))

private abbrev xBlk (c : Dev nD) (t : Fin cfg0.N) : VB := iblk0 V c 0 t
private abbrev aBlk (c : Dev nD) (t : Fin cfg0.N) : VB := iblk0 V c 1 t
private abbrev wBlk (c : Dev nD) (t : Fin cfg0.N) : VW := iblk0 V c 2 t
private abbrev cBlk (c : Dev nD) (t : Fin cfg0.N) : VC := iblk0 V c 3 t

private theorem stepA (c : Dev nD) (t : Fin cfg0.N) (h0 : t.val % 20 = 0) : outsAt0 V c t.val t.isLt
    = (pay0.p3 (cBlk V c t) (xBlk V c t) (aBlk V c t) (wBlk V c t), pay0.p4 (cBlk V c t) (xBlk V c t) (aBlk V c t) (wBlk V c t) pay0.z1,
       pay0.p5 (cBlk V c t) (xBlk V c t) (aBlk V c t) (wBlk V c t) pay0.z2) := by
  rw [outsAt0_A V c t h0, (out_A_eq ..).1, (out_A_eq ..).2.1, (out_A_eq ..).2.2]
  rfl

private theorem stepB (c : Dev nD) (t : Fin cfg0.N) (h0 : ¬t.val % 20 = 0) : outsAt0 V c t.val t.isLt
    = (pay0.p3 (cBlk V c t) (xBlk V c t) (aBlk V c t) (wBlk V c t),
       pay0.p4 (cBlk V c t) (xBlk V c t) (aBlk V c t) (wBlk V c t) (outsAt0 V c (t.val - 1) (Nat.lt_of_le_of_lt (Nat.sub_le _ _) t.isLt)).2.1,
       pay0.p5 (cBlk V c t) (xBlk V c t) (aBlk V c t) (wBlk V c t) (outsAt0 V c (t.val - 1) (Nat.lt_of_le_of_lt (Nat.sub_le _ _) t.isLt)).2.2) := by
  rw [outsAt0_B V c t h0, (out_B_eq ..).1, (out_B_eq ..).2.1, (out_B_eq ..).2.2]
  rfl

private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

private theorem xBlk_apply (c : Dev nD) (t : Fin cfg0.N) (r : Fin 5000) (k : Fin 128) (n : Fin 100000)
    (hn : n.val = 5000 * t.val + r.val) : xBlk V c t (ix2 r k) = V c (Pipeline.arrRef spec0 0) (ix2 n k) := by
  obtain ⟨e0, e1⟩ := (idx_facts t).1
  unfold xBlk iblk0
  rw [View.read_apply]
  show V c (Pipeline.arrRef spec0 0) (((cfg0.win 0).blk t).view.emb (ix2 r k)) = V c (Pipeline.arrRef spec0 0) (ix2 n k)
  refine congrArg _ (funext fun a => Fin.ext ?_)
  match a with
  | ⟨0, _⟩ => show win0_0.index t (0 : Fin 2) * 5000 + 1 * r.val = n.val; omega
  | ⟨1, _⟩ => show win0_0.index t (1 : Fin 2) * 128 + 1 * k.val = k.val; omega

private theorem aBlk_apply (c : Dev nD) (t : Fin cfg0.N) (r : Fin 5000) (k : Fin 128) (n : Fin 100000)
    (hn : n.val = 5000 * t.val + r.val) : aBlk V c t (ix2 r k) = V c (Pipeline.arrRef spec0 1) (ix2 n k) := by
  obtain ⟨e0, e1⟩ := (idx_facts t).2.1
  unfold aBlk iblk0
  rw [View.read_apply]
  show V c (Pipeline.arrRef spec0 1) (((cfg0.win 1).blk t).view.emb (ix2 r k)) = V c (Pipeline.arrRef spec0 1) (ix2 n k)
  refine congrArg _ (funext fun a => Fin.ext ?_)
  match a with
  | ⟨0, _⟩ => show win0_1.index t (0 : Fin 2) * 5000 + 1 * r.val = n.val; omega
  | ⟨1, _⟩ => show win0_1.index t (1 : Fin 2) * 128 + 1 * k.val = k.val; omega

private theorem wBlk_apply (c : Dev nD) (t : Fin cfg0.N) (k d : Fin 128) : wBlk V c t (ix2 k d) = V c (Pipeline.arrRef spec0 2) (ix2 k d) := by
  obtain ⟨e0, e1⟩ := (idx_facts t).2.2.1
  unfold wBlk iblk0
  rw [View.read_apply]
  show V c (Pipeline.arrRef spec0 2) (((cfg0.win 2).blk t).view.emb (ix2 k d)) = V c (Pipeline.arrRef spec0 2) (ix2 k d)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * d.val = d.val; omega

private theorem cBlk_apply (c : Dev nD) (t : Fin cfg0.N) :
    cBlk V c t (ix2 (0 : Fin 1) (0 : Fin 1)) = V c (Pipeline.arrRef spec0 3) (ix2 (0 : Fin 1) (0 : Fin 1)) := by
  obtain ⟨e0, e1⟩ := (idx_facts t).2.2.2.1
  unfold cBlk iblk0
  rw [View.read_apply]
  show V c (Pipeline.arrRef spec0 3) (((cfg0.win 3).blk t).view.emb (ix2 (0 : Fin 1) (0 : Fin 1))) = V c (Pipeline.arrRef spec0 3) (ix2 (0 : Fin 1) (0 : Fin 1))
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

private def run (c : Dev nD) : Run pay0 cfg0.N where
  o := outsAt0 V c
  bx := xBlk V c
  ba := aBlk V c
  bw := wBlk V c
  bc := cBlk V c
  X := V c (Pipeline.arrRef spec0 0)
  A := V c (Pipeline.arrRef spec0 1)
  W := V c (Pipeline.arrRef spec0 2)
  C := V c (Pipeline.arrRef spec0 3)
  hN := N_0
  hx := xBlk_apply V c
  ha := aBlk_apply V c
  hw := wBlk_apply V c
  hc := cBlk_apply V c
  hA := stepA V c
  hB := stepB V c

/-- The product array the call computes. -/
private abbrev hArr (c : Dev nD) : SN.Idx → EReal :=
  linA (V c (Pipeline.arrRef spec0 3)) (V c (Pipeline.arrRef spec0 0)) (V c (Pipeline.arrRef spec0 1)) (V c (Pipeline.arrRef spec0 2))

private theorem flushed4_eq (c : Dev nD) (t : Fin cfg0.N) :
    (dat0 (F := Ideal) V c).flushed 4 t = ((cfg0.win 4).blk t).view.read (Elt Ideal) (hArr V c) := by
  show (cfg0.win 4).cut (grid0.coords t) ((dat0 (F := Ideal) V c).after 4 t) = _
  rw [after0_4]
  obtain ⟨e0, e1⟩ := (idx_facts t).2.2.2.2.1
  have hN : t.val < 20 := lt_of_lt_of_eq t.isLt (show cfg0.N = 20 from N_0)
  funext j
  obtain ⟨r, d, rfl⟩ : ∃ (r : Fin 5000) (d : Fin 128), j = ix2 r d := ⟨j 0, j 1, eq_ix2 j⟩
  have hr : r.val < 5000 := r.isLt
  have hacc : (outsAt0 V c t.val t.isLt).1 (ix2 r d) = hArr V c (ix2 (⟨5000 * t.val + r.val, by omega⟩ : Fin 100000) d) :=
    (run V c).out_entry t r d ⟨5000 * t.val + r.val, by omega⟩ rfl
  generalize (outsAt0 V c t.val t.isLt).1 = acc at hacc ⊢
  show acc (ix2 r d) = hArr V c (((cfg0.win 4).blk t).view.emb (ix2 r d))
  have he : ((cfg0.win 4).blk t).view.emb (ix2 r d) = (ix2 (⟨5000 * t.val + r.val, by omega⟩ : Fin 100000) d : SN.Idx) :=
    funext fun a => Fin.ext (by
      match a with
      | ⟨0, _⟩ => show win0_4.index t (0 : Fin 2) * 5000 + 1 * r.val = 5000 * t.val + r.val; omega
      | ⟨1, _⟩ => show win0_4.index t (1 : Fin 2) * 128 + 1 * d.val = d.val; omega)
  exact hacc.trans (congrArg (hArr V c) he).symm

-- Row n is in the block of point n / 5000.
private theorem cover4 (i : SN.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hlt : (i 0).val / 5000 < cfg0.N := lt_of_lt_of_eq (by omega) (show cfg0.N = 20 from N_0).symm
  obtain ⟨e0, e1⟩ := (idx_facts ⟨(i 0).val / 5000, hlt⟩).2.2.2.2.1
  refine ⟨⟨(i 0).val / 5000, hlt⟩, flush0_4 _, ?_⟩
  show i ∈ ((View.whole (Pipeline.arrRef spec0 4)).slice (win0_4.rect ⟨(i 0).val / 5000, hlt⟩)).set
  rw [View.set_slice_whole, Rect.mem_set_unit]
  intro a
  match a with
  | ⟨0, _⟩ => show win0_4.index ⟨(i 0).val / 5000, hlt⟩ (0 : Fin 2) * 5000 ≤ (i 0).val ∧ (i 0).val < win0_4.index ⟨(i 0).val / 5000, hlt⟩ (0 : Fin 2) * 5000 + 5000; dsimp only at e0; omega
  | ⟨1, _⟩ => show win0_4.index ⟨(i 0).val / 5000, hlt⟩ (1 : Fin 2) * 128 ≤ (i 1).val ∧ (i 1).val < win0_4.index ⟨(i 0).val / 5000, hlt⟩ (1 : Fin 2) * 128 + 128; omega

theorem lin0_h (c : Dev nD) :
    (dat0 (F := Ideal) V c).arrAt 4 cfg0.N
      = linA (V c (Pipeline.arrRef spec0 3)) (V c (Pipeline.arrRef spec0 0)) (V c (Pipeline.arrRef spec0 1))
          (V c (Pipeline.arrRef spec0 2)) :=
  (dat0 (F := Ideal) V c).arrAt_eq_of_cover 4 (hArr V c) (fun t _ => flushed4_eq V c t) cover4

private theorem last_lt : 19 < cfg0.N := lt_of_lt_of_eq (by decide) (show cfg0.N = 20 from N_0).symm

private theorem flushed5_eq (c : Dev nD) (t : Fin cfg0.N) (hf : (cfg0.win 5).flush t = true) :
    (dat0 (F := Ideal) V c).flushed 5 t = ((cfg0.win 5).blk t).view.read (Elt Ideal) (sumA (hArr V c)) := by
  have hN : cfg0.N = 20 := N_0
  have h19 : t.val = 19 := by have := (flush0_5 t).mp hf; have := t.isLt; omega
  obtain ⟨e0, e1⟩ := (idx_facts t).2.2.2.2.2.1
  show (cfg0.win 5).cut (grid0.coords t) ((dat0 (F := Ideal) V c).after 5 t) = _
  rw [after0_5]
  have hacc : ∀ (u : Fin 1) (d : Fin 128), (outsAt0 V c t.val t.isLt).2.1 (ix2 u d) = sumA (hArr V c) (ix2 u d) := (run V c).total5 t h19
  generalize (outsAt0 V c t.val t.isLt).2.1 = acc at hacc ⊢
  generalize sumA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg0.win 5).blk t).view.emb (ix2 u d))
  have he : ((cfg0.win 5).blk t).view.emb (ix2 u d) = (ix2 u d : SR.Idx) :=
    funext fun a => Fin.ext (by
      match a with
      | ⟨0, _⟩ => show win0_5.index t (0 : Fin 2) * 1 + 1 * u.val = u.val; omega
      | ⟨1, _⟩ => show win0_5.index t (1 : Fin 2) * 128 + 1 * d.val = d.val; omega)
  exact (hacc u d).trans (congrArg G he).symm

private theorem cover5 (i : SR.Idx) : ∃ t : Fin cfg0.N, (cfg0.win 5).flush t = true ∧ i ∈ ((cfg0.win 5).blk t).view.set := by
  have hi0 : (i 0).val < 1 := (i 0).isLt
  have hi1 : (i 1).val < 128 := (i 1).isLt
  obtain ⟨e0, e1⟩ := (idx_facts ⟨19, last_lt⟩).2.2.2.2.2.1
  refine ⟨⟨19, last_lt⟩, (flush0_5 _).mpr rfl, ?_⟩
  show i ∈ ((View.whole (Pipeline.arrRef spec0 5)).slice (win0_5.rect ⟨19, last_lt⟩)).set
  rw [View.set_slice_whole, Rect.mem_set_unit]
  intro a
  match a with
  | ⟨0, _⟩ => show win0_5.index ⟨19, last_lt⟩ (0 : Fin 2) * 1 ≤ (i 0).val ∧ (i 0).val < win0_5.index ⟨19, last_lt⟩ (0 : Fin 2) * 1 + 1; omega
  | ⟨1, _⟩ => show win0_5.index ⟨19, last_lt⟩ (1 : Fin 2) * 128 ≤ (i 1).val ∧ (i 1).val < win0_5.index ⟨19, last_lt⟩ (1 : Fin 2) * 128 + 128; omega

private theorem flushed6_eq (c : Dev nD) (t : Fin cfg0.N) (hf : (cfg0.win 6).flush t = true) :
    (dat0 (F := Ideal) V c).flushed 6 t = ((cfg0.win 6).blk t).view.read (Elt Ideal) (sumSqA (hArr V c)) := by
  have hN : cfg0.N = 20 := N_0
  have h19 : t.val = 19 := by have := (flush0_6 t).mp hf; have := t.isLt; omega
  obtain ⟨e0, e1⟩ := (idx_facts t).2.2.2.2.2.2
  show (cfg0.win 6).cut (grid0.coords t) ((dat0 (F := Ideal) V c).after 6 t) = _
  rw [after0_6]
  have hacc : ∀ (u : Fin 1) (d : Fin 128), (outsAt0 V c t.val t.isLt).2.2 (ix2 u d) = sumSqA (hArr V c) (ix2 u d) := (run V c).total6 t h19
  generalize (outsAt0 V c t.val t.isLt).2.2 = acc at hacc ⊢
  generalize sumSqA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg0.win 6).blk t).view.emb (ix2 u d))
  have he : ((cfg0.win 6).blk t).view.emb (ix2 u d) = (ix2 u d : SR.Idx) :=
    funext fun a => Fin.ext (by
      match a with
      | ⟨0, _⟩ => show win0_6.index t (0 : Fin 2) * 1 + 1 * u.val = u.val; omega
      | ⟨1, _⟩ => show win0_6.index t (1 : Fin 2) * 128 + 1 * d.val = d.val; omega)
  exact (hacc u d).trans (congrArg G he).symm

private theorem cover6 (i : SR.Idx) : ∃ t : Fin cfg0.N, (cfg0.win 6).flush t = true ∧ i ∈ ((cfg0.win 6).blk t).view.set := by
  have hi0 : (i 0).val < 1 := (i 0).isLt
  have hi1 : (i 1).val < 128 := (i 1).isLt
  obtain ⟨e0, e1⟩ := (idx_facts ⟨19, last_lt⟩).2.2.2.2.2.2
  refine ⟨⟨19, last_lt⟩, (flush0_6 _).mpr rfl, ?_⟩
  show i ∈ ((View.whole (Pipeline.arrRef spec0 6)).slice (win0_6.rect ⟨19, last_lt⟩)).set
  rw [View.set_slice_whole, Rect.mem_set_unit]
  intro a
  match a with
  | ⟨0, _⟩ => show win0_6.index ⟨19, last_lt⟩ (0 : Fin 2) * 1 ≤ (i 0).val ∧ (i 0).val < win0_6.index ⟨19, last_lt⟩ (0 : Fin 2) * 1 + 1; omega
  | ⟨1, _⟩ => show win0_6.index ⟨19, last_lt⟩ (1 : Fin 2) * 128 ≤ (i 1).val ∧ (i 1).val < win0_6.index ⟨19, last_lt⟩ (1 : Fin 2) * 128 + 128; omega

theorem lin0_sum (c : Dev nD) :
    (dat0 (F := Ideal) V c).arrAt 5 cfg0.N
      = sumA (linA (V c (Pipeline.arrRef spec0 3)) (V c (Pipeline.arrRef spec0 0)) (V c (Pipeline.arrRef spec0 1))
          (V c (Pipeline.arrRef spec0 2))) :=
  (dat0 (F := Ideal) V c).arrAt_eq_of_cover 5 (sumA (hArr V c)) (flushed5_eq V c) cover5

theorem lin0_sumsq (c : Dev nD) :
    (dat0 (F := Ideal) V c).arrAt 6 cfg0.N
      = sumSqA (linA (V c (Pipeline.arrRef spec0 3)) (V c (Pipeline.arrRef spec0 0)) (V c (Pipeline.arrRef spec0 1))
          (V c (Pipeline.arrRef spec0 2))) :=
  (dat0 (F := Ideal) V c).arrAt_eq_of_cover 6 (sumSqA (hArr V c)) (flushed6_eq V c) cover6

end Cert.KernelIdeal.Val

end
-- ==== Proof.RegBn1.lean ====
import proofs.«410150_j30107720744960_1_alg».proof.Proof.BnShared

noncomputable section

namespace Cert.KernelIdeal.Val

open Idealize.ShloMosaic Idealize.ShloMosaic.TcCoe Cert.KernelIdeal Cert.KernelIdeal.Gen Cert.Gin

variable (V : (c : Dev nD) → (b : Ref sig .tc) → Buf (Elt Ideal) ((c : Thread nD τ).loc b))

theorem bn1_idx : ∀ t : Fin cfg1.N, BnIdx (win1_0.index t) (win1_1.index t) (win1_2.index t) (win1_3.index t)
    (win1_4.index t) (win1_5.index t) (win1_6.index t) t.val :=
  (by decide +kernel : ∀ t : Fin grid1.N, _)

theorem bn1_cover (i : S100000x128.Idx) :
    ∃ t : Fin cfg1.N, (cfg1.win 6).flush t = true ∧ i ∈ ((cfg1.win 6).blk t).view.set :=
  (bn_rows_cover N_1 (fun t => (bn1_idx t).2.2.2.2.2.2) i).imp fun t h =>
    ⟨flush1_6 t, bn_mem_slice (b := Pipeline.arrRef spec1 6) h⟩

def bn1_out (c : Dev nD) : SN.Idx → EReal :=
  bnA (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

theorem bn1_flushed (c : Dev nD) (t : Fin cfg1.N) :
    (dat1 (F := Ideal) V c).flushed 6 t = ((cfg1.win 6).blk t).view.read (Elt Ideal) (bn1_out V c) := by
  show (cfg1.win 6).cut (grid1.coords t) ((dat1 (F := Ideal) V c).after 6 t) = _
  rw [after1_6]
  unfold bn1_out
  funext j
  exact bn_point bn_pay1 _ _ _ _ _ _ (win1_0.rect_emb_val t) (win1_1.rect_emb_val t)
    (win1_2.rect_emb_val t) (win1_3.rect_emb_val t) (win1_4.rect_emb_val t)
    (win1_5.rect_emb_val t) (win1_6.rect_emb_val t) (bn1_idx t) j

theorem bn1_value (c : Dev nD) :
    (dat1 (F := Ideal) V c).arrAt 6 cfg1.N
      = bnA (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (fun t _ => bn1_flushed V c t) bn1_cover

end Cert.KernelIdeal.Val

end
-- ==== Proof.KLayer0.lean ====
import proofs.«410150_j30107720744960_1_alg».proof.Proof.KLayerShared
import proofs.«410150_j30107720744960_1_alg».proof.Proof.KKept
import proofs.«410150_j30107720744960_1_alg».proof.Proof.RegLin0
import proofs.«410150_j30107720744960_1_alg».proof.Proof.RegBn1

set_option maxRecDepth 16384

noncomputable section

namespace Cert.KernelIdeal.Val

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.Gin

variable (m : (ℓ : Loc nD τ sig) → Buf (Elt Ideal) ℓ) (ρ : Dev nD → PrngReg) (c : Dev nD)
  (V : Valuation τ sig (Elt Ideal)) (r : Ref sig .tc)

-- the buffers the layer reads after a host stretch that does not write them
private abbrev K : List (Ref sig .tc) := main_arg0 :: main_v16_0 :: kept

private theorem fold_take :
    StableHlo.after hostOps0_1 V (Proc.devRef .tc main_v4)
      = takeK dGK (V (Proc.devRef .tc main_arg0)) (srcColOfVec (V (Proc.devRef .tc main_v1))) := by
  after_results_simp
  simp only [ofBuf_toBuf]
  exact (toBuf_of main_v4 _ _ _).trans (take_run dGK (V (Proc.devRef .tc main_arg0)) (V (Proc.devRef .tc main_v1)) _ _ _ _ _ _ _ _ _)

private theorem fold_add :
    StableHlo.after hostOps0_2 V (Proc.devRef .tc main_v5)
      = addf (F := Ideal) (φ := .f32) (V (Proc.devRef .tc main_v4)) (V (Proc.devRef .tc main_arg2)) := by
  after_results

private theorem fold_relu :
    StableHlo.after hostOps0_3 V (Proc.devRef .tc main_v6)
      = maximumf (F := Ideal) (φ := .f32) (V (Proc.devRef .tc main_v5))
          (broadcastInDim S640000x128 ![] bcast_S_S640000x128 (constant (F := Ideal) S_ .f32 0x00000000#32)) := by
  after_results_simp
  simp only [ofBuf_toBuf]
  rfl

private theorem fold_agg (g e : SE.Idx → EReal) (v : IVec SV 32)
    (hmsg : V (Proc.devRef .tc main_v6) = maximumf (F := Ideal) (φ := .f32) (addf (F := Ideal) (φ := .f32) g e)
      (broadcastInDim S640000x128 ![] bcast_S_S640000x128 (constant (F := Ideal) S_ .f32 0x00000000#32)))
    (hdst : V (Proc.devRef .tc main_v3) = v) :
    StableHlo.after hostOps0_4 V (Proc.devRef .tc main_v9) = aggOf dSK g (colOfVec v) e := by
  after_results
  rw [hmsg, hdst]
  exact agg_read dSK g e v _ _ _

private theorem fold_coef (eps : S4.Idx → EReal) (heps : V (Proc.devRef .tc main_arg4) = eps) :
    StableHlo.after hostOps0_4 V (Proc.devRef .tc main_v13) (ix2 (0 : Fin 1) (0 : Fin 1)) = coefAt eps (0 : Fin 4) := by
  after_results
  rw [heps]
  exact coef_read eps (0 : Fin 4) _ _ _

private theorem fold_weight (Ws : S4W.Idx → EReal) (hWs : V (Proc.devRef .tc main_arg3) = Ws) :
    StableHlo.after hostOps0_4 V (Proc.devRef .tc main_v15) = weightAt Ws (0 : Fin 4) := by
  after_results
  rw [hWs]
  exact weight_read Ws (0 : Fin 4) _ _

private theorem fold_mean (h : SN.Idx → EReal) (hs : V (Proc.devRef .tc main_v16_1) = sumA h) :
    StableHlo.after hostOps1 V (Proc.devRef .tc main_v18) = ofRow (meanOf (toMat h)) := by
  after_results
  rw [hs]
  exact mean_read h _

private theorem fold_var (h : SN.Idx → EReal) (hs : V (Proc.devRef .tc main_v16_1) = sumA h)
    (hq : V (Proc.devRef .tc main_v16_2) = sumSqA h) :
    StableHlo.after hostOps1 V (Proc.devRef .tc main_v22) = ofRow (varK (toMat h)) := by
  after_results
  rw [hs, hq]
  exact var_read h _

private theorem fold_gamma (g : S4R.Idx → EReal) (hg : V (Proc.devRef .tc main_arg5) = g) :
    rowOf (StableHlo.after hostOps1 V (Proc.devRef .tc main_v25)) = rowAt g (0 : Fin 4) := by
  after_results
  rw [hg]
  exact row_read g (0 : Fin 4) _ _ _

private theorem fold_beta (g : S4R.Idx → EReal) (hg : V (Proc.devRef .tc main_arg6) = g) :
    rowOf (StableHlo.after hostOps1 V (Proc.devRef .tc main_v28)) = rowAt g (0 : Fin 4) := by
  after_results
  rw [hg]
  exact row_read g (0 : Fin 4) _ _ _

-- the first host stretch writes the two row vectors and no argument
private theorem kept1 (hr : r ∈ main_arg0 :: keptArgs) : W1 m ρ c (Proc.devRef .tc r) = m ((c : Thread nD τ).loc r) :=
  after_kept hr hostOps0

theorem v1_value (c : Dev nD) : W1 m ρ c (Proc.devRef .tc main_v1) = edgeRow (m ((c : Thread nD τ).loc main_arg1)) 0 := by
  show StableHlo.after hostOps0 (W0 m ρ c) (Proc.devRef .tc main_v1) = _
  after_results
  exact edge_row_read (m ((c : Thread nD τ).loc main_arg1)) 0 0 rfl _ _

theorem v3_value (c : Dev nD) : W1 m ρ c (Proc.devRef .tc main_v3) = edgeRow (m ((c : Thread nD τ).loc main_arg1)) 1 := by
  show StableHlo.after hostOps0 (W0 m ρ c) (Proc.devRef .tc main_v3) = _
  after_results
  exact edge_row_read (m ((c : Thread nD τ).loc main_arg1)) 1 1 rfl _ _

private theorem at_scatter_entry (hr : r ∈ K) : W4 m ρ c (Proc.devRef .tc r) = W1 m ρ c (Proc.devRef .tc r) :=
  (after_kept hr hostOps0_3).trans <| (after_kept hr hostOps0_2).trans (after_kept hr hostOps0_1)

private theorem at_lin_entry (hr : r ∈ K) : W5 m ρ c (Proc.devRef .tc r) = W1 m ρ c (Proc.devRef .tc r) :=
  (after_kept hr hostOps0_4).trans (at_scatter_entry m ρ c r hr)

private theorem at_bn_entry (hr : r ∈ K) : W7 m ρ c (Proc.devRef .tc r) = W6 m ρ c (Proc.devRef .tc r) :=
  after_kept hr hostOps1

private abbrev cur : SN.Idx → EReal := m ((c : Thread nD τ).loc main_arg0)
private abbrev tk : SE.Idx → EReal := takeK dGK (cur m c) (srcColOfVec (W1 m ρ c (Proc.devRef .tc main_v1)))
private abbrev lin : SN.Idx → EReal :=
  linA (V5 m ρ c (Pipeline.arrRef spec0 3)) (V5 m ρ c (Pipeline.arrRef spec0 0)) (V5 m ρ c (Pipeline.arrRef spec0 1))
    (V5 m ρ c (Pipeline.arrRef spec0 2))

private theorem msg_value :
    W4 m ρ c (Proc.devRef .tc main_v6)
      = maximumf (F := Ideal) (φ := .f32) (addf (F := Ideal) (φ := .f32) (tk m ρ c) (m ((c : Thread nD τ).loc main_arg2)))
          (broadcastInDim S640000x128 ![] bcast_S_S640000x128 (constant (F := Ideal) S_ .f32 0x00000000#32)) := by
  refine (fold_relu (W3 m ρ c)).trans ?_
  refine congrArg (fun x => maximumf (F := Ideal) (φ := .f32) x _) ?_
  refine (fold_add (W2 m ρ c)).trans ?_
  rw [show W2 m ρ c (Proc.devRef .tc main_v4) = _ from fold_take (W1 m ρ c),
    show W2 m ρ c (Proc.devRef .tc main_arg2) = _ from after_kept (K := K) (by decide) hostOps0_1,
    kept1 m ρ c main_arg2 (by decide), kept1 m ρ c main_arg0 (by decide)]

private theorem agg_value :
    V5 m ρ c (Pipeline.arrRef spec0 1)
      = aggOf dSK (tk m ρ c) (colOfVec (W1 m ρ c (Proc.devRef .tc main_v3))) (m ((c : Thread nD τ).loc main_arg2)) :=
  fold_agg (W4 m ρ c) _ _ _ (msg_value m ρ c) (at_scatter_entry m ρ c main_v3 (by decide))

private theorem coef_value :
    V5 m ρ c (Pipeline.arrRef spec0 3) (ix2 (0 : Fin 1) (0 : Fin 1)) = coefAt (m ((c : Thread nD τ).loc main_arg4)) (0 : Fin 4) :=
  fold_coef (W4 m ρ c) _ ((at_scatter_entry m ρ c main_arg4 (by decide)).trans (kept1 m ρ c main_arg4 (by decide)))

private theorem weight_value :
    V5 m ρ c (Pipeline.arrRef spec0 2) = weightAt (m ((c : Thread nD τ).loc main_arg3)) (0 : Fin 4) :=
  fold_weight (W4 m ρ c) _ ((at_scatter_entry m ρ c main_arg3 (by decide)).trans (kept1 m ρ c main_arg3 (by decide)))

private theorem lin_in_value : V5 m ρ c (Pipeline.arrRef spec0 0) = cur m c :=
  (at_lin_entry m ρ c main_arg0 (by decide)).trans (kept1 m ρ c main_arg0 (by decide))

private theorem lin_value : V7 m ρ c (Pipeline.arrRef spec1 0) = lin m ρ c :=
  (at_bn_entry m ρ c main_v16_0 (by decide)).trans ((W6_arr m ρ c 4).trans (lin0_h (V5 m ρ) c))

private theorem colsum_value : W6 m ρ c (Proc.devRef .tc main_v16_1) = sumA (lin m ρ c) :=
  (W6_arr m ρ c 5).trans (lin0_sum (V5 m ρ) c)

private theorem colsumsq_value : W6 m ρ c (Proc.devRef .tc main_v16_2) = sumSqA (lin m ρ c) :=
  (W6_arr m ρ c 6).trans (lin0_sumsq (V5 m ρ) c)

private theorem res_value : V7 m ρ c (Pipeline.arrRef spec1 1) = cur m c :=
  (at_bn_entry m ρ c main_arg0 (by decide)).trans
    (((W6_arr m ρ c 0).trans (((dat0 (V5 m ρ) c).arrAt_in 0 rfl _).trans (A_eq0 (V5 m ρ) c 0))).trans (lin_in_value m ρ c))

private theorem at_stats_entry (h2 : ∀ w, Pipeline.arrRef spec0 w ≠ r) (hr : r ∈ K) :
    W6 m ρ c (Proc.devRef .tc r) = W1 m ρ c (Proc.devRef .tc r) :=
  (W6_of_ne m ρ c r h2).trans (at_lin_entry m ρ c r hr)

theorem klayer0 (c : Dev nD) :
    W8 m ρ c (Proc.devRef .tc main_v29)
      = layerK dGK dSK (m ((c : Thread nD τ).loc main_arg0)) (srcColOfVec (W1 m ρ c (Proc.devRef .tc main_v1))) (colOfVec (W1 m ρ c (Proc.devRef .tc main_v3)))
          (m ((c : Thread nD τ).loc main_arg2)) (coefAt (m ((c : Thread nD τ).loc main_arg4)) 0) (weightAt (m ((c : Thread nD τ).loc main_arg3)) 0) (rowAt (m ((c : Thread nD τ).loc main_arg5)) 0) (rowAt (m ((c : Thread nD τ).loc main_arg6)) 0) := by
  refine ((W8_arr m ρ c 6).trans (bn1_value (V7 m ρ) c)).trans ?_
  exact layer_assemble dGK dSK _ _ _ _ _ _ _ _ _ _ _ _ _ _ _ _ _ _ (lin_value m ρ c) (res_value m ρ c)
    (fold_mean (W6 m ρ c) _ (colsum_value m ρ c)) (fold_var (W6 m ρ c) _ (colsum_value m ρ c) (colsumsq_value m ρ c))
    (fold_gamma (W6 m ρ c) _ ((at_stats_entry m ρ c main_arg5 (by decide) (by decide)).trans (kept1 m ρ c main_arg5 (by decide))))
    (fold_beta (W6 m ρ c) _ ((at_stats_entry m ρ c main_arg6 (by decide) (by decide)).trans (kept1 m ρ c main_arg6 (by decide))))
    (coef_value m ρ c) (lin_in_value m ρ c) (agg_value m ρ c) (weight_value m ρ c)

end Cert.KernelIdeal.Val

end
-- ==== Proof.RegLin2.lean ====
import proofs.«410150_j30107720744960_1_alg».proof.Proof.LinShared

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Gin Lin

section Pieces
variable {F : FTy → Type} [FloatOps F] (c : Dev nD) (i : grid2.Coords)
  (arg1 : Memref sig .tc .vmem S5000x128 .f32) (harg1 : arg1.IsWhole) (arg2 : Memref sig .tc .vmem S5000x128 .f32) (harg2 : arg2.IsWhole)
  (arg3 : Memref sig .tc .vmem S128x128 .f32) (harg3 : arg3.IsWhole) (arg4 : Memref sig .tc .vmem S1x1 .f32) (harg4 : arg4.IsWhole)
  (arg5 : Memref sig .tc .vmem S5000x128 .f32) (harg5 : arg5.IsWhole) (arg6 : Memref sig .tc .vmem S1x128 .f32) (harg6 : arg6.IsWhole)
  (arg7 : Memref sig .tc .vmem S1x128 .f32) (harg7 : arg7.IsWhole)
  (x0 x1 : Vec F S5000x128 .f32) (x2 : Vec F S128x128 .f32) (x3 : Vec F S1x1 .f32) (xo5 xo6 : Vec F S1x128 .f32)

-- What each case of the body leaves in its three outputs: the body's arithmetic of the blocks it loads.
private theorem out_A_eq (hc0 : cond2_0 i) :
    out2_A_4 c i arg1 harg1 arg2 harg2 arg3 harg3 arg4 harg4 arg5 harg5 arg6 harg6 arg7 harg7 hc0 x0 x1 x2 x3 = k2_pay3 x3 x0 x1 x2 ∧ out2_A_5 c i arg1 harg1 arg2 harg2 arg3 harg3 arg4 harg4 arg5 harg5 arg6 harg6 arg7 harg7 hc0 x0 x1 x2 x3 = k2_pay4 x3 x0 x1 x2 (k2_pay1 (F := F))
      ∧ out2_A_6 c i arg1 harg1 arg2 harg2 arg3 harg3 arg4 harg4 arg5 harg5 arg6 harg6 arg7 harg7 hc0 x0 x1 x2 x3 = k2_pay5 x3 x0 x1 x2 (k2_pay2 (F := F)) := by
  unfold out2_A_4 out2_A_5 out2_A_6
  rw [View.read_writes_eq_canon _ _ _ (cover2_A_4 c i arg1 harg1 arg2 harg2 arg3 harg3 arg4 harg4 arg5 harg5 arg6 harg6 arg7 harg7 hc0 x0 x1 x2 x3), View.read_writes_eq_canon _ _ _ (cover2_A_5 c i arg1 harg1 arg2 harg2 arg3 harg3 arg4 harg4 arg5 harg5 arg6 harg6 arg7 harg7 hc0 x0 x1 x2 x3),
    View.read_writes_eq_canon _ _ _ (cover2_A_6 c i arg1 harg1 arg2 harg2 arg3 harg3 arg4 harg4 arg5 harg5 arg6 harg6 arg7 harg7 hc0 x0 x1 x2 x3)]
  unfold kernelRun2_A
  dsimp only
  sl_unfold_words
  simp only [View.canon_unit_zero (S := S5000x128) hz, View.canon_cons_unit_zero (S := S1x128) hz, View.readCov_unit_zero (S := S1x128) _ hz,
    View.readAt_eq_ld, harg1.read_unread, harg2.read_unread, harg3.read_unread, harg4.read_unread,
    View.ld_unit_zero (S := S5000x128) hz, View.ld_unit_zero (S := S128x128) hz, View.ld_unit_zero (S := S1x1) hz, View.ld_unit_zero (S := S1x128) hz, and_self]

private theorem out_B_eq (hc0 : ¬cond2_0 i) :
    out2_B_4 c i arg1 harg1 arg2 harg2 arg3 harg3 arg4 harg4 arg5 harg5 arg6 harg6 arg7 harg7 hc0 x0 x1 x2 x3 xo5 xo6 = k2_pay3 x3 x0 x1 x2 ∧ out2_B_5 c i arg1 harg1 arg2 harg2 arg3 harg3 arg4 harg4 arg5 harg5 arg6 harg6 arg7 harg7 hc0 x0 x1 x2 x3 xo5 xo6 = k2_pay4 x3 x0 x1 x2 xo5 ∧ out2_B_6 c i arg1 harg1 arg2 harg2 arg3 harg3 arg4 harg4 arg5 harg5 arg6 harg6 arg7 harg7 hc0 x0 x1 x2 x3 xo5 xo6 = k2_pay5 x3 x0 x1 x2 xo6 := by
  unfold out2_B_4 out2_B_5 out2_B_6
  rw [View.read_writes_eq_canon _ _ _ (cover2_B_4 c i arg1 harg1 arg2 harg2 arg3 harg3 arg4 harg4 arg5 harg5 arg6 harg6 arg7 harg7 hc0 x0 x1 x2 x3 xo5 xo6), View.read_writes_eq_canon _ _ _ (cover2_B_5 c i arg1 harg1 arg2 harg2 arg3 harg3 arg4 harg4 arg5 harg5 arg6 harg6 arg7 harg7 hc0 x0 x1 x2 x3 xo5 xo6),
    View.read_writes_eq_canon _ _ _ (cover2_B_6 c i arg1 harg1 arg2 harg2 arg3 harg3 arg4 harg4 arg5 harg5 arg6 harg6 arg7 harg7 hc0 x0 x1 x2 x3 xo5 xo6)]
  unfold kernelRun2_B
  dsimp only
  sl_unfold_words
  simp only [View.canon_unit_zero (S := S5000x128) hz, View.canon_unit_zero (S := S1x128) hz,
    View.readAt_eq_ld, harg1.read_unread, harg2.read_unread, harg3.read_unread, harg4.read_unread, harg6.read_unread, harg7.read_unread,
    View.ld_unit_zero (S := S5000x128) hz, View.ld_unit_zero (S := S128x128) hz, View.ld_unit_zero (S := S1x1) hz, View.ld_unit_zero (S := S1x128) hz, and_self]

end Pieces

variable (V : (c : Dev nD) → (b : Ref sig .tc) → Buf (Elt Ideal) ((c : Thread nD τ).loc b))

private abbrev xBlk (c : Dev nD) (t : Fin cfg2.N) : VB := iblk2 V c 0 t
private abbrev aBlk (c : Dev nD) (t : Fin cfg2.N) : VB := iblk2 V c 1 t
private abbrev wBlk (c : Dev nD) (t : Fin cfg2.N) : VW := iblk2 V c 2 t
private abbrev cBlk (c : Dev nD) (t : Fin cfg2.N) : VC := iblk2 V c 3 t

private theorem stepA (c : Dev nD) (t : Fin cfg2.N) (h0 : t.val % 20 = 0) : outsAt2 V c t.val t.isLt
    = (pay2.p3 (cBlk V c t) (xBlk V c t) (aBlk V c t) (wBlk V c t), pay2.p4 (cBlk V c t) (xBlk V c t) (aBlk V c t) (wBlk V c t) pay2.z1,
       pay2.p5 (cBlk V c t) (xBlk V c t) (aBlk V c t) (wBlk V c t) pay2.z2) := by
  rw [outsAt2_A V c t h0, (out_A_eq ..).1, (out_A_eq ..).2.1, (out_A_eq ..).2.2]
  rfl

private theorem stepB (c : Dev nD) (t : Fin cfg2.N) (h0 : ¬t.val % 20 = 0) : outsAt2 V c t.val t.isLt
    = (pay2.p3 (cBlk V c t) (xBlk V c t) (aBlk V c t) (wBlk V c t),
       pay2.p4 (cBlk V c t) (xBlk V c t) (aBlk V c t) (wBlk V c t) (outsAt2 V c (t.val - 1) (Nat.lt_of_le_of_lt (Nat.sub_le _ _) t.isLt)).2.1,
       pay2.p5 (cBlk V c t) (xBlk V c t) (aBlk V c t) (wBlk V c t) (outsAt2 V c (t.val - 1) (Nat.lt_of_le_of_lt (Nat.sub_le _ _) t.isLt)).2.2) := by
  rw [outsAt2_B V c t h0, (out_B_eq ..).1, (out_B_eq ..).2.1, (out_B_eq ..).2.2]
  rfl

private theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0) :=
  (by decide +kernel : ∀ t : Fin grid2.N, _)

private theorem xBlk_apply (c : Dev nD) (t : Fin cfg2.N) (r : Fin 5000) (k : Fin 128) (n : Fin 100000)
    (hn : n.val = 5000 * t.val + r.val) : xBlk V c t (ix2 r k) = V c (Pipeline.arrRef spec2 0) (ix2 n k) := by
  obtain ⟨e0, e1⟩ := (idx_facts t).1
  unfold xBlk iblk2
  rw [View.read_apply]
  show V c (Pipeline.arrRef spec2 0) (((cfg2.win 0).blk t).view.emb (ix2 r k)) = V c (Pipeline.arrRef spec2 0) (ix2 n k)
  refine congrArg _ (funext fun a => Fin.ext ?_)
  match a with
  | ⟨0, _⟩ => show win2_0.index t (0 : Fin 2) * 5000 + 1 * r.val = n.val; omega
  | ⟨1, _⟩ => show win2_0.index t (1 : Fin 2) * 128 + 1 * k.val = k.val; omega

private theorem aBlk_apply (c : Dev nD) (t : Fin cfg2.N) (r : Fin 5000) (k : Fin 128) (n : Fin 100000)
    (hn : n.val = 5000 * t.val + r.val) : aBlk V c t (ix2 r k) = V c (Pipeline.arrRef spec2 1) (ix2 n k) := by
  obtain ⟨e0, e1⟩ := (idx_facts t).2.1
  unfold aBlk iblk2
  rw [View.read_apply]
  show V c (Pipeline.arrRef spec2 1) (((cfg2.win 1).blk t).view.emb (ix2 r k)) = V c (Pipeline.arrRef spec2 1) (ix2 n k)
  refine congrArg _ (funext fun a => Fin.ext ?_)
  match a with
  | ⟨0, _⟩ => show win2_1.index t (0 : Fin 2) * 5000 + 1 * r.val = n.val; omega
  | ⟨1, _⟩ => show win2_1.index t (1 : Fin 2) * 128 + 1 * k.val = k.val; omega

private theorem wBlk_apply (c : Dev nD) (t : Fin cfg2.N) (k d : Fin 128) : wBlk V c t (ix2 k d) = V c (Pipeline.arrRef spec2 2) (ix2 k d) := by
  obtain ⟨e0, e1⟩ := (idx_facts t).2.2.1
  unfold wBlk iblk2
  rw [View.read_apply]
  show V c (Pipeline.arrRef spec2 2) (((cfg2.win 2).blk t).view.emb (ix2 k d)) = V c (Pipeline.arrRef spec2 2) (ix2 k d)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * d.val = d.val; omega

private theorem cBlk_apply (c : Dev nD) (t : Fin cfg2.N) :
    cBlk V c t (ix2 (0 : Fin 1) (0 : Fin 1)) = V c (Pipeline.arrRef spec2 3) (ix2 (0 : Fin 1) (0 : Fin 1)) := by
  obtain ⟨e0, e1⟩ := (idx_facts t).2.2.2.1
  unfold cBlk iblk2
  rw [View.read_apply]
  show V c (Pipeline.arrRef spec2 3) (((cfg2.win 3).blk t).view.emb (ix2 (0 : Fin 1) (0 : Fin 1))) = V c (Pipeline.arrRef spec2 3) (ix2 (0 : Fin 1) (0 : Fin 1))
  refine congrArg _ (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

private def run (c : Dev nD) : Run pay2 cfg2.N where
  o := outsAt2 V c
  bx := xBlk V c
  ba := aBlk V c
  bw := wBlk V c
  bc := cBlk V c
  X := V c (Pipeline.arrRef spec2 0)
  A := V c (Pipeline.arrRef spec2 1)
  W := V c (Pipeline.arrRef spec2 2)
  C := V c (Pipeline.arrRef spec2 3)
  hN := N_2
  hx := xBlk_apply V c
  ha := aBlk_apply V c
  hw := wBlk_apply V c
  hc := cBlk_apply V c
  hA := stepA V c
  hB := stepB V c

/-- The product array the call computes. -/
private abbrev hArr (c : Dev nD) : SN.Idx → EReal :=
  linA (V c (Pipeline.arrRef spec2 3)) (V c (Pipeline.arrRef spec2 0)) (V c (Pipeline.arrRef spec2 1)) (V c (Pipeline.arrRef spec2 2))

private theorem flushed4_eq (c : Dev nD) (t : Fin cfg2.N) :
    (dat2 (F := Ideal) V c).flushed 4 t = ((cfg2.win 4).blk t).view.read (Elt Ideal) (hArr V c) := by
  show (cfg2.win 4).cut (grid2.coords t) ((dat2 (F := Ideal) V c).after 4 t) = _
  rw [after2_4]
  obtain ⟨e0, e1⟩ := (idx_facts t).2.2.2.2.1
  have hN : t.val < 20 := lt_of_lt_of_eq t.isLt (show cfg2.N = 20 from N_2)
  funext j
  obtain ⟨r, d, rfl⟩ : ∃ (r : Fin 5000) (d : Fin 128), j = ix2 r d := ⟨j 0, j 1, eq_ix2 j⟩
  have hr : r.val < 5000 := r.isLt
  have hacc : (outsAt2 V c t.val t.isLt).1 (ix2 r d) = hArr V c (ix2 (⟨5000 * t.val + r.val, by omega⟩ : Fin 100000) d) :=
    (run V c).out_entry t r d ⟨5000 * t.val + r.val, by omega⟩ rfl
  generalize (outsAt2 V c t.val t.isLt).1 = acc at hacc ⊢
  show acc (ix2 r d) = hArr V c (((cfg2.win 4).blk t).view.emb (ix2 r d))
  have he : ((cfg2.win 4).blk t).view.emb (ix2 r d) = (ix2 (⟨5000 * t.val + r.val, by omega⟩ : Fin 100000) d : SN.Idx) :=
    funext fun a => Fin.ext (by
      match a with
      | ⟨0, _⟩ => show win2_4.index t (0 : Fin 2) * 5000 + 1 * r.val = 5000 * t.val + r.val; omega
      | ⟨1, _⟩ => show win2_4.index t (1 : Fin 2) * 128 + 1 * d.val = d.val; omega)
  exact hacc.trans (congrArg (hArr V c) he).symm

-- Row n is in the block of point n / 5000.
private theorem cover4 (i : SN.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hlt : (i 0).val / 5000 < cfg2.N := lt_of_lt_of_eq (by omega) (show cfg2.N = 20 from N_2).symm
  obtain ⟨e0, e1⟩ := (idx_facts ⟨(i 0).val / 5000, hlt⟩).2.2.2.2.1
  refine ⟨⟨(i 0).val / 5000, hlt⟩, flush2_4 _, ?_⟩
  show i ∈ ((View.whole (Pipeline.arrRef spec2 4)).slice (win2_4.rect ⟨(i 0).val / 5000, hlt⟩)).set
  rw [View.set_slice_whole, Rect.mem_set_unit]
  intro a
  match a with
  | ⟨0, _⟩ => show win2_4.index ⟨(i 0).val / 5000, hlt⟩ (0 : Fin 2) * 5000 ≤ (i 0).val ∧ (i 0).val < win2_4.index ⟨(i 0).val / 5000, hlt⟩ (0 : Fin 2) * 5000 + 5000; dsimp only at e0; omega
  | ⟨1, _⟩ => show win2_4.index ⟨(i 0).val / 5000, hlt⟩ (1 : Fin 2) * 128 ≤ (i 1).val ∧ (i 1).val < win2_4.index ⟨(i 0).val / 5000, hlt⟩ (1 : Fin 2) * 128 + 128; omega

theorem lin2_h (c : Dev nD) :
    (dat2 (F := Ideal) V c).arrAt 4 cfg2.N
      = linA (V c (Pipeline.arrRef spec2 3)) (V c (Pipeline.arrRef spec2 0)) (V c (Pipeline.arrRef spec2 1))
          (V c (Pipeline.arrRef spec2 2)) :=
  (dat2 (F := Ideal) V c).arrAt_eq_of_cover 4 (hArr V c) (fun t _ => flushed4_eq V c t) cover4

private theorem last_lt : 19 < cfg2.N := lt_of_lt_of_eq (by decide) (show cfg2.N = 20 from N_2).symm

private theorem flushed5_eq (c : Dev nD) (t : Fin cfg2.N) (hf : (cfg2.win 5).flush t = true) :
    (dat2 (F := Ideal) V c).flushed 5 t = ((cfg2.win 5).blk t).view.read (Elt Ideal) (sumA (hArr V c)) := by
  have hN : cfg2.N = 20 := N_2
  have h19 : t.val = 19 := by have := (flush2_5 t).mp hf; have := t.isLt; omega
  obtain ⟨e0, e1⟩ := (idx_facts t).2.2.2.2.2.1
  show (cfg2.win 5).cut (grid2.coords t) ((dat2 (F := Ideal) V c).after 5 t) = _
  rw [after2_5]
  have hacc : ∀ (u : Fin 1) (d : Fin 128), (outsAt2 V c t.val t.isLt).2.1 (ix2 u d) = sumA (hArr V c) (ix2 u d) := (run V c).total5 t h19
  generalize (outsAt2 V c t.val t.isLt).2.1 = acc at hacc ⊢
  generalize sumA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg2.win 5).blk t).view.emb (ix2 u d))
  have he : ((cfg2.win 5).blk t).view.emb (ix2 u d) = (ix2 u d : SR.Idx) :=
    funext fun a => Fin.ext (by
      match a with
      | ⟨0, _⟩ => show win2_5.index t (0 : Fin 2) * 1 + 1 * u.val = u.val; omega
      | ⟨1, _⟩ => show win2_5.index t (1 : Fin 2) * 128 + 1 * d.val = d.val; omega)
  exact (hacc u d).trans (congrArg G he).symm

private theorem cover5 (i : SR.Idx) : ∃ t : Fin cfg2.N, (cfg2.win 5).flush t = true ∧ i ∈ ((cfg2.win 5).blk t).view.set := by
  have hi0 : (i 0).val < 1 := (i 0).isLt
  have hi1 : (i 1).val < 128 := (i 1).isLt
  obtain ⟨e0, e1⟩ := (idx_facts ⟨19, last_lt⟩).2.2.2.2.2.1
  refine ⟨⟨19, last_lt⟩, (flush2_5 _).mpr rfl, ?_⟩
  show i ∈ ((View.whole (Pipeline.arrRef spec2 5)).slice (win2_5.rect ⟨19, last_lt⟩)).set
  rw [View.set_slice_whole, Rect.mem_set_unit]
  intro a
  match a with
  | ⟨0, _⟩ => show win2_5.index ⟨19, last_lt⟩ (0 : Fin 2) * 1 ≤ (i 0).val ∧ (i 0).val < win2_5.index ⟨19, last_lt⟩ (0 : Fin 2) * 1 + 1; omega
  | ⟨1, _⟩ => show win2_5.index ⟨19, last_lt⟩ (1 : Fin 2) * 128 ≤ (i 1).val ∧ (i 1).val < win2_5.index ⟨19, last_lt⟩ (1 : Fin 2) * 128 + 128; omega

private theorem flushed6_eq (c : Dev nD) (t : Fin cfg2.N) (hf : (cfg2.win 6).flush t = true) :
    (dat2 (F := Ideal) V c).flushed 6 t = ((cfg2.win 6).blk t).view.read (Elt Ideal) (sumSqA (hArr V c)) := by
  have hN : cfg2.N = 20 := N_2
  have h19 : t.val = 19 := by have := (flush2_6 t).mp hf; have := t.isLt; omega
  obtain ⟨e0, e1⟩ := (idx_facts t).2.2.2.2.2.2
  show (cfg2.win 6).cut (grid2.coords t) ((dat2 (F := Ideal) V c).after 6 t) = _
  rw [after2_6]
  have hacc : ∀ (u : Fin 1) (d : Fin 128), (outsAt2 V c t.val t.isLt).2.2 (ix2 u d) = sumSqA (hArr V c) (ix2 u d) := (run V c).total6 t h19
  generalize (outsAt2 V c t.val t.isLt).2.2 = acc at hacc ⊢
  generalize sumSqA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg2.win 6).blk t).view.emb (ix2 u d))
  have he : ((cfg2.win 6).blk t).view.emb (ix2 u d) = (ix2 u d : SR.Idx) :=
    funext fun a => Fin.ext (by
      match a with
      | ⟨0, _⟩ => show win2_6.index t (0 : Fin 2) * 1 + 1 * u.val = u.val; omega
      | ⟨1, _⟩ => show win2_6.index t (1 : Fin 2) * 128 + 1 * d.val = d.val; omega)
  exact (hacc u d).trans (congrArg G he).symm

private theorem cover6 (i : SR.Idx) : ∃ t : Fin cfg2.N, (cfg2.win 6).flush t = true ∧ i ∈ ((cfg2.win 6).blk t).view.set := by
  have hi0 : (i 0).val < 1 := (i 0).isLt
  have hi1 : (i 1).val < 128 := (i 1).isLt
  obtain ⟨e0, e1⟩ := (idx_facts ⟨19, last_lt⟩).2.2.2.2.2.2
  refine ⟨⟨19, last_lt⟩, (flush2_6 _).mpr rfl, ?_⟩
  show i ∈ ((View.whole (Pipeline.arrRef spec2 6)).slice (win2_6.rect ⟨19, last_lt⟩)).set
  rw [View.set_slice_whole, Rect.mem_set_unit]
  intro a
  match a with
  | ⟨0, _⟩ => show win2_6.index ⟨19, last_lt⟩ (0 : Fin 2) * 1 ≤ (i 0).val ∧ (i 0).val < win2_6.index ⟨19, last_lt⟩ (0 : Fin 2) * 1 + 1; omega
  | ⟨1, _⟩ => show win2_6.index ⟨19, last_lt⟩ (1 : Fin 2) * 128 ≤ (i 1).val ∧ (i 1).val < win2_6.index ⟨19, last_lt⟩ (1 : Fin 2) * 128 + 128; omega

theorem lin2_sum (c : Dev nD) :
    (dat2 (F := Ideal) V c).arrAt 5 cfg2.N
      = sumA (linA (V c (Pipeline.arrRef spec2 3)) (V c (Pipeline.arrRef spec2 0)) (V c (Pipeline.arrRef spec2 1))
          (V c (Pipeline.arrRef spec2 2))) :=
  (dat2 (F := Ideal) V c).arrAt_eq_of_cover 5 (sumA (hArr V c)) (flushed5_eq V c) cover5

theorem lin2_sumsq (c : Dev nD) :
    (dat2 (F := Ideal) V c).arrAt 6 cfg2.N
      = sumSqA (linA (V c (Pipeline.arrRef spec2 3)) (V c (Pipeline.arrRef spec2 0)) (V c (Pipeline.arrRef spec2 1))
          (V c (Pipeline.arrRef spec2 2))) :=
  (dat2 (F := Ideal) V c).arrAt_eq_of_cover 6 (sumSqA (hArr V c)) (flushed6_eq V c) cover6

end Cert.KernelIdeal.Val

end
-- ==== Proof.RegBn3.lean ====
import proofs.«410150_j30107720744960_1_alg».proof.Proof.BnShared

noncomputable section

namespace Cert.KernelIdeal.Val

open Idealize.ShloMosaic Idealize.ShloMosaic.TcCoe Cert.KernelIdeal Cert.KernelIdeal.Gen Cert.Gin

variable (V : (c : Dev nD) → (b : Ref sig .tc) → Buf (Elt Ideal) ((c : Thread nD τ).loc b))

theorem bn3_idx : ∀ t : Fin cfg3.N, BnIdx (win3_0.index t) (win3_1.index t) (win3_2.index t) (win3_3.index t)
    (win3_4.index t) (win3_5.index t) (win3_6.index t) t.val :=
  (by decide +kernel : ∀ t : Fin grid3.N, _)

theorem bn3_cover (i : S100000x128.Idx) :
    ∃ t : Fin cfg3.N, (cfg3.win 6).flush t = true ∧ i ∈ ((cfg3.win 6).blk t).view.set :=
  (bn_rows_cover N_3 (fun t => (bn3_idx t).2.2.2.2.2.2) i).imp fun t h =>
    ⟨flush3_6 t, bn_mem_slice (b := Pipeline.arrRef spec3 6) h⟩

def bn3_out (c : Dev nD) : SN.Idx → EReal :=
  bnA (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

theorem bn3_flushed (c : Dev nD) (t : Fin cfg3.N) :
    (dat3 (F := Ideal) V c).flushed 6 t = ((cfg3.win 6).blk t).view.read (Elt Ideal) (bn3_out V c) := by
  show (cfg3.win 6).cut (grid3.coords t) ((dat3 (F := Ideal) V c).after 6 t) = _
  rw [after3_6]
  unfold bn3_out
  funext j
  exact bn_point bn_pay3 _ _ _ _ _ _ (win3_0.rect_emb_val t) (win3_1.rect_emb_val t)
    (win3_2.rect_emb_val t) (win3_3.rect_emb_val t) (win3_4.rect_emb_val t)
    (win3_5.rect_emb_val t) (win3_6.rect_emb_val t) (bn3_idx t) j

theorem bn3_value (c : Dev nD) :
    (dat3 (F := Ideal) V c).arrAt 6 cfg3.N
      = bnA (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => bn3_flushed V c t) bn3_cover

end Cert.KernelIdeal.Val

end
-- ==== Proof.KLayer1.lean ====
import proofs.«410150_j30107720744960_1_alg».proof.Proof.KLayerShared
import proofs.«410150_j30107720744960_1_alg».proof.Proof.KKept
import proofs.«410150_j30107720744960_1_alg».proof.Proof.RegLin2
import proofs.«410150_j30107720744960_1_alg».proof.Proof.RegBn3

set_option maxRecDepth 16384

noncomputable section

namespace Cert.KernelIdeal.Val

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.Gin

variable (m : (ℓ : Loc nD τ sig) → Buf (Elt Ideal) ℓ) (ρ : Dev nD → PrngReg) (c : Dev nD)
  (V : Valuation τ sig (Elt Ideal)) (r : Ref sig .tc)

-- the buffers the layer reads after a host stretch that does not write them
private abbrev K : List (Ref sig .tc) := main_v29 :: main_v42_0 :: kept

private theorem fold_take :
    StableHlo.after hostOps2 V (Proc.devRef .tc main_v30)
      = takeK dGK (V (Proc.devRef .tc main_v29)) (srcColOfVec (V (Proc.devRef .tc main_v1))) := by
  after_results_simp
  simp only [ofBuf_toBuf]
  exact (toBuf_of main_v30 _ _ _).trans (take_run dGK (V (Proc.devRef .tc main_v29)) (V (Proc.devRef .tc main_v1)) _ _ _ _ _ _ _ _ _)

private theorem fold_add :
    StableHlo.after hostOps2_1 V (Proc.devRef .tc main_v31)
      = addf (F := Ideal) (φ := .f32) (V (Proc.devRef .tc main_v30)) (V (Proc.devRef .tc main_arg2)) := by
  after_results

private theorem fold_relu :
    StableHlo.after hostOps2_2 V (Proc.devRef .tc main_v32)
      = maximumf (F := Ideal) (φ := .f32) (V (Proc.devRef .tc main_v31))
          (broadcastInDim S640000x128 ![] bcast_S_S640000x128 (constant (F := Ideal) S_ .f32 0x00000000#32)) := by
  after_results_simp
  simp only [ofBuf_toBuf]
  rfl

private theorem fold_agg (g e : SE.Idx → EReal) (v : IVec SV 32)
    (hmsg : V (Proc.devRef .tc main_v32) = maximumf (F := Ideal) (φ := .f32) (addf (F := Ideal) (φ := .f32) g e)
      (broadcastInDim S640000x128 ![] bcast_S_S640000x128 (constant (F := Ideal) S_ .f32 0x00000000#32)))
    (hdst : V (Proc.devRef .tc main_v3) = v) :
    StableHlo.after hostOps2_3 V (Proc.devRef .tc main_v35) = aggOf dSK g (colOfVec v) e := by
  after_results
  rw [hmsg, hdst]
  exact agg_read dSK g e v _ _ _

private theorem fold_coef (eps : S4.Idx → EReal) (heps : V (Proc.devRef .tc main_arg4) = eps) :
    StableHlo.after hostOps2_3 V (Proc.devRef .tc main_v39) (ix2 (0 : Fin 1) (0 : Fin 1)) = coefAt eps (1 : Fin 4) := by
  after_results
  rw [heps]
  exact coef_read eps (1 : Fin 4) _ _ _

private theorem fold_weight (Ws : S4W.Idx → EReal) (hWs : V (Proc.devRef .tc main_arg3) = Ws) :
    StableHlo.after hostOps2_3 V (Proc.devRef .tc main_v41) = weightAt Ws (1 : Fin 4) := by
  after_results
  rw [hWs]
  exact weight_read Ws (1 : Fin 4) _ _

private theorem fold_mean (h : SN.Idx → EReal) (hs : V (Proc.devRef .tc main_v42_1) = sumA h) :
    StableHlo.after hostOps3 V (Proc.devRef .tc main_v44) = ofRow (meanOf (toMat h)) := by
  after_results
  rw [hs]
  exact mean_read h _

private theorem fold_var (h : SN.Idx → EReal) (hs : V (Proc.devRef .tc main_v42_1) = sumA h)
    (hq : V (Proc.devRef .tc main_v42_2) = sumSqA h) :
    StableHlo.after hostOps3 V (Proc.devRef .tc main_v48) = ofRow (varK (toMat h)) := by
  after_results
  rw [hs, hq]
  exact var_read h _

private theorem fold_gamma (g : S4R.Idx → EReal) (hg : V (Proc.devRef .tc main_arg5) = g) :
    rowOf (StableHlo.after hostOps3 V (Proc.devRef .tc main_v51)) = rowAt g (1 : Fin 4) := by
  after_results
  rw [hg]
  exact row_read g (1 : Fin 4) _ _ _

private theorem fold_beta (g : S4R.Idx → EReal) (hg : V (Proc.devRef .tc main_arg6) = g) :
    rowOf (StableHlo.after hostOps3 V (Proc.devRef .tc main_v54)) = rowAt g (1 : Fin 4) := by
  after_results
  rw [hg]
  exact row_read g (1 : Fin 4) _ _ _

private theorem at_scatter_entry (hr : r ∈ K) : W11 m ρ c (Proc.devRef .tc r) = W8 m ρ c (Proc.devRef .tc r) :=
  (after_kept hr hostOps2_2).trans <| (after_kept hr hostOps2_1).trans (after_kept hr hostOps2)

private theorem at_lin_entry (hr : r ∈ K) : W12 m ρ c (Proc.devRef .tc r) = W8 m ρ c (Proc.devRef .tc r) :=
  (after_kept hr hostOps2_3).trans (at_scatter_entry m ρ c r hr)

private theorem at_bn_entry (hr : r ∈ K) : W14 m ρ c (Proc.devRef .tc r) = W13 m ρ c (Proc.devRef .tc r) :=
  after_kept hr hostOps3

private abbrev cur : SN.Idx → EReal := W8 m ρ c (Proc.devRef .tc main_v29)
private abbrev tk : SE.Idx → EReal := takeK dGK (cur m ρ c) (srcColOfVec (W1 m ρ c (Proc.devRef .tc main_v1)))
private abbrev lin : SN.Idx → EReal :=
  linA (V12 m ρ c (Pipeline.arrRef spec2 3)) (V12 m ρ c (Pipeline.arrRef spec2 0)) (V12 m ρ c (Pipeline.arrRef spec2 1))
    (V12 m ρ c (Pipeline.arrRef spec2 2))

private theorem msg_value :
    W11 m ρ c (Proc.devRef .tc main_v32)
      = maximumf (F := Ideal) (φ := .f32) (addf (F := Ideal) (φ := .f32) (tk m ρ c) (m ((c : Thread nD τ).loc main_arg2)))
          (broadcastInDim S640000x128 ![] bcast_S_S640000x128 (constant (F := Ideal) S_ .f32 0x00000000#32)) := by
  refine (fold_relu (W10 m ρ c)).trans ?_
  refine congrArg (fun x => maximumf (F := Ideal) (φ := .f32) x _) ?_
  refine (fold_add (W9 m ρ c)).trans ?_
  rw [show W9 m ρ c (Proc.devRef .tc main_v30) = _ from fold_take (W8 m ρ c),
    show W9 m ρ c (Proc.devRef .tc main_arg2) = _ from after_kept (K := K) (by decide) hostOps2,
    kept8_v1 m ρ c, kept8_arg2 m ρ c]

private theorem agg_value :
    V12 m ρ c (Pipeline.arrRef spec2 1)
      = aggOf dSK (tk m ρ c) (colOfVec (W1 m ρ c (Proc.devRef .tc main_v3))) (m ((c : Thread nD τ).loc main_arg2)) :=
  fold_agg (W11 m ρ c) _ _ _ (msg_value m ρ c) ((at_scatter_entry m ρ c main_v3 (by decide)).trans (kept8_v3 m ρ c))

private theorem coef_value :
    V12 m ρ c (Pipeline.arrRef spec2 3) (ix2 (0 : Fin 1) (0 : Fin 1)) = coefAt (m ((c : Thread nD τ).loc main_arg4)) (1 : Fin 4) :=
  fold_coef (W11 m ρ c) _ ((at_scatter_entry m ρ c main_arg4 (by decide)).trans (kept8_arg4 m ρ c))

private theorem weight_value :
    V12 m ρ c (Pipeline.arrRef spec2 2) = weightAt (m ((c : Thread nD τ).loc main_arg3)) (1 : Fin 4) :=
  fold_weight (W11 m ρ c) _ ((at_scatter_entry m ρ c main_arg3 (by decide)).trans (kept8_arg3 m ρ c))

private theorem lin_in_value : V12 m ρ c (Pipeline.arrRef spec2 0) = cur m ρ c :=
  at_lin_entry m ρ c main_v29 (by decide)

private theorem lin_value : V14 m ρ c (Pipeline.arrRef spec3 0) = lin m ρ c :=
  (at_bn_entry m ρ c main_v42_0 (by decide)).trans ((W13_arr m ρ c 4).trans (lin2_h (V12 m ρ) c))

private theorem colsum_value : W13 m ρ c (Proc.devRef .tc main_v42_1) = sumA (lin m ρ c) :=
  (W13_arr m ρ c 5).trans (lin2_sum (V12 m ρ) c)

private theorem colsumsq_value : W13 m ρ c (Proc.devRef .tc main_v42_2) = sumSqA (lin m ρ c) :=
  (W13_arr m ρ c 6).trans (lin2_sumsq (V12 m ρ) c)

private theorem res_value : V14 m ρ c (Pipeline.arrRef spec3 1) = cur m ρ c :=
  (at_bn_entry m ρ c main_v29 (by decide)).trans
    (((W13_arr m ρ c 0).trans (((dat2 (V12 m ρ) c).arrAt_in 0 rfl _).trans (A_eq2 (V12 m ρ) c 0))).trans (lin_in_value m ρ c))

private theorem at_stats_entry (h2 : ∀ w, Pipeline.arrRef spec2 w ≠ r) (hr : r ∈ K) :
    W13 m ρ c (Proc.devRef .tc r) = W8 m ρ c (Proc.devRef .tc r) :=
  (W13_of_ne m ρ c r h2).trans (at_lin_entry m ρ c r hr)

theorem klayer1 (c : Dev nD) :
    W15 m ρ c (Proc.devRef .tc main_v55)
      = layerK dGK dSK (W8 m ρ c (Proc.devRef .tc main_v29)) (srcColOfVec (W1 m ρ c (Proc.devRef .tc main_v1))) (colOfVec (W1 m ρ c (Proc.devRef .tc main_v3)))
          (m ((c : Thread nD τ).loc main_arg2)) (coefAt (m ((c : Thread nD τ).loc main_arg4)) 1) (weightAt (m ((c : Thread nD τ).loc main_arg3)) 1) (rowAt (m ((c : Thread nD τ).loc main_arg5)) 1) (rowAt (m ((c : Thread nD τ).loc main_arg6)) 1) := by
  refine ((W15_arr m ρ c 6).trans (bn3_value (V14 m ρ) c)).trans ?_
  exact layer_assemble dGK dSK _ _ _ _ _ _ _ _ _ _ _ _ _ _ _ _ _ _ (lin_value m ρ c) (res_value m ρ c)
    (fold_mean (W13 m ρ c) _ (colsum_value m ρ c)) (fold_var (W13 m ρ c) _ (colsum_value m ρ c) (colsumsq_value m ρ c))
    (fold_gamma (W13 m ρ c) _ ((at_stats_entry m ρ c main_arg5 (by decide) (by decide)).trans (kept8_arg5 m ρ c)))
    (fold_beta (W13 m ρ c) _ ((at_stats_entry m ρ c main_arg6 (by decide) (by decide)).trans (kept8_arg6 m ρ c)))
    (coef_value m ρ c) (lin_in_value m ρ c) (agg_value m ρ c) (weight_value m ρ c)

end Cert.KernelIdeal.Val

end
-- ==== Proof.RegLin4.lean ====
import proofs.«410150_j30107720744960_1_alg».proof.Proof.LinShared

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Gin Lin

section Pieces
variable {F : FTy → Type} [FloatOps F] (c : Dev nD) (i : grid4.Coords)
  (arg1 : Memref sig .tc .vmem S5000x128 .f32) (harg1 : arg1.IsWhole) (arg2 : Memref sig .tc .vmem S5000x128 .f32) (harg2 : arg2.IsWhole)
  (arg3 : Memref sig .tc .vmem S128x128 .f32) (harg3 : arg3.IsWhole) (arg4 : Memref sig .tc .vmem S1x1 .f32) (harg4 : arg4.IsWhole)
  (arg5 : Memref sig .tc .vmem S5000x128 .f32) (harg5 : arg5.IsWhole) (arg6 : Memref sig .tc .vmem S1x128 .f32) (harg6 : arg6.IsWhole)
  (arg7 : Memref sig .tc .vmem S1x128 .f32) (harg7 : arg7.IsWhole)
  (x0 x1 : Vec F S5000x128 .f32) (x2 : Vec F S128x128 .f32) (x3 : Vec F S1x1 .f32) (xo5 xo6 : Vec F S1x128 .f32)

-- What each case of the body leaves in its three outputs: the body's arithmetic of the blocks it loads.
private theorem out_A_eq (hc0 : cond4_0 i) :
    out4_A_4 c i arg1 harg1 arg2 harg2 arg3 harg3 arg4 harg4 arg5 harg5 arg6 harg6 arg7 harg7 hc0 x0 x1 x2 x3 = k4_pay3 x3 x0 x1 x2 ∧ out4_A_5 c i arg1 harg1 arg2 harg2 arg3 harg3 arg4 harg4 arg5 harg5 arg6 harg6 arg7 harg7 hc0 x0 x1 x2 x3 = k4_pay4 x3 x0 x1 x2 (k4_pay1 (F := F))
      ∧ out4_A_6 c i arg1 harg1 arg2 harg2 arg3 harg3 arg4 harg4 arg5 harg5 arg6 harg6 arg7 harg7 hc0 x0 x1 x2 x3 = k4_pay5 x3 x0 x1 x2 (k4_pay2 (F := F)) := by
  unfold out4_A_4 out4_A_5 out4_A_6
  rw [View.read_writes_eq_canon _ _ _ (cover4_A_4 c i arg1 harg1 arg2 harg2 arg3 harg3 arg4 harg4 arg5 harg5 arg6 harg6 arg7 harg7 hc0 x0 x1 x2 x3), View.read_writes_eq_canon _ _ _ (cover4_A_5 c i arg1 harg1 arg2 harg2 arg3 harg3 arg4 harg4 arg5 harg5 arg6 harg6 arg7 harg7 hc0 x0 x1 x2 x3),
    View.read_writes_eq_canon _ _ _ (cover4_A_6 c i arg1 harg1 arg2 harg2 arg3 harg3 arg4 harg4 arg5 harg5 arg6 harg6 arg7 harg7 hc0 x0 x1 x2 x3)]
  unfold kernelRun4_A
  dsimp only
  sl_unfold_words
  simp only [View.canon_unit_zero (S := S5000x128) hz, View.canon_cons_unit_zero (S := S1x128) hz, View.readCov_unit_zero (S := S1x128) _ hz,
    View.readAt_eq_ld, harg1.read_unread, harg2.read_unread, harg3.read_unread, harg4.read_unread,
    View.ld_unit_zero (S := S5000x128) hz, View.ld_unit_zero (S := S128x128) hz, View.ld_unit_zero (S := S1x1) hz, View.ld_unit_zero (S := S1x128) hz, and_self]

private theorem out_B_eq (hc0 : ¬cond4_0 i) :
    out4_B_4 c i arg1 harg1 arg2 harg2 arg3 harg3 arg4 harg4 arg5 harg5 arg6 harg6 arg7 harg7 hc0 x0 x1 x2 x3 xo5 xo6 = k4_pay3 x3 x0 x1 x2 ∧ out4_B_5 c i arg1 harg1 arg2 harg2 arg3 harg3 arg4 harg4 arg5 harg5 arg6 harg6 arg7 harg7 hc0 x0 x1 x2 x3 xo5 xo6 = k4_pay4 x3 x0 x1 x2 xo5 ∧ out4_B_6 c i arg1 harg1 arg2 harg2 arg3 harg3 arg4 harg4 arg5 harg5 arg6 harg6 arg7 harg7 hc0 x0 x1 x2 x3 xo5 xo6 = k4_pay5 x3 x0 x1 x2 xo6 := by
  unfold out4_B_4 out4_B_5 out4_B_6
  rw [View.read_writes_eq_canon _ _ _ (cover4_B_4 c i arg1 harg1 arg2 harg2 arg3 harg3 arg4 harg4 arg5 harg5 arg6 harg6 arg7 harg7 hc0 x0 x1 x2 x3 xo5 xo6), View.read_writes_eq_canon _ _ _ (cover4_B_5 c i arg1 harg1 arg2 harg2 arg3 harg3 arg4 harg4 arg5 harg5 arg6 harg6 arg7 harg7 hc0 x0 x1 x2 x3 xo5 xo6),
    View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  sl_unfold_words
  simp only [View.canon_unit_zero (S := S5000x128) hz, View.canon_unit_zero (S := S1x128) hz,
    View.readAt_eq_ld, harg1.read_unread, harg2.read_unread, harg3.read_unread, harg4.read_unread, harg6.read_unread, harg7.read_unread,
    View.ld_unit_zero (S := S5000x128) hz, View.ld_unit_zero (S := S128x128) hz, View.ld_unit_zero (S := S1x1) hz, View.ld_unit_zero (S := S1x128) hz, and_self]

end Pieces

variable (V : (c : Dev nD) → (b : Ref sig .tc) → Buf (Elt Ideal) ((c : Thread nD τ).loc b))

private abbrev xBlk (c : Dev nD) (t : Fin cfg4.N) : VB := iblk4 V c 0 t
private abbrev aBlk (c : Dev nD) (t : Fin cfg4.N) : VB := iblk4 V c 1 t
private abbrev wBlk (c : Dev nD) (t : Fin cfg4.N) : VW := iblk4 V c 2 t
private abbrev cBlk (c : Dev nD) (t : Fin cfg4.N) : VC := iblk4 V c 3 t

private theorem stepA (c : Dev nD) (t : Fin cfg4.N) (h0 : t.val % 20 = 0) : outsAt4 V c t.val t.isLt
    = (pay2.p3 (cBlk V c t) (xBlk V c t) (aBlk V c t) (wBlk V c t), pay2.p4 (cBlk V c t) (xBlk V c t) (aBlk V c t) (wBlk V c t) pay2.z1,
       pay2.p5 (cBlk V c t) (xBlk V c t) (aBlk V c t) (wBlk V c t) pay2.z2) := by
  rw [outsAt4_A V c t h0, (out_A_eq ..).1, (out_A_eq ..).2.1, (out_A_eq ..).2.2]
  rfl

private theorem stepB (c : Dev nD) (t : Fin cfg4.N) (h0 : ¬t.val % 20 = 0) : outsAt4 V c t.val t.isLt
    = (pay2.p3 (cBlk V c t) (xBlk V c t) (aBlk V c t) (wBlk V c t),
       pay2.p4 (cBlk V c t) (xBlk V c t) (aBlk V c t) (wBlk V c t) (outsAt4 V c (t.val - 1) (Nat.lt_of_le_of_lt (Nat.sub_le _ _) t.isLt)).2.1,
       pay2.p5 (cBlk V c t) (xBlk V c t) (aBlk V c t) (wBlk V c t) (outsAt4 V c (t.val - 1) (Nat.lt_of_le_of_lt (Nat.sub_le _ _) t.isLt)).2.2) := by
  rw [outsAt4_B V c t h0, (out_B_eq ..).1, (out_B_eq ..).2.1, (out_B_eq ..).2.2]
  rfl

private theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

private theorem xBlk_apply (c : Dev nD) (t : Fin cfg4.N) (r : Fin 5000) (k : Fin 128) (n : Fin 100000)
    (hn : n.val = 5000 * t.val + r.val) : xBlk V c t (ix2 r k) = V c (Pipeline.arrRef spec4 0) (ix2 n k) := by
  obtain ⟨e0, e1⟩ := (idx_facts t).1
  unfold xBlk iblk4
  rw [View.read_apply]
  show V c (Pipeline.arrRef spec4 0) (((cfg4.win 0).blk t).view.emb (ix2 r k)) = V c (Pipeline.arrRef spec4 0) (ix2 n k)
  refine congrArg _ (funext fun a => Fin.ext ?_)
  match a with
  | ⟨0, _⟩ => show win4_0.index t (0 : Fin 2) * 5000 + 1 * r.val = n.val; omega
  | ⟨1, _⟩ => show win4_0.index t (1 : Fin 2) * 128 + 1 * k.val = k.val; omega

private theorem aBlk_apply (c : Dev nD) (t : Fin cfg4.N) (r : Fin 5000) (k : Fin 128) (n : Fin 100000)
    (hn : n.val = 5000 * t.val + r.val) : aBlk V c t (ix2 r k) = V c (Pipeline.arrRef spec4 1) (ix2 n k) := by
  obtain ⟨e0, e1⟩ := (idx_facts t).2.1
  unfold aBlk iblk4
  rw [View.read_apply]
  show V c (Pipeline.arrRef spec4 1) (((cfg4.win 1).blk t).view.emb (ix2 r k)) = V c (Pipeline.arrRef spec4 1) (ix2 n k)
  refine congrArg _ (funext fun a => Fin.ext ?_)
  match a with
  | ⟨0, _⟩ => show win4_1.index t (0 : Fin 2) * 5000 + 1 * r.val = n.val; omega
  | ⟨1, _⟩ => show win4_1.index t (1 : Fin 2) * 128 + 1 * k.val = k.val; omega

private theorem wBlk_apply (c : Dev nD) (t : Fin cfg4.N) (k d : Fin 128) : wBlk V c t (ix2 k d) = V c (Pipeline.arrRef spec4 2) (ix2 k d) := by
  obtain ⟨e0, e1⟩ := (idx_facts t).2.2.1
  unfold wBlk iblk4
  rw [View.read_apply]
  show V c (Pipeline.arrRef spec4 2) (((cfg4.win 2).blk t).view.emb (ix2 k d)) = V c (Pipeline.arrRef spec4 2) (ix2 k d)
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * d.val = d.val; omega

private theorem cBlk_apply (c : Dev nD) (t : Fin cfg4.N) :
    cBlk V c t (ix2 (0 : Fin 1) (0 : Fin 1)) = V c (Pipeline.arrRef spec4 3) (ix2 (0 : Fin 1) (0 : Fin 1)) := by
  obtain ⟨e0, e1⟩ := (idx_facts t).2.2.2.1
  unfold cBlk iblk4
  rw [View.read_apply]
  show V c (Pipeline.arrRef spec4 3) (((cfg4.win 3).blk t).view.emb (ix2 (0 : Fin 1) (0 : Fin 1))) = V c (Pipeline.arrRef spec4 3) (ix2 (0 : Fin 1) (0 : Fin 1))
  refine congrArg _ (funext fun a => Fin.ext ?_)
  match a with
  | ⟨0, _⟩ => show win4_3.index t (0 : Fin 2) * 1 + 1 * 0 = 0; omega
  | ⟨1, _⟩ => show win4_3.index t (1 : Fin 2) * 1 + 1 * 0 = 0; omega

private def run (c : Dev nD) : Run pay2 cfg4.N where
  o := outsAt4 V c
  bx := xBlk V c
  ba := aBlk V c
  bw := wBlk V c
  bc := cBlk V c
  X := V c (Pipeline.arrRef spec4 0)
  A := V c (Pipeline.arrRef spec4 1)
  W := V c (Pipeline.arrRef spec4 2)
  C := V c (Pipeline.arrRef spec4 3)
  hN := N_4
  hx := xBlk_apply V c
  ha := aBlk_apply V c
  hw := wBlk_apply V c
  hc := cBlk_apply V c
  hA := stepA V c
  hB := stepB V c

/-- The product array the call computes. -/
private abbrev hArr (c : Dev nD) : SN.Idx → EReal :=
  linA (V c (Pipeline.arrRef spec4 3)) (V c (Pipeline.arrRef spec4 0)) (V c (Pipeline.arrRef spec4 1)) (V c (Pipeline.arrRef spec4 2))

private theorem flushed4_eq (c : Dev nD) (t : Fin cfg4.N) :
    (dat4 (F := Ideal) V c).flushed 4 t = ((cfg4.win 4).blk t).view.read (Elt Ideal) (hArr V c) := by
  show (cfg4.win 4).cut (grid4.coords t) ((dat4 (F := Ideal) V c).after 4 t) = _
  rw [after4_4]
  obtain ⟨e0, e1⟩ := (idx_facts t).2.2.2.2.1
  have hN : t.val < 20 := lt_of_lt_of_eq t.isLt (show cfg4.N = 20 from N_4)
  funext j
  obtain ⟨r, d, rfl⟩ : ∃ (r : Fin 5000) (d : Fin 128), j = ix2 r d := ⟨j 0, j 1, eq_ix2 j⟩
  have hr : r.val < 5000 := r.isLt
  have hacc : (outsAt4 V c t.val t.isLt).1 (ix2 r d) = hArr V c (ix2 (⟨5000 * t.val + r.val, by omega⟩ : Fin 100000) d) :=
    (run V c).out_entry t r d ⟨5000 * t.val + r.val, by omega⟩ rfl
  generalize (outsAt4 V c t.val t.isLt).1 = acc at hacc ⊢
  show acc (ix2 r d) = hArr V c (((cfg4.win 4).blk t).view.emb (ix2 r d))
  have he : ((cfg4.win 4).blk t).view.emb (ix2 r d) = (ix2 (⟨5000 * t.val + r.val, by omega⟩ : Fin 100000) d : SN.Idx) :=
    funext fun a => Fin.ext (by
      match a with
      | ⟨0, _⟩ => show win4_4.index t (0 : Fin 2) * 5000 + 1 * r.val = 5000 * t.val + r.val; omega
      | ⟨1, _⟩ => show win4_4.index t (1 : Fin 2) * 128 + 1 * d.val = d.val; omega)
  exact hacc.trans (congrArg (hArr V c) he).symm

-- Row n is in the block of point n / 5000.
private theorem cover4 (i : SN.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hlt : (i 0).val / 5000 < cfg4.N := lt_of_lt_of_eq (by omega) (show cfg4.N = 20 from N_4).symm
  obtain ⟨e0, e1⟩ := (idx_facts ⟨(i 0).val / 5000, hlt⟩).2.2.2.2.1
  refine ⟨⟨(i 0).val / 5000, hlt⟩, flush4_4 _, ?_⟩
  show i ∈ ((View.whole (Pipeline.arrRef spec4 4)).slice (win4_4.rect ⟨(i 0).val / 5000, hlt⟩)).set
  rw [View.set_slice_whole, Rect.mem_set_unit]
  intro a
  match a with
  | ⟨0, _⟩ => show win4_4.index ⟨(i 0).val / 5000, hlt⟩ (0 : Fin 2) * 5000 ≤ (i 0).val ∧ (i 0).val < win4_4.index ⟨(i 0).val / 5000, hlt⟩ (0 : Fin 2) * 5000 + 5000; dsimp only at e0; omega
  | ⟨1, _⟩ => show win4_4.index ⟨(i 0).val / 5000, hlt⟩ (1 : Fin 2) * 128 ≤ (i 1).val ∧ (i 1).val < win4_4.index ⟨(i 0).val / 5000, hlt⟩ (1 : Fin 2) * 128 + 128; omega

theorem lin4_h (c : Dev nD) :
    (dat4 (F := Ideal) V c).arrAt 4 cfg4.N
      = linA (V c (Pipeline.arrRef spec4 3)) (V c (Pipeline.arrRef spec4 0)) (V c (Pipeline.arrRef spec4 1))
          (V c (Pipeline.arrRef spec4 2)) :=
  (dat4 (F := Ideal) V c).arrAt_eq_of_cover 4 (hArr V c) (fun t _ => flushed4_eq V c t) cover4

private theorem last_lt : 19 < cfg4.N := lt_of_lt_of_eq (by decide) (show cfg4.N = 20 from N_4).symm

private theorem flushed5_eq (c : Dev nD) (t : Fin cfg4.N) (hf : (cfg4.win 5).flush t = true) :
    (dat4 (F := Ideal) V c).flushed 5 t = ((cfg4.win 5).blk t).view.read (Elt Ideal) (sumA (hArr V c)) := by
  have hN : cfg4.N = 20 := N_4
  have h19 : t.val = 19 := by have := (flush4_5 t).mp hf; have := t.isLt; omega
  obtain ⟨e0, e1⟩ := (idx_facts t).2.2.2.2.2.1
  show (cfg4.win 5).cut (grid4.coords t) ((dat4 (F := Ideal) V c).after 5 t) = _
  rw [after4_5]
  have hacc : ∀ (u : Fin 1) (d : Fin 128), (outsAt4 V c t.val t.isLt).2.1 (ix2 u d) = sumA (hArr V c) (ix2 u d) := (run V c).total5 t h19
  generalize (outsAt4 V c t.val t.isLt).2.1 = acc at hacc ⊢
  generalize sumA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg4.win 5).blk t).view.emb (ix2 u d))
  have he : ((cfg4.win 5).blk t).view.emb (ix2 u d) = (ix2 u d : SR.Idx) :=
    funext fun a => Fin.ext (by
      match a with
      | ⟨0, _⟩ => show win4_5.index t (0 : Fin 2) * 1 + 1 * u.val = u.val; omega
      | ⟨1, _⟩ => show win4_5.index t (1 : Fin 2) * 128 + 1 * d.val = d.val; omega)
  exact (hacc u d).trans (congrArg G he).symm

private theorem cover5 (i : SR.Idx) : ∃ t : Fin cfg4.N, (cfg4.win 5).flush t = true ∧ i ∈ ((cfg4.win 5).blk t).view.set := by
  have hi0 : (i 0).val < 1 := (i 0).isLt
  have hi1 : (i 1).val < 128 := (i 1).isLt
  obtain ⟨e0, e1⟩ := (idx_facts ⟨19, last_lt⟩).2.2.2.2.2.1
  refine ⟨⟨19, last_lt⟩, (flush4_5 _).mpr rfl, ?_⟩
  show i ∈ ((View.whole (Pipeline.arrRef spec4 5)).slice (win4_5.rect ⟨19, last_lt⟩)).set
  rw [View.set_slice_whole, Rect.mem_set_unit]
  intro a
  match a with
  | ⟨0, _⟩ => show win4_5.index ⟨19, last_lt⟩ (0 : Fin 2) * 1 ≤ (i 0).val ∧ (i 0).val < win4_5.index ⟨19, last_lt⟩ (0 : Fin 2) * 1 + 1; omega
  | ⟨1, _⟩ => show win4_5.index ⟨19, last_lt⟩ (1 : Fin 2) * 128 ≤ (i 1).val ∧ (i 1).val < win4_5.index ⟨19, last_lt⟩ (1 : Fin 2) * 128 + 128; omega

private theorem flushed6_eq (c : Dev nD) (t : Fin cfg4.N) (hf : (cfg4.win 6).flush t = true) :
    (dat4 (F := Ideal) V c).flushed 6 t = ((cfg4.win 6).blk t).view.read (Elt Ideal) (sumSqA (hArr V c)) := by
  have hN : cfg4.N = 20 := N_4
  have h19 : t.val = 19 := by have := (flush4_6 t).mp hf; have := t.isLt; omega
  obtain ⟨e0, e1⟩ := (idx_facts t).2.2.2.2.2.2
  show (cfg4.win 6).cut (grid4.coords t) ((dat4 (F := Ideal) V c).after 6 t) = _
  rw [after4_6]
  have hacc : ∀ (u : Fin 1) (d : Fin 128), (outsAt4 V c t.val t.isLt).2.2 (ix2 u d) = sumSqA (hArr V c) (ix2 u d) := (run V c).total6 t h19
  generalize (outsAt4 V c t.val t.isLt).2.2 = acc at hacc ⊢
  generalize sumSqA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg4.win 6).blk t).view.emb (ix2 u d))
  have he : ((cfg4.win 6).blk t).view.emb (ix2 u d) = (ix2 u d : SR.Idx) :=
    funext fun a => Fin.ext (by
      match a with
      | ⟨0, _⟩ => show win4_6.index t (0 : Fin 2) * 1 + 1 * u.val = u.val; omega
      | ⟨1, _⟩ => show win4_6.index t (1 : Fin 2) * 128 + 1 * d.val = d.val; omega)
  exact (hacc u d).trans (congrArg G he).symm

private theorem cover6 (i : SR.Idx) : ∃ t : Fin cfg4.N, (cfg4.win 6).flush t = true ∧ i ∈ ((cfg4.win 6).blk t).view.set := by
  have hi0 : (i 0).val < 1 := (i 0).isLt
  have hi1 : (i 1).val < 128 := (i 1).isLt
  obtain ⟨e0, e1⟩ := (idx_facts ⟨19, last_lt⟩).2.2.2.2.2.2
  refine ⟨⟨19, last_lt⟩, (flush4_6 _).mpr rfl, ?_⟩
  show i ∈ ((View.whole (Pipeline.arrRef spec4 6)).slice (win4_6.rect ⟨19, last_lt⟩)).set
  rw [View.set_slice_whole, Rect.mem_set_unit]
  intro a
  match a with
  | ⟨0, _⟩ => show win4_6.index ⟨19, last_lt⟩ (0 : Fin 2) * 1 ≤ (i 0).val ∧ (i 0).val < win4_6.index ⟨19, last_lt⟩ (0 : Fin 2) * 1 + 1; omega
  | ⟨1, _⟩ => show win4_6.index ⟨19, last_lt⟩ (1 : Fin 2) * 128 ≤ (i 1).val ∧ (i 1).val < win4_6.index ⟨19, last_lt⟩ (1 : Fin 2) * 128 + 128; omega

theorem lin4_sum (c : Dev nD) :
    (dat4 (F := Ideal) V c).arrAt 5 cfg4.N
      = sumA (linA (V c (Pipeline.arrRef spec4 3)) (V c (Pipeline.arrRef spec4 0)) (V c (Pipeline.arrRef spec4 1))
          (V c (Pipeline.arrRef spec4 2))) :=
  (dat4 (F := Ideal) V c).arrAt_eq_of_cover 5 (sumA (hArr V c)) (flushed5_eq V c) cover5

theorem lin4_sumsq (c : Dev nD) :
    (dat4 (F := Ideal) V c).arrAt 6 cfg4.N
      = sumSqA (linA (V c (Pipeline.arrRef spec4 3)) (V c (Pipeline.arrRef spec4 0)) (V c (Pipeline.arrRef spec4 1))
          (V c (Pipeline.arrRef spec4 2))) :=
  (dat4 (F := Ideal) V c).arrAt_eq_of_cover 6 (sumSqA (hArr V c)) (flushed6_eq V c) cover6

end Cert.KernelIdeal.Val

end
-- ==== Proof.RegBn5.lean ====
import proofs.«410150_j30107720744960_1_alg».proof.Proof.BnShared

noncomputable section

namespace Cert.KernelIdeal.Val

open Idealize.ShloMosaic Idealize.ShloMosaic.TcCoe Cert.KernelIdeal Cert.KernelIdeal.Gen Cert.Gin

variable (V : (c : Dev nD) → (b : Ref sig .tc) → Buf (Elt Ideal) ((c : Thread nD τ).loc b))

theorem bn5_idx : ∀ t : Fin cfg5.N, BnIdx (win5_0.index t) (win5_1.index t) (win5_2.index t) (win5_3.index t)
    (win5_4.index t) (win5_5.index t) (win5_6.index t) t.val :=
  (by decide +kernel : ∀ t : Fin grid5.N, _)

theorem bn5_cover (i : S100000x128.Idx) :
    ∃ t : Fin cfg5.N, (cfg5.win 6).flush t = true ∧ i ∈ ((cfg5.win 6).blk t).view.set :=
  (bn_rows_cover N_5 (fun t => (bn5_idx t).2.2.2.2.2.2) i).imp fun t h =>
    ⟨flush5_6 t, bn_mem_slice (b := Pipeline.arrRef spec5 6) h⟩

def bn5_out (c : Dev nD) : SN.Idx → EReal :=
  bnA (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))

theorem bn5_flushed (c : Dev nD) (t : Fin cfg5.N) :
    (dat5 (F := Ideal) V c).flushed 6 t = ((cfg5.win 6).blk t).view.read (Elt Ideal) (bn5_out V c) := by
  show (cfg5.win 6).cut (grid5.coords t) ((dat5 (F := Ideal) V c).after 6 t) = _
  rw [after5_6]
  unfold bn5_out
  funext j
  exact bn_point bn_pay5 _ _ _ _ _ _ (win5_0.rect_emb_val t) (win5_1.rect_emb_val t)
    (win5_2.rect_emb_val t) (win5_3.rect_emb_val t) (win5_4.rect_emb_val t)
    (win5_5.rect_emb_val t) (win5_6.rect_emb_val t) (bn5_idx t) j

theorem bn5_value (c : Dev nD) :
    (dat5 (F := Ideal) V c).arrAt 6 cfg5.N
      = bnA (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 _ (fun t _ => bn5_flushed V c t) bn5_cover

end Cert.KernelIdeal.Val

end
-- ==== Proof.KLayer2.lean ====
import proofs.«410150_j30107720744960_1_alg».proof.Proof.KLayerShared
import proofs.«410150_j30107720744960_1_alg».proof.Proof.KKept
import proofs.«410150_j30107720744960_1_alg».proof.Proof.RegLin4
import proofs.«410150_j30107720744960_1_alg».proof.Proof.RegBn5

set_option maxRecDepth 16384

noncomputable section

namespace Cert.KernelIdeal.Val

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.Gin

variable (m : (ℓ : Loc nD τ sig) → Buf (Elt Ideal) ℓ) (ρ : Dev nD → PrngReg) (c : Dev nD)
  (V : Valuation τ sig (Elt Ideal)) (r : Ref sig .tc)

-- the buffers the layer reads after a host stretch that does not write them
private abbrev K : List (Ref sig .tc) := main_v55 :: main_v68_0 :: kept

private theorem fold_take :
    StableHlo.after hostOps4 V (Proc.devRef .tc main_v56)
      = takeK dGK (V (Proc.devRef .tc main_v55)) (srcColOfVec (V (Proc.devRef .tc main_v1))) := by
  after_results_simp
  simp only [ofBuf_toBuf]
  exact (toBuf_of main_v56 _ _ _).trans (take_run dGK (V (Proc.devRef .tc main_v55)) (V (Proc.devRef .tc main_v1)) _ _ _ _ _ _ _ _ _)

private theorem fold_add :
    StableHlo.after hostOps4_1 V (Proc.devRef .tc main_v57)
      = addf (F := Ideal) (φ := .f32) (V (Proc.devRef .tc main_v56)) (V (Proc.devRef .tc main_arg2)) := by
  after_results

private theorem fold_relu :
    StableHlo.after hostOps4_2 V (Proc.devRef .tc main_v58)
      = maximumf (F := Ideal) (φ := .f32) (V (Proc.devRef .tc main_v57))
          (broadcastInDim S640000x128 ![] bcast_S_S640000x128 (constant (F := Ideal) S_ .f32 0x00000000#32)) := by
  after_results_simp
  simp only [ofBuf_toBuf]
  rfl

private theorem fold_agg (g e : SE.Idx → EReal) (v : IVec SV 32)
    (hmsg : V (Proc.devRef .tc main_v58) = maximumf (F := Ideal) (φ := .f32) (addf (F := Ideal) (φ := .f32) g e)
      (broadcastInDim S640000x128 ![] bcast_S_S640000x128 (constant (F := Ideal) S_ .f32 0x00000000#32)))
    (hdst : V (Proc.devRef .tc main_v3) = v) :
    StableHlo.after hostOps4_3 V (Proc.devRef .tc main_v61) = aggOf dSK g (colOfVec v) e := by
  after_results
  rw [hmsg, hdst]
  exact agg_read dSK g e v _ _ _

private theorem fold_coef (eps : S4.Idx → EReal) (heps : V (Proc.devRef .tc main_arg4) = eps) :
    StableHlo.after hostOps4_3 V (Proc.devRef .tc main_v65) (ix2 (0 : Fin 1) (0 : Fin 1)) = coefAt eps (2 : Fin 4) := by
  after_results
  rw [heps]
  exact coef_read eps (2 : Fin 4) _ _ _

private theorem fold_weight (Ws : S4W.Idx → EReal) (hWs : V (Proc.devRef .tc main_arg3) = Ws) :
    StableHlo.after hostOps4_3 V (Proc.devRef .tc main_v67) = weightAt Ws (2 : Fin 4) := by
  after_results
  rw [hWs]
  exact weight_read Ws (2 : Fin 4) _ _

private theorem fold_mean (h : SN.Idx → EReal) (hs : V (Proc.devRef .tc main_v68_1) = sumA h) :
    StableHlo.after hostOps5 V (Proc.devRef .tc main_v70) = ofRow (meanOf (toMat h)) := by
  after_results
  rw [hs]
  exact mean_read h _

private theorem fold_var (h : SN.Idx → EReal) (hs : V (Proc.devRef .tc main_v68_1) = sumA h)
    (hq : V (Proc.devRef .tc main_v68_2) = sumSqA h) :
    StableHlo.after hostOps5 V (Proc.devRef .tc main_v74) = ofRow (varK (toMat h)) := by
  after_results
  rw [hs, hq]
  exact var_read h _

private theorem fold_gamma (g : S4R.Idx → EReal) (hg : V (Proc.devRef .tc main_arg5) = g) :
    rowOf (StableHlo.after hostOps5 V (Proc.devRef .tc main_v77)) = rowAt g (2 : Fin 4) := by
  after_results
  rw [hg]
  exact row_read g (2 : Fin 4) _ _ _

private theorem fold_beta (g : S4R.Idx → EReal) (hg : V (Proc.devRef .tc main_arg6) = g) :
    rowOf (StableHlo.after hostOps5 V (Proc.devRef .tc main_v80)) = rowAt g (2 : Fin 4) := by
  after_results
  rw [hg]
  exact row_read g (2 : Fin 4) _ _ _

private theorem at_scatter_entry (hr : r ∈ K) : W18 m ρ c (Proc.devRef .tc r) = W15 m ρ c (Proc.devRef .tc r) :=
  (after_kept hr hostOps4_2).trans <| (after_kept hr hostOps4_1).trans (after_kept hr hostOps4)

private theorem at_lin_entry (hr : r ∈ K) : W19 m ρ c (Proc.devRef .tc r) = W15 m ρ c (Proc.devRef .tc r) :=
  (after_kept hr hostOps4_3).trans (at_scatter_entry m ρ c r hr)

private theorem at_bn_entry (hr : r ∈ K) : W21 m ρ c (Proc.devRef .tc r) = W20 m ρ c (Proc.devRef .tc r) :=
  after_kept hr hostOps5

private abbrev cur : SN.Idx → EReal := W15 m ρ c (Proc.devRef .tc main_v55)
private abbrev tk : SE.Idx → EReal := takeK dGK (cur m ρ c) (srcColOfVec (W1 m ρ c (Proc.devRef .tc main_v1)))
private abbrev lin : SN.Idx → EReal :=
  linA (V19 m ρ c (Pipeline.arrRef spec4 3)) (V19 m ρ c (Pipeline.arrRef spec4 0)) (V19 m ρ c (Pipeline.arrRef spec4 1))
    (V19 m ρ c (Pipeline.arrRef spec4 2))

private theorem msg_value :
    W18 m ρ c (Proc.devRef .tc main_v58)
      = maximumf (F := Ideal) (φ := .f32) (addf (F := Ideal) (φ := .f32) (tk m ρ c) (m ((c : Thread nD τ).loc main_arg2)))
          (broadcastInDim S640000x128 ![] bcast_S_S640000x128 (constant (F := Ideal) S_ .f32 0x00000000#32)) := by
  refine (fold_relu (W17 m ρ c)).trans ?_
  refine congrArg (fun x => maximumf (F := Ideal) (φ := .f32) x _) ?_
  refine (fold_add (W16 m ρ c)).trans ?_
  rw [show W16 m ρ c (Proc.devRef .tc main_v56) = _ from fold_take (W15 m ρ c),
    show W16 m ρ c (Proc.devRef .tc main_arg2) = _ from after_kept (K := K) (by decide) hostOps4,
    kept15_v1 m ρ c, kept15_arg2 m ρ c]

private theorem agg_value :
    V19 m ρ c (Pipeline.arrRef spec4 1)
      = aggOf dSK (tk m ρ c) (colOfVec (W1 m ρ c (Proc.devRef .tc main_v3))) (m ((c : Thread nD τ).loc main_arg2)) :=
  fold_agg (W18 m ρ c) _ _ _ (msg_value m ρ c) ((at_scatter_entry m ρ c main_v3 (by decide)).trans (kept15_v3 m ρ c))

private theorem coef_value :
    V19 m ρ c (Pipeline.arrRef spec4 3) (ix2 (0 : Fin 1) (0 : Fin 1)) = coefAt (m ((c : Thread nD τ).loc main_arg4)) (2 : Fin 4) :=
  fold_coef (W18 m ρ c) _ ((at_scatter_entry m ρ c main_arg4 (by decide)).trans (kept15_arg4 m ρ c))

private theorem weight_value :
    V19 m ρ c (Pipeline.arrRef spec4 2) = weightAt (m ((c : Thread nD τ).loc main_arg3)) (2 : Fin 4) :=
  fold_weight (W18 m ρ c) _ ((at_scatter_entry m ρ c main_arg3 (by decide)).trans (kept15_arg3 m ρ c))

private theorem lin_in_value : V19 m ρ c (Pipeline.arrRef spec4 0) = cur m ρ c :=
  at_lin_entry m ρ c main_v55 (by decide)

private theorem lin_value : V21 m ρ c (Pipeline.arrRef spec5 0) = lin m ρ c :=
  (at_bn_entry m ρ c main_v68_0 (by decide)).trans ((W20_arr m ρ c 4).trans (lin4_h (V19 m ρ) c))

private theorem colsum_value : W20 m ρ c (Proc.devRef .tc main_v68_1) = sumA (lin m ρ c) :=
  (W20_arr m ρ c 5).trans (lin4_sum (V19 m ρ) c)

private theorem colsumsq_value : W20 m ρ c (Proc.devRef .tc main_v68_2) = sumSqA (lin m ρ c) :=
  (W20_arr m ρ c 6).trans (lin4_sumsq (V19 m ρ) c)

private theorem res_value : V21 m ρ c (Pipeline.arrRef spec5 1) = cur m ρ c :=
  (at_bn_entry m ρ c main_v55 (by decide)).trans
    (((W20_arr m ρ c 0).trans (((dat4 (V19 m ρ) c).arrAt_in 0 rfl _).trans (A_eq4 (V19 m ρ) c 0))).trans (lin_in_value m ρ c))

private theorem at_stats_entry (h2 : ∀ w, Pipeline.arrRef spec4 w ≠ r) (hr : r ∈ K) :
    W20 m ρ c (Proc.devRef .tc r) = W15 m ρ c (Proc.devRef .tc r) :=
  (W20_of_ne m ρ c r h2).trans (at_lin_entry m ρ c r hr)

theorem klayer2 (c : Dev nD) :
    W22 m ρ c (Proc.devRef .tc main_v81)
      = layerK dGK dSK (W15 m ρ c (Proc.devRef .tc main_v55)) (srcColOfVec (W1 m ρ c (Proc.devRef .tc main_v1))) (colOfVec (W1 m ρ c (Proc.devRef .tc main_v3)))
          (m ((c : Thread nD τ).loc main_arg2)) (coefAt (m ((c : Thread nD τ).loc main_arg4)) 2) (weightAt (m ((c : Thread nD τ).loc main_arg3)) 2) (rowAt (m ((c : Thread nD τ).loc main_arg5)) 2) (rowAt (m ((c : Thread nD τ).loc main_arg6)) 2) := by
  refine ((W22_arr m ρ c 6).trans (bn5_value (V21 m ρ) c)).trans ?_
  exact layer_assemble dGK dSK _ _ _ _ _ _ _ _ _ _ _ _ _ _ _ _ _ _ (lin_value m ρ c) (res_value m ρ c)
    (fold_mean (W20 m ρ c) _ (colsum_value m ρ c)) (fold_var (W20 m ρ c) _ (colsum_value m ρ c) (colsumsq_value m ρ c))
    (fold_gamma (W20 m ρ c) _ ((at_stats_entry m ρ c main_arg5 (by decide) (by decide)).trans (kept15_arg5 m ρ c)))
    (fold_beta (W20 m ρ c) _ ((at_stats_entry m ρ c main_arg6 (by decide) (by decide)).trans (kept15_arg6 m ρ c)))
    (coef_value m ρ c) (lin_in_value m ρ c) (agg_value m ρ c) (weight_value m ρ c)

end Cert.KernelIdeal.Val

end
-- ==== Proof.RegLin6.lean ====
import proofs.«410150_j30107720744960_1_alg».proof.Proof.LinShared

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Gin Lin

section Pieces
variable {F : FTy → Type} [FloatOps F] (c : Dev nD) (i : grid6.Coords)
  (arg1 : Memref sig .tc .vmem S5000x128 .f32) (harg1 : arg1.IsWhole) (arg2 : Memref sig .tc .vmem S5000x128 .f32) (harg2 : arg2.IsWhole)
  (arg3 : Memref sig .tc .vmem S128x128 .f32) (harg3 : arg3.IsWhole) (arg4 : Memref sig .tc .vmem S1x1 .f32) (harg4 : arg4.IsWhole)
  (arg5 : Memref sig .tc .vmem S5000x128 .f32) (harg5 : arg5.IsWhole) (arg6 : Memref sig .tc .vmem S1x128 .f32) (harg6 : arg6.IsWhole)
  (arg7 : Memref sig .tc .vmem S1x128 .f32) (harg7 : arg7.IsWhole)
  (x0 x1 : Vec F S5000x128 .f32) (x2 : Vec F S128x128 .f32) (x3 : Vec F S1x1 .f32) (xo5 xo6 : Vec F S1x128 .f32)

-- What each case of the body leaves in its three outputs: the body's arithmetic of the blocks it loads.
private theorem out_A_eq (hc0 : cond6_0 i) :
    out6_A_4 c i arg1 harg1 arg2 harg2 arg3 harg3 arg4 harg4 arg5 harg5 arg6 harg6 arg7 harg7 hc0 x0 x1 x2 x3 = k6_pay3 x3 x0 x1 x2 ∧ out6_A_5 c i arg1 harg1 arg2 harg2 arg3 harg3 arg4 harg4 arg5 harg5 arg6 harg6 arg7 harg7 hc0 x0 x1 x2 x3 = k6_pay4 x3 x0 x1 x2 (k6_pay1 (F := F))
      ∧ out6_A_6 c i arg1 harg1 arg2 harg2 arg3 harg3 arg4 harg4 arg5 harg5 arg6 harg6 arg7 harg7 hc0 x0 x1 x2 x3 = k6_pay5 x3 x0 x1 x2 (k6_pay2 (F := F)) := by
  unfold out6_A_4 out6_A_5 out6_A_6
  rw [View.read_writes_eq_canon _ _ _ (cover6_A_4 c i arg1 harg1 arg2 harg2 arg3 harg3 arg4 harg4 arg5 harg5 arg6 harg6 arg7 harg7 hc0 x0 x1 x2 x3), View.read_writes_eq_canon _ _ _ (cover6_A_5 c i arg1 harg1 arg2 harg2 arg3 harg3 arg4 harg4 arg5 harg5 arg6 harg6 arg7 harg7 hc0 x0 x1 x2 x3),
    View.read_writes_eq_canon _ _ _ (cover6_A_6 c i arg1 harg1 arg2 harg2 arg3 harg3 arg4 harg4 arg5 harg5 arg6 harg6 arg7 harg7 hc0 x0 x1 x2 x3)]
  unfold kernelRun6_A
  dsimp only
  sl_unfold_words
  simp only [View.canon_unit_zero (S := S5000x128) hz, View.canon_cons_unit_zero (S := S1x128) hz, View.readCov_unit_zero (S := S1x128) _ hz,
    View.readAt_eq_ld, harg1.read_unread, harg2.read_unread, harg3.read_unread, harg4.read_unread,
    View.ld_unit_zero (S := S5000x128) hz, View.ld_unit_zero (S := S128x128) hz, View.ld_unit_zero (S := S1x1) hz, View.ld_unit_zero (S := S1x128) hz, and_self]

private theorem out_B_eq (hc0 : ¬cond6_0 i) :
    out6_B_4 c i arg1 harg1 arg2 harg2 arg3 harg3 arg4 harg4 arg5 harg5 arg6 harg6 arg7 harg7 hc0 x0 x1 x2 x3 xo5 xo6 = k6_pay3 x3 x0 x1 x2 ∧ out6_B_5 c i arg1 harg1 arg2 harg2 arg3 harg3 arg4 harg4 arg5 harg5 arg6 harg6 arg7 harg7 hc0 x0 x1 x2 x3 xo5 xo6 = k6_pay4 x3 x0 x1 x2 xo5 ∧ out6_B_6 c i arg1 harg1 arg2 harg2 arg3 harg3 arg4 harg4 arg5 harg5 arg6 harg6 arg7 harg7 hc0 x0 x1 x2 x3 xo5 xo6 = k6_pay5 x3 x0 x1 x2 xo6 := by
  unfold out6_B_4 out6_B_5 out6_B_6
  rw [View.read_writes_eq_canon _ _ _ (cover6_B_4 c i arg1 harg1 arg2 harg2 arg3 harg3 arg4 harg4 arg5 harg5 arg6 harg6 arg7 harg7 hc0 x0 x1 x2 x3 xo5 xo6), View.read_writes_eq_canon _ _ _ (cover6_B_5 c i arg1 harg1 arg2 harg2 arg3 harg3 arg4 harg4 arg5 harg5 arg6 harg6 arg7 harg7 hc0 x0 x1 x2 x3 xo5 xo6),
    View.read_writes_eq_canon _ _ _ (cover6_B_6 c i arg1 harg1 arg2 harg2 arg3 harg3 arg4 harg4 arg5 harg5 arg6 harg6 arg7 harg7 hc0 x0 x1 x2 x3 xo5 xo6)]
  unfold kernelRun6_B
  dsimp only
  sl_unfold_words
  simp only [View.canon_unit_zero (S := S5000x128) hz, View.canon_unit_zero (S := S1x128) hz,
    View.readAt_eq_ld, harg1.read_unread, harg2.read_unread, harg3.read_unread, harg4.read_unread, harg6.read_unread, harg7.read_unread,
    View.ld_unit_zero (S := S5000x128) hz, View.ld_unit_zero (S := S128x128) hz, View.ld_unit_zero (S := S1x1) hz, View.ld_unit_zero (S := S1x128) hz, and_self]

end Pieces

variable (V : (c : Dev nD) → (b : Ref sig .tc) → Buf (Elt Ideal) ((c : Thread nD τ).loc b))

private abbrev xBlk (c : Dev nD) (t : Fin cfg6.N) : VB := iblk6 V c 0 t
private abbrev aBlk (c : Dev nD) (t : Fin cfg6.N) : VB := iblk6 V c 1 t
private abbrev wBlk (c : Dev nD) (t : Fin cfg6.N) : VW := iblk6 V c 2 t
private abbrev cBlk (c : Dev nD) (t : Fin cfg6.N) : VC := iblk6 V c 3 t

private theorem stepA (c : Dev nD) (t : Fin cfg6.N) (h0 : t.val % 20 = 0) : outsAt6 V c t.val t.isLt
    = (pay2.p3 (cBlk V c t) (xBlk V c t) (aBlk V c t) (wBlk V c t), pay2.p4 (cBlk V c t) (xBlk V c t) (aBlk V c t) (wBlk V c t) pay2.z1,
       pay2.p5 (cBlk V c t) (xBlk V c t) (aBlk V c t) (wBlk V c t) pay2.z2) := by
  rw [outsAt6_A V c t h0, (out_A_eq ..).1, (out_A_eq ..).2.1, (out_A_eq ..).2.2]
  rfl

private theorem stepB (c : Dev nD) (t : Fin cfg6.N) (h0 : ¬t.val % 20 = 0) : outsAt6 V c t.val t.isLt
    = (pay2.p3 (cBlk V c t) (xBlk V c t) (aBlk V c t) (wBlk V c t),
       pay2.p4 (cBlk V c t) (xBlk V c t) (aBlk V c t) (wBlk V c t) (outsAt6 V c (t.val - 1) (Nat.lt_of_le_of_lt (Nat.sub_le _ _) t.isLt)).2.1,
       pay2.p5 (cBlk V c t) (xBlk V c t) (aBlk V c t) (wBlk V c t) (outsAt6 V c (t.val - 1) (Nat.lt_of_le_of_lt (Nat.sub_le _ _) t.isLt)).2.2) := by
  rw [outsAt6_B V c t h0, (out_B_eq ..).1, (out_B_eq ..).2.1, (out_B_eq ..).2.2]
  rfl

private theorem idx_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = t.val ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0) :=
  (by decide +kernel : ∀ t : Fin grid6.N, _)

private theorem xBlk_apply (c : Dev nD) (t : Fin cfg6.N) (r : Fin 5000) (k : Fin 128) (n : Fin 100000)
    (hn : n.val = 5000 * t.val + r.val) : xBlk V c t (ix2 r k) = V c (Pipeline.arrRef spec6 0) (ix2 n k) := by
  obtain ⟨e0, e1⟩ := (idx_facts t).1
  unfold xBlk iblk6
  rw [View.read_apply]
  show V c (Pipeline.arrRef spec6 0) (((cfg6.win 0).blk t).view.emb (ix2 r k)) = V c (Pipeline.arrRef spec6 0) (ix2 n k)
  refine congrArg _ (funext fun a => Fin.ext ?_)
  match a with
  | ⟨0, _⟩ => show win6_0.index t (0 : Fin 2) * 5000 + 1 * r.val = n.val; omega
  | ⟨1, _⟩ => show win6_0.index t (1 : Fin 2) * 128 + 1 * k.val = k.val; omega

private theorem aBlk_apply (c : Dev nD) (t : Fin cfg6.N) (r : Fin 5000) (k : Fin 128) (n : Fin 100000)
    (hn : n.val = 5000 * t.val + r.val) : aBlk V c t (ix2 r k) = V c (Pipeline.arrRef spec6 1) (ix2 n k) := by
  obtain ⟨e0, e1⟩ := (idx_facts t).2.1
  unfold aBlk iblk6
  rw [View.read_apply]
  show V c (Pipeline.arrRef spec6 1) (((cfg6.win 1).blk t).view.emb (ix2 r k)) = V c (Pipeline.arrRef spec6 1) (ix2 n k)
  refine congrArg _ (funext fun a => Fin.ext ?_)
  match a with
  | ⟨0, _⟩ => show win6_1.index t (0 : Fin 2) * 5000 + 1 * r.val = n.val; omega
  | ⟨1, _⟩ => show win6_1.index t (1 : Fin 2) * 128 + 1 * k.val = k.val; omega

private theorem wBlk_apply (c : Dev nD) (t : Fin cfg6.N) (k d : Fin 128) : wBlk V c t (ix2 k d) = V c (Pipeline.arrRef spec6 2) (ix2 k d) := by
  obtain ⟨e0, e1⟩ := (idx_facts t).2.2.1
  unfold wBlk iblk6
  rw [View.read_apply]
  show V c (Pipeline.arrRef spec6 2) (((cfg6.win 2).blk t).view.emb (ix2 k d)) = V c (Pipeline.arrRef spec6 2) (ix2 k d)
  refine congrArg _ (funext fun a => Fin.ext ?_)
  match a with
  | ⟨0, _⟩ => show win6_2.index t (0 : Fin 2) * 128 + 1 * k.val = k.val; omega
  | ⟨1, _⟩ => show win6_2.index t (1 : Fin 2) * 128 + 1 * d.val = d.val; omega

private theorem cBlk_apply (c : Dev nD) (t : Fin cfg6.N) :
    cBlk V c t (ix2 (0 : Fin 1) (0 : Fin 1)) = V c (Pipeline.arrRef spec6 3) (ix2 (0 : Fin 1) (0 : Fin 1)) := by
  obtain ⟨e0, e1⟩ := (idx_facts t).2.2.2.1
  unfold cBlk iblk6
  rw [View.read_apply]
  show V c (Pipeline.arrRef spec6 3) (((cfg6.win 3).blk t).view.emb (ix2 (0 : Fin 1) (0 : Fin 1))) = V c (Pipeline.arrRef spec6 3) (ix2 (0 : Fin 1) (0 : Fin 1))
  refine congrArg _ (funext fun a => Fin.ext ?_)
  match a with
  | ⟨0, _⟩ => show win6_3.index t (0 : Fin 2) * 1 + 1 * 0 = 0; omega
  | ⟨1, _⟩ => show win6_3.index t (1 : Fin 2) * 1 + 1 * 0 = 0; omega

private def run (c : Dev nD) : Run pay2 cfg6.N where
  o := outsAt6 V c
  bx := xBlk V c
  ba := aBlk V c
  bw := wBlk V c
  bc := cBlk V c
  X := V c (Pipeline.arrRef spec6 0)
  A := V c (Pipeline.arrRef spec6 1)
  W := V c (Pipeline.arrRef spec6 2)
  C := V c (Pipeline.arrRef spec6 3)
  hN := N_6
  hx := xBlk_apply V c
  ha := aBlk_apply V c
  hw := wBlk_apply V c
  hc := cBlk_apply V c
  hA := stepA V c
  hB := stepB V c

/-- The product array the call computes. -/
private abbrev hArr (c : Dev nD) : SN.Idx → EReal :=
  linA (V c (Pipeline.arrRef spec6 3)) (V c (Pipeline.arrRef spec6 0)) (V c (Pipeline.arrRef spec6 1)) (V c (Pipeline.arrRef spec6 2))

private theorem flushed4_eq (c : Dev nD) (t : Fin cfg6.N) :
    (dat6 (F := Ideal) V c).flushed 4 t = ((cfg6.win 4).blk t).view.read (Elt Ideal) (hArr V c) := by
  show (cfg6.win 4).cut (grid6.coords t) ((dat6 (F := Ideal) V c).after 4 t) = _
  rw [after6_4]
  obtain ⟨e0, e1⟩ := (idx_facts t).2.2.2.2.1
  have hN : t.val < 20 := lt_of_lt_of_eq t.isLt (show cfg6.N = 20 from N_6)
  funext j
  obtain ⟨r, d, rfl⟩ : ∃ (r : Fin 5000) (d : Fin 128), j = ix2 r d := ⟨j 0, j 1, eq_ix2 j⟩
  have hr : r.val < 5000 := r.isLt
  have hacc : (outsAt6 V c t.val t.isLt).1 (ix2 r d) = hArr V c (ix2 (⟨5000 * t.val + r.val, by omega⟩ : Fin 100000) d) :=
    (run V c).out_entry t r d ⟨5000 * t.val + r.val, by omega⟩ rfl
  generalize (outsAt6 V c t.val t.isLt).1 = acc at hacc ⊢
  show acc (ix2 r d) = hArr V c (((cfg6.win 4).blk t).view.emb (ix2 r d))
  have he : ((cfg6.win 4).blk t).view.emb (ix2 r d) = (ix2 (⟨5000 * t.val + r.val, by omega⟩ : Fin 100000) d : SN.Idx) :=
    funext fun a => Fin.ext (by
      match a with
      | ⟨0, _⟩ => show win6_4.index t (0 : Fin 2) * 5000 + 1 * r.val = 5000 * t.val + r.val; omega
      | ⟨1, _⟩ => show win6_4.index t (1 : Fin 2) * 128 + 1 * d.val = d.val; omega)
  exact hacc.trans (congrArg (hArr V c) he).symm

-- Row n is in the block of point n / 5000.
private theorem cover4 (i : SN.Idx) : ∃ t : Fin cfg6.N, (cfg6.win 4).flush t = true ∧ i ∈ ((cfg6.win 4).blk t).view.set := by
  have hi0 : (i 0).val < 100000 := (i 0).isLt
  have hi1 : (i 1).val < 128 := (i 1).isLt
  have hlt : (i 0).val / 5000 < cfg6.N := lt_of_lt_of_eq (by omega) (show cfg6.N = 20 from N_6).symm
  obtain ⟨e0, e1⟩ := (idx_facts ⟨(i 0).val / 5000, hlt⟩).2.2.2.2.1
  refine ⟨⟨(i 0).val / 5000, hlt⟩, flush6_4 _, ?_⟩
  show i ∈ ((View.whole (Pipeline.arrRef spec6 4)).slice (win6_4.rect ⟨(i 0).val / 5000, hlt⟩)).set
  rw [View.set_slice_whole, Rect.mem_set_unit]
  intro a
  match a with
  | ⟨0, _⟩ => show win6_4.index ⟨(i 0).val / 5000, hlt⟩ (0 : Fin 2) * 5000 ≤ (i 0).val ∧ (i 0).val < win6_4.index ⟨(i 0).val / 5000, hlt⟩ (0 : Fin 2) * 5000 + 5000; dsimp only at e0; omega
  | ⟨1, _⟩ => show win6_4.index ⟨(i 0).val / 5000, hlt⟩ (1 : Fin 2) * 128 ≤ (i 1).val ∧ (i 1).val < win6_4.index ⟨(i 0).val / 5000, hlt⟩ (1 : Fin 2) * 128 + 128; omega

theorem lin6_h (c : Dev nD) :
    (dat6 (F := Ideal) V c).arrAt 4 cfg6.N
      = linA (V c (Pipeline.arrRef spec6 3)) (V c (Pipeline.arrRef spec6 0)) (V c (Pipeline.arrRef spec6 1))
          (V c (Pipeline.arrRef spec6 2)) :=
  (dat6 (F := Ideal) V c).arrAt_eq_of_cover 4 (hArr V c) (fun t _ => flushed4_eq V c t) cover4

private theorem last_lt : 19 < cfg6.N := lt_of_lt_of_eq (by decide) (show cfg6.N = 20 from N_6).symm

private theorem flushed5_eq (c : Dev nD) (t : Fin cfg6.N) (hf : (cfg6.win 5).flush t = true) :
    (dat6 (F := Ideal) V c).flushed 5 t = ((cfg6.win 5).blk t).view.read (Elt Ideal) (sumA (hArr V c)) := by
  have hN : cfg6.N = 20 := N_6
  have h19 : t.val = 19 := by have := (flush6_5 t).mp hf; have := t.isLt; omega
  obtain ⟨e0, e1⟩ := (idx_facts t).2.2.2.2.2.1
  show (cfg6.win 5).cut (grid6.coords t) ((dat6 (F := Ideal) V c).after 5 t) = _
  rw [after6_5]
  have hacc : ∀ (u : Fin 1) (d : Fin 128), (outsAt6 V c t.val t.isLt).2.1 (ix2 u d) = sumA (hArr V c) (ix2 u d) := (run V c).total5 t h19
  generalize (outsAt6 V c t.val t.isLt).2.1 = acc at hacc ⊢
  generalize sumA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg6.win 5).blk t).view.emb (ix2 u d))
  have he : ((cfg6.win 5).blk t).view.emb (ix2 u d) = (ix2 u d : SR.Idx) :=
    funext fun a => Fin.ext (by
      match a with
      | ⟨0, _⟩ => show win6_5.index t (0 : Fin 2) * 1 + 1 * u.val = u.val; omega
      | ⟨1, _⟩ => show win6_5.index t (1 : Fin 2) * 128 + 1 * d.val = d.val; omega)
  exact (hacc u d).trans (congrArg G he).symm

private theorem cover5 (i : SR.Idx) : ∃ t : Fin cfg6.N, (cfg6.win 5).flush t = true ∧ i ∈ ((cfg6.win 5).blk t).view.set := by
  have hi0 : (i 0).val < 1 := (i 0).isLt
  have hi1 : (i 1).val < 128 := (i 1).isLt
  obtain ⟨e0, e1⟩ := (idx_facts ⟨19, last_lt⟩).2.2.2.2.2.1
  refine ⟨⟨19, last_lt⟩, (flush6_5 _).mpr rfl, ?_⟩
  show i ∈ ((View.whole (Pipeline.arrRef spec6 5)).slice (win6_5.rect ⟨19, last_lt⟩)).set
  rw [View.set_slice_whole, Rect.mem_set_unit]
  intro a
  match a with
  | ⟨0, _⟩ => show win6_5.index ⟨19, last_lt⟩ (0 : Fin 2) * 1 ≤ (i 0).val ∧ (i 0).val < win6_5.index ⟨19, last_lt⟩ (0 : Fin 2) * 1 + 1; omega
  | ⟨1, _⟩ => show win6_5.index ⟨19, last_lt⟩ (1 : Fin 2) * 128 ≤ (i 1).val ∧ (i 1).val < win6_5.index ⟨19, last_lt⟩ (1 : Fin 2) * 128 + 128; omega

private theorem flushed6_eq (c : Dev nD) (t : Fin cfg6.N) (hf : (cfg6.win 6).flush t = true) :
    (dat6 (F := Ideal) V c).flushed 6 t = ((cfg6.win 6).blk t).view.read (Elt Ideal) (sumSqA (hArr V c)) := by
  have hN : cfg6.N = 20 := N_6
  have h19 : t.val = 19 := by have := (flush6_6 t).mp hf; have := t.isLt; omega
  obtain ⟨e0, e1⟩ := (idx_facts t).2.2.2.2.2.2
  show (cfg6.win 6).cut (grid6.coords t) ((dat6 (F := Ideal) V c).after 6 t) = _
  rw [after6_6]
  have hacc : ∀ (u : Fin 1) (d : Fin 128), (outsAt6 V c t.val t.isLt).2.2 (ix2 u d) = sumSqA (hArr V c) (ix2 u d) := (run V c).total6 t h19
  generalize (outsAt6 V c t.val t.isLt).2.2 = acc at hacc ⊢
  generalize sumSqA (hArr V c) = G at hacc ⊢
  funext j
  obtain ⟨u, d, rfl⟩ : ∃ (u : Fin 1) (d : Fin 128), j = ix2 u d := ⟨j 0, j 1, eq_ix2 j⟩
  have hu : u.val = 0 := by omega
  show acc (ix2 u d) = G (((cfg6.win 6).blk t).view.emb (ix2 u d))
  have he : ((cfg6.win 6).blk t).view.emb (ix2 u d) = (ix2 u d : SR.Idx) :=
    funext fun a => Fin.ext (by
      match a with
      | ⟨0, _⟩ => show win6_6.index t (0 : Fin 2) * 1 + 1 * u.val = u.val; omega
      | ⟨1, _⟩ => show win6_6.index t (1 : Fin 2) * 128 + 1 * d.val = d.val; omega)
  exact (hacc u d).trans (congrArg G he).symm

private theorem cover6 (i : SR.Idx) : ∃ t : Fin cfg6.N, (cfg6.win 6).flush t = true ∧ i ∈ ((cfg6.win 6).blk t).view.set := by
  have hi0 : (i 0).val < 1 := (i 0).isLt
  have hi1 : (i 1).val < 128 := (i 1).isLt
  obtain ⟨e0, e1⟩ := (idx_facts ⟨19, last_lt⟩).2.2.2.2.2.2
  refine ⟨⟨19, last_lt⟩, (flush6_6 _).mpr rfl, ?_⟩
  show i ∈ ((View.whole (Pipeline.arrRef spec6 6)).slice (win6_6.rect ⟨19, last_lt⟩)).set
  rw [View.set_slice_whole, Rect.mem_set_unit]
  intro a
  match a with
  | ⟨0, _⟩ => show win6_6.index ⟨19, last_lt⟩ (0 : Fin 2) * 1 ≤ (i 0).val ∧ (i 0).val < win6_6.index ⟨19, last_lt⟩ (0 : Fin 2) * 1 + 1; omega
  | ⟨1, _⟩ => show win6_6.index ⟨19, last_lt⟩ (1 : Fin 2) * 128 ≤ (i 1).val ∧ (i 1).val < win6_6.index ⟨19, last_lt⟩ (1 : Fin 2) * 128 + 128; omega

theorem lin6_sum (c : Dev nD) :
    (dat6 (F := Ideal) V c).arrAt 5 cfg6.N
      = sumA (linA (V c (Pipeline.arrRef spec6 3)) (V c (Pipeline.arrRef spec6 0)) (V c (Pipeline.arrRef spec6 1))
          (V c (Pipeline.arrRef spec6 2))) :=
  (dat6 (F := Ideal) V c).arrAt_eq_of_cover 5 (sumA (hArr V c)) (flushed5_eq V c) cover5

theorem lin6_sumsq (c : Dev nD) :
    (dat6 (F := Ideal) V c).arrAt 6 cfg6.N
      = sumSqA (linA (V c (Pipeline.arrRef spec6 3)) (V c (Pipeline.arrRef spec6 0)) (V c (Pipeline.arrRef spec6 1))
          (V c (Pipeline.arrRef spec6 2))) :=
  (dat6 (F := Ideal) V c).arrAt_eq_of_cover 6 (sumSqA (hArr V c)) (flushed6_eq V c) cover6

end Cert.KernelIdeal.Val

end
-- ==== Proof.RegBn7.lean ====
import proofs.«410150_j30107720744960_1_alg».proof.Proof.BnShared

noncomputable section

namespace Cert.KernelIdeal.Val

open Idealize.ShloMosaic Idealize.ShloMosaic.TcCoe Cert.KernelIdeal Cert.KernelIdeal.Gen Cert.Gin

variable (V : (c : Dev nD) → (b : Ref sig .tc) → Buf (Elt Ideal) ((c : Thread nD τ).loc b))

theorem bn7_idx : ∀ t : Fin cfg7.N, BnIdx (win7_0.index t) (win7_1.index t) (win7_2.index t) (win7_3.index t)
    (win7_4.index t) (win7_5.index t) (win7_6.index t) t.val :=
  (by decide +kernel : ∀ t : Fin grid7.N, _)

theorem bn7_cover (i : S100000x128.Idx) :
    ∃ t : Fin cfg7.N, (cfg7.win 6).flush t = true ∧ i ∈ ((cfg7.win 6).blk t).view.set :=
  (bn_rows_cover N_7 (fun t => (bn7_idx t).2.2.2.2.2.2) i).imp fun t h =>
    ⟨flush7_6 t, bn_mem_slice (b := Pipeline.arrRef spec7 6) h⟩

def bn7_out (c : Dev nD) : SN.Idx → EReal :=
  bnA (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))

theorem bn7_flushed (c : Dev nD) (t : Fin cfg7.N) :
    (dat7 (F := Ideal) V c).flushed 6 t = ((cfg7.win 6).blk t).view.read (Elt Ideal) (bn7_out V c) := by
  show (cfg7.win 6).cut (grid7.coords t) ((dat7 (F := Ideal) V c).after 6 t) = _
  rw [after7_6]
  unfold bn7_out
  funext j
  exact bn_point bn_pay7 _ _ _ _ _ _ (win7_0.rect_emb_val t) (win7_1.rect_emb_val t)
    (win7_2.rect_emb_val t) (win7_3.rect_emb_val t) (win7_4.rect_emb_val t)
    (win7_5.rect_emb_val t) (win7_6.rect_emb_val t) (bn7_idx t) j

theorem bn7_value (c : Dev nD) :
    (dat7 (F := Ideal) V c).arrAt 6 cfg7.N
      = bnA (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5)) :=
  (dat7 (F := Ideal) V c).arrAt_eq_of_cover 6 _ (fun t _ => bn7_flushed V c t) bn7_cover

end Cert.KernelIdeal.Val

end
-- ==== Proof.KLayer3.lean ====
import proofs.«410150_j30107720744960_1_alg».proof.Proof.KLayerShared
import proofs.«410150_j30107720744960_1_alg».proof.Proof.KKept
import proofs.«410150_j30107720744960_1_alg».proof.Proof.RegLin6
import proofs.«410150_j30107720744960_1_alg».proof.Proof.RegBn7

set_option maxRecDepth 16384

noncomputable section

namespace Cert.KernelIdeal.Val

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.Gin

variable (m : (ℓ : Loc nD τ sig) → Buf (Elt Ideal) ℓ) (ρ : Dev nD → PrngReg) (c : Dev nD)
  (V : Valuation τ sig (Elt Ideal)) (r : Ref sig .tc)

-- the buffers the layer reads after a host stretch that does not write them
private abbrev K : List (Ref sig .tc) := main_v81 :: main_v94_0 :: kept

private theorem fold_take :
    StableHlo.after hostOps6 V (Proc.devRef .tc main_v82)
      = takeK dGK (V (Proc.devRef .tc main_v81)) (srcColOfVec (V (Proc.devRef .tc main_v1))) := by
  after_results_simp
  simp only [ofBuf_toBuf]
  exact (toBuf_of main_v82 _ _ _).trans (take_run dGK (V (Proc.devRef .tc main_v81)) (V (Proc.devRef .tc main_v1)) _ _ _ _ _ _ _ _ _)

private theorem fold_add :
    StableHlo.after hostOps6_1 V (Proc.devRef .tc main_v83)
      = addf (F := Ideal) (φ := .f32) (V (Proc.devRef .tc main_v82)) (V (Proc.devRef .tc main_arg2)) := by
  after_results

private theorem fold_relu :
    StableHlo.after hostOps6_2 V (Proc.devRef .tc main_v84)
      = maximumf (F := Ideal) (φ := .f32) (V (Proc.devRef .tc main_v83))
          (broadcastInDim S640000x128 ![] bcast_S_S640000x128 (constant (F := Ideal) S_ .f32 0x00000000#32)) := by
  after_results_simp
  simp only [ofBuf_toBuf]
  rfl

private theorem fold_agg (g e : SE.Idx → EReal) (v : IVec SV 32)
    (hmsg : V (Proc.devRef .tc main_v84) = maximumf (F := Ideal) (φ := .f32) (addf (F := Ideal) (φ := .f32) g e)
      (broadcastInDim S640000x128 ![] bcast_S_S640000x128 (constant (F := Ideal) S_ .f32 0x00000000#32)))
    (hdst : V (Proc.devRef .tc main_v3) = v) :
    StableHlo.after hostOps6_3 V (Proc.devRef .tc main_v87) = aggOf dSK g (colOfVec v) e := by
  after_results
  rw [hmsg, hdst]
  exact agg_read dSK g e v _ _ _

private theorem fold_coef (eps : S4.Idx → EReal) (heps : V (Proc.devRef .tc main_arg4) = eps) :
    StableHlo.after hostOps6_3 V (Proc.devRef .tc main_v91) (ix2 (0 : Fin 1) (0 : Fin 1)) = coefAt eps (3 : Fin 4) := by
  after_results
  rw [heps]
  exact coef_read eps (3 : Fin 4) _ _ _

private theorem fold_weight (Ws : S4W.Idx → EReal) (hWs : V (Proc.devRef .tc main_arg3) = Ws) :
    StableHlo.after hostOps6_3 V (Proc.devRef .tc main_v93) = weightAt Ws (3 : Fin 4) := by
  after_results
  rw [hWs]
  exact weight_read Ws (3 : Fin 4) _ _

private theorem fold_mean (h : SN.Idx → EReal) (hs : V (Proc.devRef .tc main_v94_1) = sumA h) :
    StableHlo.after hostOps7 V (Proc.devRef .tc main_v96) = ofRow (meanOf (toMat h)) := by
  after_results
  rw [hs]
  exact mean_read h _

private theorem fold_var (h : SN.Idx → EReal) (hs : V (Proc.devRef .tc main_v94_1) = sumA h)
    (hq : V (Proc.devRef .tc main_v94_2) = sumSqA h) :
    StableHlo.after hostOps7 V (Proc.devRef .tc main_v100) = ofRow (varK (toMat h)) := by
  after_results
  rw [hs, hq]
  exact var_read h _

private theorem fold_gamma (g : S4R.Idx → EReal) (hg : V (Proc.devRef .tc main_arg5) = g) :
    rowOf (StableHlo.after hostOps7 V (Proc.devRef .tc main_v103)) = rowAt g (3 : Fin 4) := by
  after_results
  rw [hg]
  exact row_read g (3 : Fin 4) _ _ _

private theorem fold_beta (g : S4R.Idx → EReal) (hg : V (Proc.devRef .tc main_arg6) = g) :
    rowOf (StableHlo.after hostOps7 V (Proc.devRef .tc main_v106)) = rowAt g (3 : Fin 4) := by
  after_results
  rw [hg]
  exact row_read g (3 : Fin 4) _ _ _

private theorem at_scatter_entry (hr : r ∈ K) : W25 m ρ c (Proc.devRef .tc r) = W22 m ρ c (Proc.devRef .tc r) :=
  (after_kept hr hostOps6_2).trans <| (after_kept hr hostOps6_1).trans (after_kept hr hostOps6)

private theorem at_lin_entry (hr : r ∈ K) : W26 m ρ c (Proc.devRef .tc r) = W22 m ρ c (Proc.devRef .tc r) :=
  (after_kept hr hostOps6_3).trans (at_scatter_entry m ρ c r hr)

private theorem at_bn_entry (hr : r ∈ K) : W28 m ρ c (Proc.devRef .tc r) = W27 m ρ c (Proc.devRef .tc r) :=
  after_kept hr hostOps7

private abbrev cur : SN.Idx → EReal := W22 m ρ c (Proc.devRef .tc main_v81)
private abbrev tk : SE.Idx → EReal := takeK dGK (cur m ρ c) (srcColOfVec (W1 m ρ c (Proc.devRef .tc main_v1)))
private abbrev lin : SN.Idx → EReal :=
  linA (V26 m ρ c (Pipeline.arrRef spec6 3)) (V26 m ρ c (Pipeline.arrRef spec6 0)) (V26 m ρ c (Pipeline.arrRef spec6 1))
    (V26 m ρ c (Pipeline.arrRef spec6 2))

private theorem msg_value :
    W25 m ρ c (Proc.devRef .tc main_v84)
      = maximumf (F := Ideal) (φ := .f32) (addf (F := Ideal) (φ := .f32) (tk m ρ c) (m ((c : Thread nD τ).loc main_arg2)))
          (broadcastInDim S640000x128 ![] bcast_S_S640000x128 (constant (F := Ideal) S_ .f32 0x00000000#32)) := by
  refine (fold_relu (W24 m ρ c)).trans ?_
  refine congrArg (fun x => maximumf (F := Ideal) (φ := .f32) x _) ?_
  refine (fold_add (W23 m ρ c)).trans ?_
  rw [show W23 m ρ c (Proc.devRef .tc main_v82) = _ from fold_take (W22 m ρ c),
    show W23 m ρ c (Proc.devRef .tc main_arg2) = _ from after_kept (K := K) (by decide) hostOps6,
    kept22_v1 m ρ c, kept22_arg2 m ρ c]

private theorem agg_value :
    V26 m ρ c (Pipeline.arrRef spec6 1)
      = aggOf dSK (tk m ρ c) (colOfVec (W1 m ρ c (Proc.devRef .tc main_v3))) (m ((c : Thread nD τ).loc main_arg2)) :=
  fold_agg (W25 m ρ c) _ _ _ (msg_value m ρ c) ((at_scatter_entry m ρ c main_v3 (by decide)).trans (kept22_v3 m ρ c))

private theorem coef_value :
    V26 m ρ c (Pipeline.arrRef spec6 3) (ix2 (0 : Fin 1) (0 : Fin 1)) = coefAt (m ((c : Thread nD τ).loc main_arg4)) (3 : Fin 4) :=
  fold_coef (W25 m ρ c) _ ((at_scatter_entry m ρ c main_arg4 (by decide)).trans (kept22_arg4 m ρ c))

private theorem weight_value :
    V26 m ρ c (Pipeline.arrRef spec6 2) = weightAt (m ((c : Thread nD τ).loc main_arg3)) (3 : Fin 4) :=
  fold_weight (W25 m ρ c) _ ((at_scatter_entry m ρ c main_arg3 (by decide)).trans (kept22_arg3 m ρ c))

private theorem lin_in_value : V26 m ρ c (Pipeline.arrRef spec6 0) = cur m ρ c :=
  at_lin_entry m ρ c main_v81 (by decide)

private theorem lin_value : V28 m ρ c (Pipeline.arrRef spec7 0) = lin m ρ c :=
  (at_bn_entry m ρ c main_v94_0 (by decide)).trans ((W27_arr m ρ c 4).trans (lin6_h (V26 m ρ) c))

private theorem colsum_value : W27 m ρ c (Proc.devRef .tc main_v94_1) = sumA (lin m ρ c) :=
  (W27_arr m ρ c 5).trans (lin6_sum (V26 m ρ) c)

private theorem colsumsq_value : W27 m ρ c (Proc.devRef .tc main_v94_2) = sumSqA (lin m ρ c) :=
  (W27_arr m ρ c 6).trans (lin6_sumsq (V26 m ρ) c)

private theorem res_value : V28 m ρ c (Pipeline.arrRef spec7 1) = cur m ρ c :=
  (at_bn_entry m ρ c main_v81 (by decide)).trans
    (((W27_arr m ρ c 0).trans (((dat6 (V26 m ρ) c).arrAt_in 0 rfl _).trans (A_eq6 (V26 m ρ) c 0))).trans (lin_in_value m ρ c))

private theorem at_stats_entry (h2 : ∀ w, Pipeline.arrRef spec6 w ≠ r) (hr : r ∈ K) :
    W27 m ρ c (Proc.devRef .tc r) = W22 m ρ c (Proc.devRef .tc r) :=
  (W27_of_ne m ρ c r h2).trans (at_lin_entry m ρ c r hr)

theorem klayer3 (c : Dev nD) :
    W29 m ρ c (Proc.devRef .tc main_v107)
      = layerK dGK dSK (W22 m ρ c (Proc.devRef .tc main_v81)) (srcColOfVec (W1 m ρ c (Proc.devRef .tc main_v1))) (colOfVec (W1 m ρ c (Proc.devRef .tc main_v3)))
          (m ((c : Thread nD τ).loc main_arg2)) (coefAt (m ((c : Thread nD τ).loc main_arg4)) 3) (weightAt (m ((c : Thread nD τ).loc main_arg3)) 3) (rowAt (m ((c : Thread nD τ).loc main_arg5)) 3) (rowAt (m ((c : Thread nD τ).loc main_arg6)) 3) := by
  refine ((W29_arr m ρ c 6).trans (bn7_value (V28 m ρ) c)).trans ?_
  exact layer_assemble dGK dSK _ _ _ _ _ _ _ _ _ _ _ _ _ _ _ _ _ _ (lin_value m ρ c) (res_value m ρ c)
    (fold_mean (W27 m ρ c) _ (colsum_value m ρ c)) (fold_var (W27 m ρ c) _ (colsum_value m ρ c) (colsumsq_value m ρ c))
    (fold_gamma (W27 m ρ c) _ ((at_stats_entry m ρ c main_arg5 (by decide) (by decide)).trans (kept22_arg5 m ρ c)))
    (fold_beta (W27 m ρ c) _ ((at_stats_entry m ρ c main_arg6 (by decide) (by decide)).trans (kept22_arg6 m ρ c)))
    (coef_value m ρ c) (lin_in_value m ρ c) (agg_value m ρ c) (weight_value m ρ c)

end Cert.KernelIdeal.Val

end
-- ==== Proof.KFinal.lean ====
import proofs.«410150_j30107720744960_1_alg».proof.Proof.KRecords
import proofs.«410150_j30107720744960_1_alg».proof.Proof.KKept
import proofs.«410150_j30107720744960_1_alg».proof.Proof.RegProj8
import proofs.«410150_j30107720744960_1_alg».proof.Proof.KLayer0
import proofs.«410150_j30107720744960_1_alg».proof.Proof.KLayer1
import proofs.«410150_j30107720744960_1_alg».proof.Proof.KLayer2
import proofs.«410150_j30107720744960_1_alg».proof.Proof.KLayer3
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.Gin

variable (m : (ℓ : Loc nD τ sig) → Buf (Elt Ideal) ℓ) (ρ : Dev nD → PrngReg)

-- The last call projects the fourth layer's features by W_out and adds b_out.
theorem kfinal (c : Dev nD) :
    W31 m ρ c (Proc.devRef .tc main_v109)
      = ofMat (projM (toMat (W29 m ρ c (Proc.devRef .tc main_v107))) (toMat (m ((c : Thread nD τ).loc main_arg7))) (fun d => (m ((c : Thread nD τ).loc main_arg8)) (ix1 d))) := by
  show W31 m ρ c (Proc.devRef .tc (Pipeline.arrRef spec8 3)) = _
  rw [W31_arr m ρ c 3, proj8_value]
  have h0 : V30 m ρ c (Pipeline.arrRef spec8 0) = W29 m ρ c (Proc.devRef .tc main_v107) :=
    after_kept (K := [main_v107]) (b := main_v107) (by decide) hostOps8
  have h1 : V30 m ρ c (Pipeline.arrRef spec8 1) = m ((c : Thread nD τ).loc main_arg7) :=
    (after_kept (K := kept) (b := main_arg7) (by decide) hostOps8).trans (kept29_arg7 m ρ c)
  have h2 : rowOf (V30 m ρ c (Pipeline.arrRef spec8 2)) = fun d => (m ((c : Thread nD τ).loc main_arg8)) (ix1 d) := by
    funext d
    have e : StableHlo.after hostOps8 (W29 m ρ c) (Proc.devRef .tc main_v108)
        = shapeCast (⟨2, ![1, 128]⟩ : Shape) (W29 m ρ c (Proc.devRef .tc main_arg8)) shapeCasts_S128_S1x128 := by
      after_results
      rfl
    show StableHlo.after hostOps8 (W29 m ρ c) (Proc.devRef .tc main_v108) (ix2 (0 : Fin 1) d) = _
    rw [e, shapeCast_a_1a_apply, kept29_arg8]
  unfold projA
  rw [h0, h1, h2]

theorem kernel_value (c : Dev nD) :
    W31 m ρ c (Proc.devRef .tc main_v109)
      = netOf (layerK dGK dSK) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold netOf
  dsimp only
  rw [kfinal, klayer3, klayer2, klayer1, klayer0, v1_value, v3_value, srcColOfVec_edgeRow, colOfVec_edgeRow]

end Cert.KernelIdeal.Val

end
-- ==== Proof.RefRun.lean ====
import proofs.«410150_j30107720744960_1_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

-- The program's operations, in order (a called function's operations stand in its call's place).
abbrev ops : List (HloOp τ sig (Elt F)) :=
  [ unary main_arg1 main_v0 (extractStridedSlice S1x640000 ![0, 0] · slices_S2x640000_S1x640000_0_0),
    reshape main_v0 main_v1 rfl shapeCasts_S1x640000_S640000,
    unary main_arg1 main_v2 (extractStridedSlice S1x640000 ![1, 0] · slices_S2x640000_S1x640000_1_0),
    reshape main_v2 main_v3 rfl shapeCasts_S1x640000_S640000,
    nullary main_c (constantI S_ 32 0#32),
    unary main_c main_v4 (broadcastInDim S640000 ![] bcast_S_S640000),
    binary main_v1 main_v4 main_v5 (cmpi .slt),
    nullary main_c_0 (constantI S_ 32 100000#32),
    unary main_c_0 main_v6 (broadcastInDim S640000 ![] bcast_S_S640000),
    binary main_v1 main_v6 main_v7 addi,
    ternary main_v5 main_v7 main_v1 main_v8 select,
    unary main_v8 main_v9 (broadcastInDim S640000x1 ![0] bcast_S640000_S640000x1_0),
    binary main_arg0 main_v9 main_v10 (fun x i => Host.gather gather_S100000x128_S640000x1_S640000x128_1_0_n_n_0_1_1128 x i),
    binary main_v10 main_arg2 main_v11 addf,
    TRef.nullary (TRef.of (T := ⟨S_, .f32⟩) main_call0_cst) (constant S_ .f32 0x00000000#32),
    TRef.unary (TRef.of (T := ⟨S_, .f32⟩) main_call0_cst) (TRef.of (T := ⟨S640000x128, .f32⟩) main_call0_v0) (broadcastInDim S640000x128 ![] bcast_S_S640000x128),
    TRef.binary (TRef.of (T := ⟨S640000x128, .f32⟩) main_v11) (TRef.of (T := ⟨S640000x128, .f32⟩) main_call0_v0) (TRef.of (T := ⟨S640000x128, .f32⟩) main_v12) maximumf,
    nullary main_cst (constant S_ .f32 0x00000000#32),
    unary main_cst main_v13 (broadcastInDim S100000x128 ![] bcast_S_S100000x128),
    unary main_v3 main_v14 (broadcastInDim S640000x1 ![0] bcast_S640000_S640000x1_0),
    ternary main_v13 main_v14 main_v12 main_v15 (fun x i u => Host.scatterAdd scatter_S100000x128_S640000x1_S640000x128_1_0_0_1 x i u),
    unary main_arg4 main_v16 (extractStridedSlice S1 ![0] · slices_S4_S1_0),
    reshape main_v16 main_v17 rfl shapeCasts_S1_S_,
    nullary main_cst_1 (constant S_ .f32 0x3F800000#32),
    binary main_cst_1 main_v17 main_v18 addf,
    unary main_v18 main_v19 (broadcastInDim S100000x128 ![] bcast_S_S100000x128),
    binary main_v19 main_arg0 main_v20 mulf,
    binary main_v20 main_v15 main_v21 addf,
    unary main_arg3 main_v22 (extractStridedSlice S1x128x128 ![0, 0, 0] · slices_S4x128x128_S1x128x128_0_0_0),
    reshape main_v22 main_v23 rfl shapeCasts_S1x128x128_S128x128,
    binary main_v21 main_v23 main_v24 (fun l r => Host.dotGeneral dot_S100000x128_S128x128_S100000x128_1_0_0_1_n_n none l r),
    nullary main_cst_2 (constant S_ .f32 0x00000000#32),
    binary main_v24 main_cst_2 main_v25 (fun x v => Host.reduceAdd x v reducesTo_S100000x128_S128_d0 h_S_),
    nullary main_cst_3 (constant S_ .f32 0x47C35000#32),
    unary main_cst_3 main_v26 (broadcastInDim S128 ![] bcast_S_S128),
    binary main_v25 main_v26 main_v27 Host.divf,
    unary main_v27 main_v28 (broadcastInDim S1x128 ![1] bcast_S128_S1x128_1),
    unary main_v28 main_v29 (broadcastInDim S100000x128 ![0, 1] bcast_S1x128_S100000x128_0_1),
    binary main_v24 main_v29 main_v30 subf,
    binary main_v30 main_v30 main_v31 mulf,
    nullary main_cst_4 (constant S_ .f32 0x00000000#32),
    binary main_v31 main_cst_4 main_v32 (fun x v => Host.reduceAdd x v reducesTo_S100000x128_S128_d0 h_S_),
    nullary main_cst_5 (constant S_ .f32 0x47C35000#32),
    unary main_cst_5 main_v33 (broadcastInDim S128 ![] bcast_S_S128),
    binary main_v32 main_v33 main_v34 Host.divf,
    unary main_v27 main_v35 (broadcastInDim S1x128 ![1] bcast_S128_S1x128_1),
    unary main_v35 main_v36 (broadcastInDim S100000x128 ![0, 1] bcast_S1x128_S100000x128_0_1),
    binary main_v24 main_v36 main_v37 subf,
    nullary main_cst_6 (constant S_ .f32 0x3727C5AC#32),
    unary main_cst_6 main_v38 (broadcastInDim S128 ![] bcast_S_S128),
    binary main_v34 main_v38 main_v39 addf,
    unary main_v39 main_v40 Host.rsqrt,
    unary main_v40 main_v41 (broadcastInDim S1x128 ![1] bcast_S128_S1x128_1),
    unary main_v41 main_v42 (broadcastInDim S100000x128 ![0, 1] bcast_S1x128_S100000x128_0_1),
    binary main_v37 main_v42 main_v43 mulf,
    unary main_arg5 main_v44 (extractStridedSlice S1x128 ![0, 0] · slices_S4x128_S1x128_0_0),
    reshape main_v44 main_v45 rfl shapeCasts_S1x128_S128,
    unary main_v45 main_v46 (broadcastInDim S1x128 ![1] bcast_S128_S1x128_1),
    unary main_v46 main_v47 (broadcastInDim S100000x128 ![0, 1] bcast_S1x128_S100000x128_0_1),
    binary main_v43 main_v47 main_v48 mulf,
    unary main_arg6 main_v49 (extractStridedSlice S1x128 ![0, 0] · slices_S4x128_S1x128_0_0),
    reshape main_v49 main_v50 rfl shapeCasts_S1x128_S128,
    unary main_v50 main_v51 (broadcastInDim S1x128 ![1] bcast_S128_S1x128_1),
    unary main_v51 main_v52 (broadcastInDim S100000x128 ![0, 1] bcast_S1x128_S100000x128_0_1),
    binary main_v48 main_v52 main_v53 addf,
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v53) (TRef.of (T := ⟨S100000x128, .f32⟩) main_call1_v0) (TRef.of (T := ⟨S100000x128, .f32⟩) main_v54) maximumf,
    binary main_v54 main_arg0 main_v55 addf,
    nullary main_c_7 (constantI S_ 32 0#32),
    unary main_c_7 main_v56 (broadcastInDim S640000 ![] bcast_S_S640000),
    binary main_v1 main_v56 main_v57 (cmpi .slt),
    nullary main_c_8 (constantI S_ 32 100000#32),
    unary main_c_8 main_v58 (broadcastInDim S640000 ![] bcast_S_S640000),
    binary main_v1 main_v58 main_v59 addi,
    ternary main_v57 main_v59 main_v1 main_v60 select,
    unary main_v60 main_v61 (broadcastInDim S640000x1 ![0] bcast_S640000_S640000x1_0),
    binary main_v55 main_v61 main_v62 (fun x i => Host.gather gather_S100000x128_S640000x1_S640000x128_1_0_n_n_0_1_1128 x i),
    binary main_v62 main_arg2 main_v63 addf,
    TRef.nullary (TRef.of (T := ⟨S_, .f32⟩) main_call2_cst) (constant S_ .f32 0x00000000#32),
    TRef.unary (TRef.of (T := ⟨S_, .f32⟩) main_call2_cst) (TRef.of (T := ⟨S640000x128, .f32⟩) main_call2_v0) (broadcastInDim S640000x128 ![] bcast_S_S640000x128),
    TRef.binary (TRef.of (T := ⟨S640000x128, .f32⟩) main_v63) (TRef.of (T := ⟨S640000x128, .f32⟩) main_call2_v0) (TRef.of (T := ⟨S640000x128, .f32⟩) main_v64) maximumf,
    nullary main_cst_9 (constant S_ .f32 0x00000000#32),
    unary main_cst_9 main_v65 (broadcastInDim S100000x128 ![] bcast_S_S100000x128),
    unary main_v3 main_v66 (broadcastInDim S640000x1 ![0] bcast_S640000_S640000x1_0),
    ternary main_v65 main_v66 main_v64 main_v67 (fun x i u => Host.scatterAdd scatter_S100000x128_S640000x1_S640000x128_1_0_0_1 x i u),
    unary main_arg4 main_v68 (extractStridedSlice S1 ![1] · slices_S4_S1_1),
    reshape main_v68 main_v69 rfl shapeCasts_S1_S_,
    nullary main_cst_10 (constant S_ .f32 0x3F800000#32),
    binary main_cst_10 main_v69 main_v70 addf,
    unary main_v70 main_v71 (broadcastInDim S100000x128 ![] bcast_S_S100000x128),
    binary main_v71 main_v55 main_v72 mulf,
    binary main_v72 main_v67 main_v73 addf,
    unary main_arg3 main_v74 (extractStridedSlice S1x128x128 ![1, 0, 0] · slices_S4x128x128_S1x128x128_1_0_0),
    reshape main_v74 main_v75 rfl shapeCasts_S1x128x128_S128x128,
    binary main_v73 main_v75 main_v76 (fun l r => Host.dotGeneral dot_S100000x128_S128x128_S100000x128_1_0_0_1_n_n none l r),
    nullary main_cst_11 (constant S_ .f32 0x00000000#32),
    binary main_v76 main_cst_11 main_v77 (fun x v => Host.reduceAdd x v reducesTo_S100000x128_S128_d0 h_S_),
    nullary main_cst_12 (constant S_ .f32 0x47C35000#32),
    unary main_cst_12 main_v78 (broadcastInDim S128 ![] bcast_S_S128),
    binary main_v77 main_v78 main_v79 Host.divf,
    unary main_v79 main_v80 (broadcastInDim S1x128 ![1] bcast_S128_S1x128_1),
    unary main_v80 main_v81 (broadcastInDim S100000x128 ![0, 1] bcast_S1x128_S100000x128_0_1),
    binary main_v76 main_v81 main_v82 subf,
    binary main_v82 main_v82 main_v83 mulf,
    nullary main_cst_13 (constant S_ .f32 0x00000000#32),
    binary main_v83 main_cst_13 main_v84 (fun x v => Host.reduceAdd x v reducesTo_S100000x128_S128_d0 h_S_),
    nullary main_cst_14 (constant S_ .f32 0x47C35000#32),
    unary main_cst_14 main_v85 (broadcastInDim S128 ![] bcast_S_S128),
    binary main_v84 main_v85 main_v86 Host.divf,
    unary main_v79 main_v87 (broadcastInDim S1x128 ![1] bcast_S128_S1x128_1),
    unary main_v87 main_v88 (broadcastInDim S100000x128 ![0, 1] bcast_S1x128_S100000x128_0_1),
    binary main_v76 main_v88 main_v89 subf,
    nullary main_cst_15 (constant S_ .f32 0x3727C5AC#32),
    unary main_cst_15 main_v90 (broadcastInDim S128 ![] bcast_S_S128),
    binary main_v86 main_v90 main_v91 addf,
    unary main_v91 main_v92 Host.rsqrt,
    unary main_v92 main_v93 (broadcastInDim S1x128 ![1] bcast_S128_S1x128_1),
    unary main_v93 main_v94 (broadcastInDim S100000x128 ![0, 1] bcast_S1x128_S100000x128_0_1),
    binary main_v89 main_v94 main_v95 mulf,
    unary main_arg5 main_v96 (extractStridedSlice S1x128 ![1, 0] · slices_S4x128_S1x128_1_0),
    reshape main_v96 main_v97 rfl shapeCasts_S1x128_S128,
    unary main_v97 main_v98 (broadcastInDim S1x128 ![1] bcast_S128_S1x128_1),
    unary main_v98 main_v99 (broadcastInDim S100000x128 ![0, 1] bcast_S1x128_S100000x128_0_1),
    binary main_v95 main_v99 main_v100 mulf,
    unary main_arg6 main_v101 (extractStridedSlice S1x128 ![1, 0] · slices_S4x128_S1x128_1_0),
    reshape main_v101 main_v102 rfl shapeCasts_S1x128_S128,
    unary main_v102 main_v103 (broadcastInDim S1x128 ![1] bcast_S128_S1x128_1),
    unary main_v103 main_v104 (broadcastInDim S100000x128 ![0, 1] bcast_S1x128_S100000x128_0_1),
    binary main_v100 main_v104 main_v105 addf,
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v105) (TRef.of (T := ⟨S100000x128, .f32⟩) main_call3_v0) (TRef.of (T := ⟨S100000x128, .f32⟩) main_v106) maximumf,
    binary main_v106 main_v55 main_v107 addf,
    nullary main_c_16 (constantI S_ 32 0#32),
    unary main_c_16 main_v108 (broadcastInDim S640000 ![] bcast_S_S640000),
    binary main_v1 main_v108 main_v109 (cmpi .slt),
    nullary main_c_17 (constantI S_ 32 100000#32),
    unary main_c_17 main_v110 (broadcastInDim S640000 ![] bcast_S_S640000),
    binary main_v1 main_v110 main_v111 addi,
    ternary main_v109 main_v111 main_v1 main_v112 select,
    unary main_v112 main_v113 (broadcastInDim S640000x1 ![0] bcast_S640000_S640000x1_0),
    binary main_v107 main_v113 main_v114 (fun x i => Host.gather gather_S100000x128_S640000x1_S640000x128_1_0_n_n_0_1_1128 x i),
    binary main_v114 main_arg2 main_v115 addf,
    TRef.nullary (TRef.of (T := ⟨S_, .f32⟩) main_call4_cst) (constant S_ .f32 0x00000000#32),
    TRef.unary (TRef.of (T := ⟨S_, .f32⟩) main_call4_cst) (TRef.of (T := ⟨S640000x128, .f32⟩) main_call4_v0) (broadcastInDim S640000x128 ![] bcast_S_S640000x128),
    TRef.binary (TRef.of (T := ⟨S640000x128, .f32⟩) main_v115) (TRef.of (T := ⟨S640000x128, .f32⟩) main_call4_v0) (TRef.of (T := ⟨S640000x128, .f32⟩) main_v116) maximumf,
    nullary main_cst_18 (constant S_ .f32 0x00000000#32),
    unary main_cst_18 main_v117 (broadcastInDim S100000x128 ![] bcast_S_S100000x128),
    unary main_v3 main_v118 (broadcastInDim S640000x1 ![0] bcast_S640000_S640000x1_0),
    ternary main_v117 main_v118 main_v116 main_v119 (fun x i u => Host.scatterAdd scatter_S100000x128_S640000x1_S640000x128_1_0_0_1 x i u),
    unary main_arg4 main_v120 (extractStridedSlice S1 ![2] · slices_S4_S1_2),
    reshape main_v120 main_v121 rfl shapeCasts_S1_S_,
    nullary main_cst_19 (constant S_ .f32 0x3F800000#32),
    binary main_cst_19 main_v121 main_v122 addf,
    unary main_v122 main_v123 (broadcastInDim S100000x128 ![] bcast_S_S100000x128),
    binary main_v123 main_v107 main_v124 mulf,
    binary main_v124 main_v119 main_v125 addf,
    unary main_arg3 main_v126 (extractStridedSlice S1x128x128 ![2, 0, 0] · slices_S4x128x128_S1x128x128_2_0_0),
    reshape main_v126 main_v127 rfl shapeCasts_S1x128x128_S128x128,
    binary main_v125 main_v127 main_v128 (fun l r => Host.dotGeneral dot_S100000x128_S128x128_S100000x128_1_0_0_1_n_n none l r),
    nullary main_cst_20 (constant S_ .f32 0x00000000#32),
    binary main_v128 main_cst_20 main_v129 (fun x v => Host.reduceAdd x v reducesTo_S100000x128_S128_d0 h_S_),
    nullary main_cst_21 (constant S_ .f32 0x47C35000#32),
    unary main_cst_21 main_v130 (broadcastInDim S128 ![] bcast_S_S128),
    binary main_v129 main_v130 main_v131 Host.divf,
    unary main_v131 main_v132 (broadcastInDim S1x128 ![1] bcast_S128_S1x128_1),
    unary main_v132 main_v133 (broadcastInDim S100000x128 ![0, 1] bcast_S1x128_S100000x128_0_1),
    binary main_v128 main_v133 main_v134 subf,
    binary main_v134 main_v134 main_v135 mulf,
    nullary main_cst_22 (constant S_ .f32 0x00000000#32),
    binary main_v135 main_cst_22 main_v136 (fun x v => Host.reduceAdd x v reducesTo_S100000x128_S128_d0 h_S_),
    nullary main_cst_23 (constant S_ .f32 0x47C35000#32),
    unary main_cst_23 main_v137 (broadcastInDim S128 ![] bcast_S_S128),
    binary main_v136 main_v137 main_v138 Host.divf,
    unary main_v131 main_v139 (broadcastInDim S1x128 ![1] bcast_S128_S1x128_1),
    unary main_v139 main_v140 (broadcastInDim S100000x128 ![0, 1] bcast_S1x128_S100000x128_0_1),
    binary main_v128 main_v140 main_v141 subf,
    nullary main_cst_24 (constant S_ .f32 0x3727C5AC#32),
    unary main_cst_24 main_v142 (broadcastInDim S128 ![] bcast_S_S128),
    binary main_v138 main_v142 main_v143 addf,
    unary main_v143 main_v144 Host.rsqrt,
    unary main_v144 main_v145 (broadcastInDim S1x128 ![1] bcast_S128_S1x128_1),
    unary main_v145 main_v146 (broadcastInDim S100000x128 ![0, 1] bcast_S1x128_S100000x128_0_1),
    binary main_v141 main_v146 main_v147 mulf,
    unary main_arg5 main_v148 (extractStridedSlice S1x128 ![2, 0] · slices_S4x128_S1x128_2_0),
    reshape main_v148 main_v149 rfl shapeCasts_S1x128_S128,
    unary main_v149 main_v150 (broadcastInDim S1x128 ![1] bcast_S128_S1x128_1),
    unary main_v150 main_v151 (broadcastInDim S100000x128 ![0, 1] bcast_S1x128_S100000x128_0_1),
    binary main_v147 main_v151 main_v152 mulf,
    unary main_arg6 main_v153 (extractStridedSlice S1x128 ![2, 0] · slices_S4x128_S1x128_2_0),
    reshape main_v153 main_v154 rfl shapeCasts_S1x128_S128,
    unary main_v154 main_v155 (broadcastInDim S1x128 ![1] bcast_S128_S1x128_1),
    unary main_v155 main_v156 (broadcastInDim S100000x128 ![0, 1] bcast_S1x128_S100000x128_0_1),
    binary main_v152 main_v156 main_v157 addf,
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v157) (TRef.of (T := ⟨S100000x128, .f32⟩) main_call5_v0) (TRef.of (T := ⟨S100000x128, .f32⟩) main_v158) maximumf,
    binary main_v158 main_v107 main_v159 addf,
    nullary main_c_25 (constantI S_ 32 0#32),
    unary main_c_25 main_v160 (broadcastInDim S640000 ![] bcast_S_S640000),
    binary main_v1 main_v160 main_v161 (cmpi .slt),
    nullary main_c_26 (constantI S_ 32 100000#32),
    unary main_c_26 main_v162 (broadcastInDim S640000 ![] bcast_S_S640000),
    binary main_v1 main_v162 main_v163 addi,
    ternary main_v161 main_v163 main_v1 main_v164 select,
    unary main_v164 main_v165 (broadcastInDim S640000x1 ![0] bcast_S640000_S640000x1_0),
    binary main_v159 main_v165 main_v166 (fun x i => Host.gather gather_S100000x128_S640000x1_S640000x128_1_0_n_n_0_1_1128 x i),
    binary main_v166 main_arg2 main_v167 addf,
    TRef.nullary (TRef.of (T := ⟨S_, .f32⟩) main_call6_cst) (constant S_ .f32 0x00000000#32),
    TRef.unary (TRef.of (T := ⟨S_, .f32⟩) main_call6_cst) (TRef.of (T := ⟨S640000x128, .f32⟩) main_call6_v0) (broadcastInDim S640000x128 ![] bcast_S_S640000x128),
    TRef.binary (TRef.of (T := ⟨S640000x128, .f32⟩) main_v167) (TRef.of (T := ⟨S640000x128, .f32⟩) main_call6_v0) (TRef.of (T := ⟨S640000x128, .f32⟩) main_v168) maximumf,
    nullary main_cst_27 (constant S_ .f32 0x00000000#32),
    unary main_cst_27 main_v169 (broadcastInDim S100000x128 ![] bcast_S_S100000x128),
    unary main_v3 main_v170 (broadcastInDim S640000x1 ![0] bcast_S640000_S640000x1_0),
    ternary main_v169 main_v170 main_v168 main_v171 (fun x i u => Host.scatterAdd scatter_S100000x128_S640000x1_S640000x128_1_0_0_1 x i u),
    unary main_arg4 main_v172 (extractStridedSlice S1 ![3] · slices_S4_S1_3),
    reshape main_v172 main_v173 rfl shapeCasts_S1_S_,
    nullary main_cst_28 (constant S_ .f32 0x3F800000#32),
    binary main_cst_28 main_v173 main_v174 addf,
    unary main_v174 main_v175 (broadcastInDim S100000x128 ![] bcast_S_S100000x128),
    binary main_v175 main_v159 main_v176 mulf,
    binary main_v176 main_v171 main_v177 addf,
    unary main_arg3 main_v178 (extractStridedSlice S1x128x128 ![3, 0, 0] · slices_S4x128x128_S1x128x128_3_0_0),
    reshape main_v178 main_v179 rfl shapeCasts_S1x128x128_S128x128,
    binary main_v177 main_v179 main_v180 (fun l r => Host.dotGeneral dot_S100000x128_S128x128_S100000x128_1_0_0_1_n_n none l r),
    nullary main_cst_29 (constant S_ .f32 0x00000000#32),
    binary main_v180 main_cst_29 main_v181 (fun x v => Host.reduceAdd x v reducesTo_S100000x128_S128_d0 h_S_),
    nullary main_cst_30 (constant S_ .f32 0x47C35000#32),
    unary main_cst_30 main_v182 (broadcastInDim S128 ![] bcast_S_S128),
    binary main_v181 main_v182 main_v183 Host.divf,
    unary main_v183 main_v184 (broadcastInDim S1x128 ![1] bcast_S128_S1x128_1),
    unary main_v184 main_v185 (broadcastInDim S100000x128 ![0, 1] bcast_S1x128_S100000x128_0_1),
    binary main_v180 main_v185 main_v186 subf,
    binary main_v186 main_v186 main_v187 mulf,
    nullary main_cst_31 (constant S_ .f32 0x00000000#32),
    binary main_v187 main_cst_31 main_v188 (fun x v => Host.reduceAdd x v reducesTo_S100000x128_S128_d0 h_S_),
    nullary main_cst_32 (constant S_ .f32 0x47C35000#32),
    unary main_cst_32 main_v189 (broadcastInDim S128 ![] bcast_S_S128),
    binary main_v188 main_v189 main_v190 Host.divf,
    unary main_v183 main_v191 (broadcastInDim S1x128 ![1] bcast_S128_S1x128_1),
    unary main_v191 main_v192 (broadcastInDim S100000x128 ![0, 1] bcast_S1x128_S100000x128_0_1),
    binary main_v180 main_v192 main_v193 subf,
    nullary main_cst_33 (constant S_ .f32 0x3727C5AC#32),
    unary main_cst_33 main_v194 (broadcastInDim S128 ![] bcast_S_S128),
    binary main_v190 main_v194 main_v195 addf,
    unary main_v195 main_v196 Host.rsqrt,
    unary main_v196 main_v197 (broadcastInDim S1x128 ![1] bcast_S128_S1x128_1),
    unary main_v197 main_v198 (broadcastInDim S100000x128 ![0, 1] bcast_S1x128_S100000x128_0_1),
    binary main_v193 main_v198 main_v199 mulf,
    unary main_arg5 main_v200 (extractStridedSlice S1x128 ![3, 0] · slices_S4x128_S1x128_3_0),
    reshape main_v200 main_v201 rfl shapeCasts_S1x128_S128,
    unary main_v201 main_v202 (broadcastInDim S1x128 ![1] bcast_S128_S1x128_1),
    unary main_v202 main_v203 (broadcastInDim S100000x128 ![0, 1] bcast_S1x128_S100000x128_0_1),
    binary main_v199 main_v203 main_v204 mulf,
    unary main_arg6 main_v205 (extractStridedSlice S1x128 ![3, 0] · slices_S4x128_S1x128_3_0),
    reshape main_v205 main_v206 rfl shapeCasts_S1x128_S128,
    unary main_v206 main_v207 (broadcastInDim S1x128 ![1] bcast_S128_S1x128_1),
    unary main_v207 main_v208 (broadcastInDim S100000x128 ![0, 1] bcast_S1x128_S100000x128_0_1),
    binary main_v204 main_v208 main_v209 addf,
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v209) (TRef.of (T := ⟨S100000x128, .f32⟩) main_call7_v0) (TRef.of (T := ⟨S100000x128, .f32⟩) main_v210) maximumf,
    binary main_v210 main_v159 main_v211 addf,
    binary main_v211 main_arg7 main_v212 (fun l r => Host.dotGeneral dot_S100000x128_S128x128_S100000x128_1_0_0_1_n_n none l r),
    unary main_arg8 main_v213 (broadcastInDim S1x128 ![1] bcast_S128_S1x128_1),
    unary main_v213 main_v214 (broadcastInDim S100000x128 ![0, 1] bcast_S1x128_S100000x128_0_1),
    binary main_v212 main_v214 main_v215 addf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
-- A list has a property from position k on if its k-th entry has it and the list has it from k + 1 on.
theorem forall_drop {α : Type _} {p : α → Prop} {l : List α} : ∀ {k : Nat} {a : α}, l[k]? = some a → p a →
    (l.drop (k + 1)).Forall p → (l.drop k).Forall p := by
  induction l with
  | nil => intro k a ha; rw [List.getElem?_nil] at ha; cases ha
  | cons x l ih =>
    intro k a ha h1 h2
    cases k with
    | zero =>
      rw [List.getElem?_cons_zero] at ha
      obtain rfl := Option.some.inj ha
      exact (List.forall_cons _ _ _).mpr ⟨h1, h2⟩
    | succ k => exact ih ha h1 h2

local macro "ok_step" : tactic => `(tactic| (
  refine forall_drop rfl ⟨?_, rfl⟩ ?_
  · first
    | with_reducible exact unary_bufs_sub ..
    | with_reducible exact binary_bufs_sub ..
    | with_reducible exact nullary_bufs_sub ..
    | with_reducible exact reshape_bufs_sub ..
    | with_reducible exact ternary_bufs_sub ..))

-- The same two facts of every operation, proved along the list from position 220 on, from 155 on, from the start.
theorem ops_ok₂ : ((ops : List (HloOp τ sig (Elt F))).drop 220).Forall fun op => op.bufs ⊆ tcRefs τ sig ∧ op.fresh = ∅ := by
  iterate 48 ok_step
  exact trivial
theorem ops_ok₁ : ((ops : List (HloOp τ sig (Elt F))).drop 155).Forall fun op => op.bufs ⊆ tcRefs τ sig ∧ op.fresh = ∅ := by
  iterate 65 ok_step
  exact ops_ok₂
theorem ops_ok : (ops : List (HloOp τ sig (Elt F))).Forall fun op => op.bufs ⊆ tcRefs τ sig ∧ op.fresh = ∅ := by
  show ((ops : List (HloOp τ sig (Elt F))).drop 0).Forall _
  iterate 155 ok_step
  exact ops_ok₁

theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_ok.imp fun _ h => h.1) m ρ
    fun _ => List.forall_iff_forall_mem.1 (ops_ok.imp fun _ h => h.2)

end Cert.ReferenceIdeal.RunP

end
-- ==== Proof.RefRead.lean ====
import proofs.«410150_j30107720744960_1_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

abbrev idx_shapeCasts_S1x640000_S640000 (i : S640000.Idx) : S1x640000.Idx := fun a => match a with
  | ⟨0, _⟩ => ⟨0, Nat.one_pos⟩
  | ⟨1, _⟩ => ⟨((i 0).val) % 640000, by have h0 : (i 0).val < 640000 := (i 0).isLt; show ((i 0).val) % 640000 < 640000; omega⟩

theorem shapeCasts_S1x640000_S640000_apply (y : (⟨S1x640000, .i32⟩ : BufTy).Contents (Elt F)) (i : S640000.Idx) :
    (shapeCast _ y shapeCasts_S1x640000_S640000) i = y (idx_shapeCasts_S1x640000_S640000 i) :=
  shapeCast_apply y shapeCasts_S1x640000_S640000 i (idx_shapeCasts_S1x640000_S640000 i)
    (by rewrite [Shape.rowMajor_val_two, Shape.rowMajor_val_one]; have h0 : (i 0).val < 640000 := (i 0).isLt; show 0 * 640000 + ((i 0).val) % 640000 = (i 0).val; omega)

abbrev idx_bcast_S_S640000 (i : S640000.Idx) : S_.Idx := fun a => a.elim0

theorem bcast_S_S640000_apply (y : (⟨S_, .i32⟩ : BufTy).Contents (Elt F)) (i : S640000.Idx) :
    (broadcastInDim S640000 ![] bcast_S_S640000 y) i = y (idx_bcast_S_S640000 i) :=
  broadcastInDim_apply _ bcast_S_S640000 y i (idx_bcast_S_S640000 i) (fun a => a.elim0)

abbrev idx_bcast_S640000_S640000x1_0 (i : S640000x1.Idx) : S640000.Idx := fun a => match a with
  | ⟨0, _⟩ => ⟨(i 0).val, (i 0).isLt⟩

theorem bcast_S640000_S640000x1_0_apply (y : (⟨S640000, .i32⟩ : BufTy).Contents (Elt F)) (i : S640000x1.Idx) :
    (broadcastInDim S640000x1 ![0] bcast_S640000_S640000x1_0 y) i = y (idx_bcast_S640000_S640000x1_0 i) :=
  broadcastInDim_apply _ bcast_S640000_S640000x1_0 y i (idx_bcast_S640000_S640000x1_0 i) (fun a => match a with
    | ⟨0, _⟩ => by show (i 0).val = if (640000 : Nat) = 1 then 0 else (i 0).val; rw [if_neg (by decide)])

abbrev idx_bcast_S_S640000x128 (i : S640000x128.Idx) : S_.Idx := fun a => a.elim0

theorem bcast_S_S640000x128_apply (y : (⟨S_, .f32⟩ : BufTy).Contents (Elt F)) (i : S640000x128.Idx) :
    (broadcastInDim S640000x128 ![] bcast_S_S640000x128 y) i = y (idx_bcast_S_S640000x128 i) :=
  broadcastInDim_apply _ bcast_S_S640000x128 y i (idx_bcast_S_S640000x128 i) (fun a => a.elim0)

abbrev idx_bcast_S_S100000x128 (i : S100000x128.Idx) : S_.Idx := fun a => a.elim0

theorem bcast_S_S100000x128_apply (y : (⟨S_, .f32⟩ : BufTy).Contents (Elt F)) (i : S100000x128.Idx) :
    (broadcastInDim S100000x128 ![] bcast_S_S100000x128 y) i = y (idx_bcast_S_S100000x128 i) :=
  broadcastInDim_apply _ bcast_S_S100000x128 y i (idx_bcast_S_S100000x128 i) (fun a => a.elim0)

abbrev idx_shapeCasts_S1x128x128_S128x128 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩

theorem shapeCasts_S1x128x128_S128x128_apply (y : (⟨S1x128x128, .f32⟩ : BufTy).Contents (Elt F)) (i : S128x128.Idx) :
    (shapeCast _ y shapeCasts_S1x128x128_S128x128) i = y (idx_shapeCasts_S1x128x128_S128x128 i) :=
  shapeCast_apply y shapeCasts_S1x128x128_S128x128 i (idx_shapeCasts_S1x128x128_S128x128 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

abbrev lidx_dot_S100000x128_S128x128_S100000x128_1_0_0_1_n_n (i : S100000x128.Idx) (k : Fin 128) : S100000x128.Idx := fun a => match a with
  | ⟨0, _⟩ => ⟨(i 0).val, (i 0).isLt⟩
  | ⟨1, _⟩ => ⟨k.val, k.isLt⟩

abbrev ridx_dot_S100000x128_S128x128_S100000x128_1_0_0_1_n_n (i : S100000x128.Idx) (k : Fin 128) : S128x128.Idx := fun a => match a with
  | ⟨0, _⟩ => ⟨k.val, k.isLt⟩
  | ⟨1, _⟩ => ⟨(i 1).val, (i 1).isLt⟩

theorem lhs_dot_S100000x128_S128x128_S100000x128_1_0_0_1_n_n_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

theorem lhs_dot_S100000x128_S128x128_S100000x128_1_0_0_1_n_n_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem rhs_dot_S100000x128_S128x128_S100000x128_1_0_0_1_n_n_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem rhs_dot_S100000x128_S128x128_S100000x128_1_0_0_1_n_n_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem dot_S100000x128_S128x128_S100000x128_1_0_0_1_n_n_apply (y0 : FVec Ideal S100000x128 .f32) (y1 : FVec Ideal S128x128 .f32) (i : S100000x128.Idx) :
    (Host.dotGeneral dot_S100000x128_S128x128_S100000x128_1_0_0_1_n_n none y0 y1) i = ∑ k : Fin 128, y0 (lidx_dot_S100000x128_S128x128_S100000x128_1_0_0_1_n_n i k) * y1 (ridx_dot_S100000x128_S128x128_S100000x128_1_0_0_1_n_n i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_dot_S100000x128_S128x128_S100000x128_1_0_0_1_n_n i k := funext fun a => Fin.ext (by
    match a with
    | ⟨0, _⟩ => exact lhs_dot_S100000x128_S128x128_S100000x128_1_0_0_1_n_n_0 _ _
    | ⟨1, _⟩ => exact (lhs_dot_S100000x128_S128x128_S100000x128_1_0_0_1_n_n_1 _ _).trans hk)
  have er : dot_S100000x128_S128x128_S100000x128_1_0_0_1_n_n.rhsIdx i ((ValueIdx.contrEquiv1 dot_S100000x128_S128x128_S100000x128_1_0_0_1_n_n 128 rfl rfl).symm k) = ridx_dot_S100000x128_S128x128_S100000x128_1_0_0_1_n_n i k := funext fun a => Fin.ext (by
    match a with
    | ⟨0, _⟩ => exact (rhs_dot_S100000x128_S128x128_S100000x128_1_0_0_1_n_n_0 _ _).trans hk
    | ⟨1, _⟩ => exact rhs_dot_S100000x128_S128x128_S100000x128_1_0_0_1_n_n_1 _ _)
  rw [el, er]

abbrev idx_reducesTo_S100000x128_S128_d0 (i : S128.Idx) (k : Fin 100000) : S100000x128.Idx := fun a => match a with
  | ⟨0, _⟩ => ⟨k.val, k.isLt⟩
  | ⟨1, _⟩ => ⟨(i 0).val, (i 0).isLt⟩

theorem reducesTo_S100000x128_S128_d0_apply (y0 : FVec Ideal S100000x128 .f32) (y1 : FVec Ideal S_ .f32) (i : S128.Idx) :
    (Host.reduceAdd y0 y1 reducesTo_S100000x128_S128_d0 h_S_) i = y1 (Shape.Idx.first h_S_) + ∑ k : Fin 100000, y0 (idx_reducesTo_S100000x128_S128_d0 i k) := by
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

abbrev idx_bcast_S_S128 (i : S128.Idx) : S_.Idx := fun a => a.elim0

theorem bcast_S_S128_apply (y : (⟨S_, .f32⟩ : BufTy).Contents (Elt F)) (i : S128.Idx) :
    (broadcastInDim S128 ![] bcast_S_S128 y) i = y (idx_bcast_S_S128 i) :=
  broadcastInDim_apply _ bcast_S_S128 y i (idx_bcast_S_S128 i) (fun a => a.elim0)

abbrev idx_bcast_S128_S1x128_1 (i : S1x128.Idx) : S128.Idx := fun a => match a with
  | ⟨0, _⟩ => ⟨(i 1).val, (i 1).isLt⟩

theorem bcast_S128_S1x128_1_apply (y : (⟨S128, .f32⟩ : BufTy).Contents (Elt F)) (i : S1x128.Idx) :
    (broadcastInDim S1x128 ![1] bcast_S128_S1x128_1 y) i = y (idx_bcast_S128_S1x128_1 i) :=
  broadcastInDim_apply _ bcast_S128_S1x128_1 y i (idx_bcast_S128_S1x128_1 i) (fun a => match a with
    | ⟨0, _⟩ => by show (i 1).val = if (128 : Nat) = 1 then 0 else (i 1).val; rw [if_neg (by decide)])

abbrev idx_bcast_S1x128_S100000x128_0_1 (i : S100000x128.Idx) : S1x128.Idx := fun a => match a with
  | ⟨0, _⟩ => ⟨0, Nat.one_pos⟩
  | ⟨1, _⟩ => ⟨(i 1).val, (i 1).isLt⟩

theorem bcast_S1x128_S100000x128_0_1_apply (y : (⟨S1x128, .f32⟩ : BufTy).Contents (Elt F)) (i : S100000x128.Idx) :
    (broadcastInDim S100000x128 ![0, 1] bcast_S1x128_S100000x128_0_1 y) i = y (idx_bcast_S1x128_S100000x128_0_1 i) :=
  broadcastInDim_apply _ bcast_S1x128_S100000x128_0_1 y i (idx_bcast_S1x128_S100000x128_0_1 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

abbrev idx_slices_S4x128_S1x128_0_0 (i : S1x128.Idx) : S4x128.Idx := fun a => match a with
  | ⟨0, _⟩ => ⟨(i 0).val, by have h0 : (i 0).val < 1 := (i 0).isLt; show (i 0).val < 4; omega⟩
  | ⟨1, _⟩ => ⟨(i 1).val, (i 1).isLt⟩

theorem slices_S4x128_S1x128_0_0_apply (y : (⟨S4x128, .f32⟩ : BufTy).Contents (Elt F)) (i : S1x128.Idx) :
    (extractStridedSlice S1x128 ![0, 0] y slices_S4x128_S1x128_0_0) i = y (idx_slices_S4x128_S1x128_0_0 i) :=
  extractStridedSlice_apply ![0, 0] y slices_S4x128_S1x128_0_0 i (idx_slices_S4x128_S1x128_0_0 i) (fun a => match a with
    | ⟨0, _⟩ => by show (i 0).val = 0 + (i 0).val; omega
    | ⟨1, _⟩ => by show (i 1).val = 0 + (i 1).val; omega)

abbrev idx_shapeCasts_S1x128_S128 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩

theorem shapeCasts_S1x128_S128_apply (y : (⟨S1x128, .f32⟩ : BufTy).Contents (Elt F)) (i : S128.Idx) :
    (shapeCast _ y shapeCasts_S1x128_S128) i = y (idx_shapeCasts_S1x128_S128 i) :=
  shapeCast_apply y shapeCasts_S1x128_S128 i (idx_shapeCasts_S1x128_S128 i)
    (by rewrite [Shape.rowMajor_val_two, Shape.rowMajor_val_one]; have h0 : (i 0).val < 128 := (i 0).isLt; show 0 * 128 + ((i 0).val) % 128 = (i 0).val; omega)

abbrev idx_slices_S4x128_S1x128_1_0 (i : S1x128.Idx) : S4x128.Idx := fun a => match a with
  | ⟨0, _⟩ => ⟨1 + (i 0).val, by have h0 : (i 0).val < 1 := (i 0).isLt; show 1 + (i 0).val < 4; omega⟩
  | ⟨1, _⟩ => ⟨(i 1).val, (i 1).isLt⟩

theorem slices_S4x128_S1x128_1_0_apply (y : (⟨S4x128, .f32⟩ : BufTy).Contents (Elt F)) (i : S1x128.Idx) :
    (extractStridedSlice S1x128 ![1, 0] y slices_S4x128_S1x128_1_0) i = y (idx_slices_S4x128_S1x128_1_0 i) :=
  extractStridedSlice_apply ![1, 0] y slices_S4x128_S1x128_1_0 i (idx_slices_S4x128_S1x128_1_0 i) (fun a => match a with
    | ⟨0, _⟩ => by show 1 + (i 0).val = 1 + (i 0).val; omega
    | ⟨1, _⟩ => by show (i 1).val = 0 + (i 1).val; omega)

abbrev idx_slices_S4x128_S1x128_2_0 (i : S1x128.Idx) : S4x128.Idx := fun a => match a with
  | ⟨0, _⟩ => ⟨2 + (i 0).val, by have h0 : (i 0).val < 1 := (i 0).isLt; show 2 + (i 0).val < 4; omega⟩
  | ⟨1, _⟩ => ⟨(i 1).val, (i 1).isLt⟩

theorem slices_S4x128_S1x128_2_0_apply (y : (⟨S4x128, .f32⟩ : BufTy).Contents (Elt F)) (i : S1x128.Idx) :
    (extractStridedSlice S1x128 ![2, 0] y slices_S4x128_S1x128_2_0) i = y (idx_slices_S4x128_S1x128_2_0 i) :=
  extractStridedSlice_apply ![2, 0] y slices_S4x128_S1x128_2_0 i (idx_slices_S4x128_S1x128_2_0 i) (fun a => match a with
    | ⟨0, _⟩ => by show 2 + (i 0).val = 2 + (i 0).val; omega
    | ⟨1, _⟩ => by show (i 1).val = 0 + (i 1).val; omega)

abbrev idx_slices_S4x128_S1x128_3_0 (i : S1x128.Idx) : S4x128.Idx := fun a => match a with
  | ⟨0, _⟩ => ⟨3 + (i 0).val, by have h0 : (i 0).val < 1 := (i 0).isLt; show 3 + (i 0).val < 4; omega⟩
  | ⟨1, _⟩ => ⟨(i 1).val, (i 1).isLt⟩

theorem slices_S4x128_S1x128_3_0_apply (y : (⟨S4x128, .f32⟩ : BufTy).Contents (Elt F)) (i : S1x128.Idx) :
    (extractStridedSlice S1x128 ![3, 0] y slices_S4x128_S1x128_3_0) i = y (idx_slices_S4x128_S1x128_3_0 i) :=
  extractStridedSlice_apply ![3, 0] y slices_S4x128_S1x128_3_0 i (idx_slices_S4x128_S1x128_3_0 i) (fun a => match a with
    | ⟨0, _⟩ => by show 3 + (i 0).val = 3 + (i 0).val; omega
    | ⟨1, _⟩ => by show (i 1).val = 0 + (i 1).val; omega)

section
variable (x1 : (⟨S2x640000, .i32⟩ : BufTy).Contents (Elt F))

def val_main_v0 : (⟨S1x640000, .i32⟩ : BufTy).Contents (Elt F) :=
  extractStridedSlice S1x640000 ![0, 0] (x1) slices_S2x640000_S1x640000_0_0
abbrev idx_main_v0 (i : S1x640000.Idx) : S2x640000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (i : S1x640000.Idx) :
    val_main_v0 (F := F) x1 i = x1 (idx_main_v0 i) := by
  unfold val_main_v0
  exact extractStridedSlice_apply ![0, 0] x1 slices_S2x640000_S1x640000_0_0 i (idx_main_v0 i) (fun a => match a with
    | ⟨0, _⟩ => by show (i 0).val = 0 + (i 0).val; omega
    | ⟨1, _⟩ => by show (i 1).val = 0 + (i 1).val; omega)

def val_main_v1 : (⟨S640000, .i32⟩ : BufTy).Contents (Elt F) :=
  shapeCast _ (val_main_v0 (F := F) x1) shapeCasts_S1x640000_S640000
abbrev idx_main_v1 := idx_shapeCasts_S1x640000_S640000
theorem val_main_v1_apply (i : S640000.Idx) :
    val_main_v1 (F := F) x1 i = val_main_v0 (F := F) x1 (idx_main_v1 i) :=
  shapeCasts_S1x640000_S640000_apply _ i

def val_main_v2 : (⟨S1x640000, .i32⟩ : BufTy).Contents (Elt F) :=
  extractStridedSlice S1x640000 ![1, 0] (x1) slices_S2x640000_S1x640000_1_0
abbrev idx_main_v2 (i : S1x640000.Idx) : S2x640000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (i : S1x640000.Idx) :
    val_main_v2 (F := F) x1 i = x1 (idx_main_v2 i) := by
  unfold val_main_v2
  exact extractStridedSlice_apply ![1, 0] x1 slices_S2x640000_S1x640000_1_0 i (idx_main_v2 i) (fun a => match a with
    | ⟨0, _⟩ => by show 1 + (i 0).val = 1 + (i 0).val; omega
    | ⟨1, _⟩ => by show (i 1).val = 0 + (i 1).val; omega)

def val_main_v3 : (⟨S640000, .i32⟩ : BufTy).Contents (Elt F) :=
  shapeCast _ (val_main_v2 (F := F) x1) shapeCasts_S1x640000_S640000
abbrev idx_main_v3 := idx_shapeCasts_S1x640000_S640000
theorem val_main_v3_apply (i : S640000.Idx) :
    val_main_v3 (F := F) x1 i = val_main_v2 (F := F) x1 (idx_main_v3 i) :=
  shapeCasts_S1x640000_S640000_apply _ i
end

namespace Layer

variable (h : (⟨S100000x128, .f32⟩ : BufTy).Contents (Elt F)) (x1 : (⟨S2x640000, .i32⟩ : BufTy).Contents (Elt F)) (x2 : (⟨S640000x128, .f32⟩ : BufTy).Contents (Elt F)) (W : (⟨S1x128x128, .f32⟩ : BufTy).Contents (Elt F)) (eps : (⟨S1, .f32⟩ : BufTy).Contents (Elt F)) (g : (⟨S1x128, .f32⟩ : BufTy).Contents (Elt F)) (b : (⟨S1x128, .f32⟩ : BufTy).Contents (Elt F))

def c_7 : (⟨S_, .i32⟩ : BufTy).Contents (Elt F) :=
  constantI S_ 32 0#32
theorem c_7_apply (i : S_.Idx) :
    c_7 (F := F) i = 0#32 := rfl

def v56 : (⟨S640000, .i32⟩ : BufTy).Contents (Elt F) :=
  broadcastInDim S640000 ![] bcast_S_S640000 (c_7 (F := F))
abbrev idx_v56 := idx_bcast_S_S640000
theorem v56_apply (i : S640000.Idx) :
    v56 (F := F) i = c_7 (F := F) (idx_v56 i) :=
  bcast_S_S640000_apply _ i

def v57 : (⟨S640000, .i1⟩ : BufTy).Contents (Elt F) :=
  cmpi .slt (val_main_v1 (F := F) x1) (v56 (F := F))
theorem v57_apply (i : S640000.Idx) :
    v57 (F := F) x1 i = IntOp.cmpi .slt (val_main_v1 (F := F) x1 i) (v56 (F := F) i) := rfl

def c_8 : (⟨S_, .i32⟩ : BufTy).Contents (Elt F) :=
  constantI S_ 32 100000#32
theorem c_8_apply (i : S_.Idx) :
    c_8 (F := F) i = 100000#32 := rfl

def v58 : (⟨S640000, .i32⟩ : BufTy).Contents (Elt F) :=
  broadcastInDim S640000 ![] bcast_S_S640000 (c_8 (F := F))
abbrev idx_v58 := idx_bcast_S_S640000
theorem v58_apply (i : S640000.Idx) :
    v58 (F := F) i = c_8 (F := F) (idx_v58 i) :=
  bcast_S_S640000_apply _ i

def v59 : (⟨S640000, .i32⟩ : BufTy).Contents (Elt F) :=
  addi (val_main_v1 (F := F) x1) (v58 (F := F))
theorem v59_apply (i : S640000.Idx) :
    v59 (F := F) x1 i = IntOp.addi (val_main_v1 (F := F) x1 i) (v58 (F := F) i) := rfl

def v60 : (⟨S640000, .i32⟩ : BufTy).Contents (Elt F) :=
  select (v57 (F := F) x1) (v59 (F := F) x1) (val_main_v1 (F := F) x1)
theorem v60_apply (i : S640000.Idx) :
    v60 (F := F) x1 i = Scalar.select (v57 (F := F) x1 i) (v59 (F := F) x1 i) (val_main_v1 (F := F) x1 i) := rfl

def v61 : (⟨S640000x1, .i32⟩ : BufTy).Contents (Elt F) :=
  broadcastInDim S640000x1 ![0] bcast_S640000_S640000x1_0 (v60 (F := F) x1)
abbrev idx_v61 := idx_bcast_S640000_S640000x1_0
theorem v61_apply (i : S640000x1.Idx) :
    v61 (F := F) x1 i = v60 (F := F) x1 (idx_v61 i) :=
  bcast_S640000_S640000x1_0_apply _ i

def v62 : (⟨S640000x128, .f32⟩ : BufTy).Contents (Elt F) :=
  Host.gather gather_S100000x128_S640000x1_S640000x128_1_0_n_n_0_1_1128 h (v61 (F := F) x1)

def v63 : (⟨S640000x128, .f32⟩ : BufTy).Contents (Elt F) :=
  addf (v62 (F := F) h x1) (x2)
theorem v63_apply (i : S640000x128.Idx) :
    v63 (F := F) h x1 x2 i = FloatOps.addf (v62 (F := F) h x1 i) (x2 i) := rfl

def call2_cst : (⟨S_, .f32⟩ : BufTy).Contents (Elt F) :=
  constant S_ .f32 0x00000000#32
theorem call2_cst_apply (i : S_.Idx) :
    call2_cst (F := F) i = FloatOps.ofBits .f32 0x00000000#32 := rfl

def call2_v0 : (⟨S640000x128, .f32⟩ : BufTy).Contents (Elt F) :=
  broadcastInDim S640000x128 ![] bcast_S_S640000x128 (call2_cst (F := F))
abbrev idx_call2_v0 := idx_bcast_S_S640000x128
theorem call2_v0_apply (i : S640000x128.Idx) :
    call2_v0 (F := F) i = call2_cst (F := F) (idx_call2_v0 i) :=
  bcast_S_S640000x128_apply _ i

def v64 : (⟨S640000x128, .f32⟩ : BufTy).Contents (Elt F) :=
  maximumf (v63 (F := F) h x1 x2) (call2_v0 (F := F))
theorem v64_apply (i : S640000x128.Idx) :
    v64 (F := F) h x1 x2 i = FloatOps.maximumf (v63 (F := F) h x1 x2 i) (call2_v0 (F := F) i) := rfl

def cst_9 : (⟨S_, .f32⟩ : BufTy).Contents (Elt F) :=
  constant S_ .f32 0x00000000#32
theorem cst_9_apply (i : S_.Idx) :
    cst_9 (F := F) i = FloatOps.ofBits .f32 0x00000000#32 := rfl

def v65 : (⟨S100000x128, .f32⟩ : BufTy).Contents (Elt F) :=
  broadcastInDim S100000x128 ![] bcast_S_S100000x128 (cst_9 (F := F))
abbrev idx_v65 := idx_bcast_S_S100000x128
theorem v65_apply (i : S100000x128.Idx) :
    v65 (F := F) i = cst_9 (F := F) (idx_v65 i) :=
  bcast_S_S100000x128_apply _ i

def v66 : (⟨S640000x1, .i32⟩ : BufTy).Contents (Elt F) :=
  broadcastInDim S640000x1 ![0] bcast_S640000_S640000x1_0 (val_main_v3 (F := F) x1)
abbrev idx_v66 := idx_bcast_S640000_S640000x1_0
theorem v66_apply (i : S640000x1.Idx) :
    v66 (F := F) x1 i = val_main_v3 (F := F) x1 (idx_v66 i) :=
  bcast_S640000_S640000x1_0_apply _ i

def v67 : (⟨S100000x128, .f32⟩ : BufTy).Contents (Elt F) :=
  Host.scatterAdd scatter_S100000x128_S640000x1_S640000x128_1_0_0_1 (v65 (F := F)) (v66 (F := F) x1) (v64 (F := F) h x1 x2)

def v69 : (⟨S_, .f32⟩ : BufTy).Contents (Elt F) :=
  shapeCast _ eps shapeCasts_S1_S_

def cst_10 : (⟨S_, .f32⟩ : BufTy).Contents (Elt F) :=
  constant S_ .f32 0x3F800000#32
theorem cst_10_apply (i : S_.Idx) :
    cst_10 (F := F) i = FloatOps.ofBits .f32 0x3F800000#32 := rfl

def v70 : (⟨S_, .f32⟩ : BufTy).Contents (Elt F) :=
  addf (cst_10 (F := F)) (v69 (F := F) eps)
theorem v70_apply (i : S_.Idx) :
    v70 (F := F) eps i = FloatOps.addf (cst_10 (F := F) i) (v69 (F := F) eps i) := rfl

def v71 : (⟨S100000x128, .f32⟩ : BufTy).Contents (Elt F) :=
  broadcastInDim S100000x128 ![] bcast_S_S100000x128 (v70 (F := F) eps)
abbrev idx_v71 := idx_bcast_S_S100000x128
theorem v71_apply (i : S100000x128.Idx) :
    v71 (F := F) eps i = v70 (F := F) eps (idx_v71 i) :=
  bcast_S_S100000x128_apply _ i

def v72 : (⟨S100000x128, .f32⟩ : BufTy).Contents (Elt F) :=
  mulf (v71 (F := F) eps) h
theorem v72_apply (i : S100000x128.Idx) :
    v72 (F := F) h eps i = FloatOps.mulf (v71 (F := F) eps i) (h i) := rfl

def v73 : (⟨S100000x128, .f32⟩ : BufTy).Contents (Elt F) :=
  addf (v72 (F := F) h eps) (v67 (F := F) h x1 x2)
theorem v73_apply (i : S100000x128.Idx) :
    v73 (F := F) h x1 x2 eps i = FloatOps.addf (v72 (F := F) h eps i) (v67 (F := F) h x1 x2 i) := rfl

def v75 : (⟨S128x128, .f32⟩ : BufTy).Contents (Elt F) :=
  shapeCast _ W shapeCasts_S1x128x128_S128x128
abbrev idx_v75 := idx_shapeCasts_S1x128x128_S128x128
theorem v75_apply (i : S128x128.Idx) :
    v75 (F := F) W i = W (idx_v75 i) :=
  shapeCasts_S1x128x128_S128x128_apply _ i

def v76 : (⟨S100000x128, .f32⟩ : BufTy).Contents (Elt F) :=
  Host.dotGeneral dot_S100000x128_S128x128_S100000x128_1_0_0_1_n_n none (v73 (F := F) h x1 x2 eps) (v75 (F := F) W)
abbrev lidx_v76 := lidx_dot_S100000x128_S128x128_S100000x128_1_0_0_1_n_n
abbrev ridx_v76 := ridx_dot_S100000x128_S128x128_S100000x128_1_0_0_1_n_n
theorem v76_apply (h : (⟨S100000x128, .f32⟩ : BufTy).Contents (Elt Ideal)) (x1 : (⟨S2x640000, .i32⟩ : BufTy).Contents (Elt Ideal)) (x2 : (⟨S640000x128, .f32⟩ : BufTy).Contents (Elt Ideal)) (W : (⟨S1x128x128, .f32⟩ : BufTy).Contents (Elt Ideal)) (eps : (⟨S1, .f32⟩ : BufTy).Contents (Elt Ideal)) (i : S100000x128.Idx) :
    v76 (F := Ideal) h x1 x2 W eps i = ∑ k : Fin 128, (v73 (F := Ideal) h x1 x2 eps) (lidx_v76 i k) * (v75 (F := Ideal) W) (ridx_v76 i k) :=
  dot_S100000x128_S128x128_S100000x128_1_0_0_1_n_n_apply _ _ i

def cst_11 : (⟨S_, .f32⟩ : BufTy).Contents (Elt F) :=
  constant S_ .f32 0x00000000#32
theorem cst_11_apply (i : S_.Idx) :
    cst_11 (F := F) i = FloatOps.ofBits .f32 0x00000000#32 := rfl

def v77 : (⟨S128, .f32⟩ : BufTy).Contents (Elt F) :=
  Host.reduceAdd (v76 (F := F) h x1 x2 W eps) (cst_11 (F := F)) reducesTo_S100000x128_S128_d0 h_S_
abbrev idx_v77 := idx_reducesTo_S100000x128_S128_d0
theorem v77_apply (h : (⟨S100000x128, .f32⟩ : BufTy).Contents (Elt Ideal)) (x1 : (⟨S2x640000, .i32⟩ : BufTy).Contents (Elt Ideal)) (x2 : (⟨S640000x128, .f32⟩ : BufTy).Contents (Elt Ideal)) (W : (⟨S1x128x128, .f32⟩ : BufTy).Contents (Elt Ideal)) (eps : (⟨S1, .f32⟩ : BufTy).Contents (Elt Ideal)) (i : S128.Idx) :
    v77 (F := Ideal) h x1 x2 W eps i = (cst_11 (F := Ideal)) (Shape.Idx.first h_S_) + ∑ k : Fin 100000, (v76 (F := Ideal) h x1 x2 W eps) (idx_v77 i k) :=
  reducesTo_S100000x128_S128_d0_apply _ _ i

def cst_12 : (⟨S_, .f32⟩ : BufTy).Contents (Elt F) :=
  constant S_ .f32 0x47C35000#32
theorem cst_12_apply (i : S_.Idx) :
    cst_12 (F := F) i = FloatOps.ofBits .f32 0x47C35000#32 := rfl

def v78 : (⟨S128, .f32⟩ : BufTy).Contents (Elt F) :=
  broadcastInDim S128 ![] bcast_S_S128 (cst_12 (F := F))
abbrev idx_v78 := idx_bcast_S_S128
theorem v78_apply (i : S128.Idx) :
    v78 (F := F) i = cst_12 (F := F) (idx_v78 i) :=
  bcast_S_S128_apply _ i

def v79 : (⟨S128, .f32⟩ : BufTy).Contents (Elt F) :=
  Host.divf (v77 (F := F) h x1 x2 W eps) (v78 (F := F))
theorem v79_apply (i : S128.Idx) :
    v79 (F := F) h x1 x2 W eps i = FloatOps.hostDivf (v77 (F := F) h x1 x2 W eps i) (v78 (F := F) i) := rfl

def v80 : (⟨S1x128, .f32⟩ : BufTy).Contents (Elt F) :=
  broadcastInDim S1x128 ![1] bcast_S128_S1x128_1 (v79 (F := F) h x1 x2 W eps)
abbrev idx_v80 := idx_bcast_S128_S1x128_1
theorem v80_apply (i : S1x128.Idx) :
    v80 (F := F) h x1 x2 W eps i = v79 (F := F) h x1 x2 W eps (idx_v80 i) :=
  bcast_S128_S1x128_1_apply _ i

def v81 : (⟨S100000x128, .f32⟩ : BufTy).Contents (Elt F) :=
  broadcastInDim S100000x128 ![0, 1] bcast_S1x128_S100000x128_0_1 (v80 (F := F) h x1 x2 W eps)
abbrev idx_v81 := idx_bcast_S1x128_S100000x128_0_1
theorem v81_apply (i : S100000x128.Idx) :
    v81 (F := F) h x1 x2 W eps i = v80 (F := F) h x1 x2 W eps (idx_v81 i) :=
  bcast_S1x128_S100000x128_0_1_apply _ i

def v82 : (⟨S100000x128, .f32⟩ : BufTy).Contents (Elt F) :=
  subf (v76 (F := F) h x1 x2 W eps) (v81 (F := F) h x1 x2 W eps)
theorem v82_apply (i : S100000x128.Idx) :
    v82 (F := F) h x1 x2 W eps i = FloatOps.subf (v76 (F := F) h x1 x2 W eps i) (v81 (F := F) h x1 x2 W eps i) := rfl

def v83 : (⟨S100000x128, .f32⟩ : BufTy).Contents (Elt F) :=
  mulf (v82 (F := F) h x1 x2 W eps) (v82 (F := F) h x1 x2 W eps)
theorem v83_apply (i : S100000x128.Idx) :
    v83 (F := F) h x1 x2 W eps i = FloatOps.mulf (v82 (F := F) h x1 x2 W eps i) (v82 (F := F) h x1 x2 W eps i) := rfl

def cst_13 : (⟨S_, .f32⟩ : BufTy).Contents (Elt F) :=
  constant S_ .f32 0x00000000#32
theorem cst_13_apply (i : S_.Idx) :
    cst_13 (F := F) i = FloatOps.ofBits .f32 0x00000000#32 := rfl

def v84 : (⟨S128, .f32⟩ : BufTy).Contents (Elt F) :=
  Host.reduceAdd (v83 (F := F) h x1 x2 W eps) (cst_13 (F := F)) reducesTo_S100000x128_S128_d0 h_S_
abbrev idx_v84 := idx_reducesTo_S100000x128_S128_d0
theorem v84_apply (h : (⟨S100000x128, .f32⟩ : BufTy).Contents (Elt Ideal)) (x1 : (⟨S2x640000, .i32⟩ : BufTy).Contents (Elt Ideal)) (x2 : (⟨S640000x128, .f32⟩ : BufTy).Contents (Elt Ideal)) (W : (⟨S1x128x128, .f32⟩ : BufTy).Contents (Elt Ideal)) (eps : (⟨S1, .f32⟩ : BufTy).Contents (Elt Ideal)) (i : S128.Idx) :
    v84 (F := Ideal) h x1 x2 W eps i = (cst_13 (F := Ideal)) (Shape.Idx.first h_S_) + ∑ k : Fin 100000, (v83 (F := Ideal) h x1 x2 W eps) (idx_v84 i k) :=
  reducesTo_S100000x128_S128_d0_apply _ _ i

def cst_14 : (⟨S_, .f32⟩ : BufTy).Contents (Elt F) :=
  constant S_ .f32 0x47C35000#32
theorem cst_14_apply (i : S_.Idx) :
    cst_14 (F := F) i = FloatOps.ofBits .f32 0x47C35000#32 := rfl

def v85 : (⟨S128, .f32⟩ : BufTy).Contents (Elt F) :=
  broadcastInDim S128 ![] bcast_S_S128 (cst_14 (F := F))
abbrev idx_v85 := idx_bcast_S_S128
theorem v85_apply (i : S128.Idx) :
    v85 (F := F) i = cst_14 (F := F) (idx_v85 i) :=
  bcast_S_S128_apply _ i

def v86 : (⟨S128, .f32⟩ : BufTy).Contents (Elt F) :=
  Host.divf (v84 (F := F) h x1 x2 W eps) (v85 (F := F))
theorem v86_apply (i : S128.Idx) :
    v86 (F := F) h x1 x2 W eps i = FloatOps.hostDivf (v84 (F := F) h x1 x2 W eps i) (v85 (F := F) i) := rfl

def v87 : (⟨S1x128, .f32⟩ : BufTy).Contents (Elt F) :=
  broadcastInDim S1x128 ![1] bcast_S128_S1x128_1 (v79 (F := F) h x1 x2 W eps)
abbrev idx_v87 := idx_bcast_S128_S1x128_1
theorem v87_apply (i : S1x128.Idx) :
    v87 (F := F) h x1 x2 W eps i = v79 (F := F) h x1 x2 W eps (idx_v87 i) :=
  bcast_S128_S1x128_1_apply _ i

def v88 : (⟨S100000x128, .f32⟩ : BufTy).Contents (Elt F) :=
  broadcastInDim S100000x128 ![0, 1] bcast_S1x128_S100000x128_0_1 (v87 (F := F) h x1 x2 W eps)
abbrev idx_v88 := idx_bcast_S1x128_S100000x128_0_1
theorem v88_apply (i : S100000x128.Idx) :
    v88 (F := F) h x1 x2 W eps i = v87 (F := F) h x1 x2 W eps (idx_v88 i) :=
  bcast_S1x128_S100000x128_0_1_apply _ i

def v89 : (⟨S100000x128, .f32⟩ : BufTy).Contents (Elt F) :=
  subf (v76 (F := F) h x1 x2 W eps) (v88 (F := F) h x1 x2 W eps)
theorem v89_apply (i : S100000x128.Idx) :
    v89 (F := F) h x1 x2 W eps i = FloatOps.subf (v76 (F := F) h x1 x2 W eps i) (v88 (F := F) h x1 x2 W eps i) := rfl

def cst_15 : (⟨S_, .f32⟩ : BufTy).Contents (Elt F) :=
  constant S_ .f32 0x3727C5AC#32
theorem cst_15_apply (i : S_.Idx) :
    cst_15 (F := F) i = FloatOps.ofBits .f32 0x3727C5AC#32 := rfl

def v90 : (⟨S128, .f32⟩ : BufTy).Contents (Elt F) :=
  broadcastInDim S128 ![] bcast_S_S128 (cst_15 (F := F))
abbrev idx_v90 := idx_bcast_S_S128
theorem v90_apply (i : S128.Idx) :
    v90 (F := F) i = cst_15 (F := F) (idx_v90 i) :=
  bcast_S_S128_apply _ i

def v91 : (⟨S128, .f32⟩ : BufTy).Contents (Elt F) :=
  addf (v86 (F := F) h x1 x2 W eps) (v90 (F := F))
theorem v91_apply (i : S128.Idx) :
    v91 (F := F) h x1 x2 W eps i = FloatOps.addf (v86 (F := F) h x1 x2 W eps i) (v90 (F := F) i) := rfl

def v92 : (⟨S128, .f32⟩ : BufTy).Contents (Elt F) :=
  Host.rsqrt (v91 (F := F) h x1 x2 W eps)
theorem v92_apply (i : S128.Idx) :
    v92 (F := F) h x1 x2 W eps i = FloatOps.hostUnary .rsqrt (v91 (F := F) h x1 x2 W eps i) := rfl

def v93 : (⟨S1x128, .f32⟩ : BufTy).Contents (Elt F) :=
  broadcastInDim S1x128 ![1] bcast_S128_S1x128_1 (v92 (F := F) h x1 x2 W eps)
abbrev idx_v93 := idx_bcast_S128_S1x128_1
theorem v93_apply (i : S1x128.Idx) :
    v93 (F := F) h x1 x2 W eps i = v92 (F := F) h x1 x2 W eps (idx_v93 i) :=
  bcast_S128_S1x128_1_apply _ i

def v94 : (⟨S100000x128, .f32⟩ : BufTy).Contents (Elt F) :=
  broadcastInDim S100000x128 ![0, 1] bcast_S1x128_S100000x128_0_1 (v93 (F := F) h x1 x2 W eps)
abbrev idx_v94 := idx_bcast_S1x128_S100000x128_0_1
theorem v94_apply (i : S100000x128.Idx) :
    v94 (F := F) h x1 x2 W eps i = v93 (F := F) h x1 x2 W eps (idx_v94 i) :=
  bcast_S1x128_S100000x128_0_1_apply _ i

def v95 : (⟨S100000x128, .f32⟩ : BufTy).Contents (Elt F) :=
  mulf (v89 (F := F) h x1 x2 W eps) (v94 (F := F) h x1 x2 W eps)
theorem v95_apply (i : S100000x128.Idx) :
    v95 (F := F) h x1 x2 W eps i = FloatOps.mulf (v89 (F := F) h x1 x2 W eps i) (v94 (F := F) h x1 x2 W eps i) := rfl

def v97 : (⟨S128, .f32⟩ : BufTy).Contents (Elt F) :=
  shapeCast _ g shapeCasts_S1x128_S128
abbrev idx_v97 := idx_shapeCasts_S1x128_S128
theorem v97_apply (i : S128.Idx) :
    v97 (F := F) g i = g (idx_v97 i) :=
  shapeCasts_S1x128_S128_apply _ i

def v98 : (⟨S1x128, .f32⟩ : BufTy).Contents (Elt F) :=
  broadcastInDim S1x128 ![1] bcast_S128_S1x128_1 (v97 (F := F) g)
abbrev idx_v98 := idx_bcast_S128_S1x128_1
theorem v98_apply (i : S1x128.Idx) :
    v98 (F := F) g i = v97 (F := F) g (idx_v98 i) :=
  bcast_S128_S1x128_1_apply _ i

def v99 : (⟨S100000x128, .f32⟩ : BufTy).Contents (Elt F) :=
  broadcastInDim S100000x128 ![0, 1] bcast_S1x128_S100000x128_0_1 (v98 (F := F) g)
abbrev idx_v99 := idx_bcast_S1x128_S100000x128_0_1
theorem v99_apply (i : S100000x128.Idx) :
    v99 (F := F) g i = v98 (F := F) g (idx_v99 i) :=
  bcast_S1x128_S100000x128_0_1_apply _ i

def v100 : (⟨S100000x128, .f32⟩ : BufTy).Contents (Elt F) :=
  mulf (v95 (F := F) h x1 x2 W eps) (v99 (F := F) g)
theorem v100_apply (i : S100000x128.Idx) :
    v100 (F := F) h x1 x2 W eps g i = FloatOps.mulf (v95 (F := F) h x1 x2 W eps i) (v99 (F := F) g i) := rfl

def v102 : (⟨S128, .f32⟩ : BufTy).Contents (Elt F) :=
  shapeCast _ b shapeCasts_S1x128_S128
abbrev idx_v102 := idx_shapeCasts_S1x128_S128
theorem v102_apply (i : S128.Idx) :
    v102 (F := F) b i = b (idx_v102 i) :=
  shapeCasts_S1x128_S128_apply _ i

def v103 : (⟨S1x128, .f32⟩ : BufTy).Contents (Elt F) :=
  broadcastInDim S1x128 ![1] bcast_S128_S1x128_1 (v102 (F := F) b)
abbrev idx_v103 := idx_bcast_S128_S1x128_1
theorem v103_apply (i : S1x128.Idx) :
    v103 (F := F) b i = v102 (F := F) b (idx_v103 i) :=
  bcast_S128_S1x128_1_apply _ i

def v104 : (⟨S100000x128, .f32⟩ : BufTy).Contents (Elt F) :=
  broadcastInDim S100000x128 ![0, 1] bcast_S1x128_S100000x128_0_1 (v103 (F := F) b)
abbrev idx_v104 := idx_bcast_S1x128_S100000x128_0_1
theorem v104_apply (i : S100000x128.Idx) :
    v104 (F := F) b i = v103 (F := F) b (idx_v104 i) :=
  bcast_S1x128_S100000x128_0_1_apply _ i

def v105 : (⟨S100000x128, .f32⟩ : BufTy).Contents (Elt F) :=
  addf (v100 (F := F) h x1 x2 W eps g) (v104 (F := F) b)
theorem v105_apply (i : S100000x128.Idx) :
    v105 (F := F) h x1 x2 W eps g b i = FloatOps.addf (v100 (F := F) h x1 x2 W eps g i) (v104 (F := F) b i) := rfl

def call3_cst : (⟨S_, .f32⟩ : BufTy).Contents (Elt F) :=
  constant S_ .f32 0x00000000#32
theorem call3_cst_apply (i : S_.Idx) :
    call3_cst (F := F) i = FloatOps.ofBits .f32 0x00000000#32 := rfl

def call3_v0 : (⟨S100000x128, .f32⟩ : BufTy).Contents (Elt F) :=
  broadcastInDim S100000x128 ![] bcast_S_S100000x128 (call3_cst (F := F))
abbrev idx_call3_v0 := idx_bcast_S_S100000x128
theorem call3_v0_apply (i : S100000x128.Idx) :
    call3_v0 (F := F) i = call3_cst (F := F) (idx_call3_v0 i) :=
  bcast_S_S100000x128_apply _ i

def v106 : (⟨S100000x128, .f32⟩ : BufTy).Contents (Elt F) :=
  maximumf (v105 (F := F) h x1 x2 W eps g b) (call3_v0 (F := F))
theorem v106_apply (i : S100000x128.Idx) :
    v106 (F := F) h x1 x2 W eps g b i = FloatOps.maximumf (v105 (F := F) h x1 x2 W eps g b i) (call3_v0 (F := F) i) := rfl

def v107 : (⟨S100000x128, .f32⟩ : BufTy).Contents (Elt F) :=
  addf (v106 (F := F) h x1 x2 W eps g b) h
theorem v107_apply (i : S100000x128.Idx) :
    v107 (F := F) h x1 x2 W eps g b i = FloatOps.addf (v106 (F := F) h x1 x2 W eps g b i) (h i) := rfl

end Layer

variable (x0 : (⟨S100000x128, .f32⟩ : BufTy).Contents (Elt F)) (x1 : (⟨S2x640000, .i32⟩ : BufTy).Contents (Elt F)) (x2 : (⟨S640000x128, .f32⟩ : BufTy).Contents (Elt F)) (x3 : (⟨S4x128x128, .f32⟩ : BufTy).Contents (Elt F)) (x4 : (⟨S4, .f32⟩ : BufTy).Contents (Elt F)) (x5 : (⟨S4x128, .f32⟩ : BufTy).Contents (Elt F)) (x6 : (⟨S4x128, .f32⟩ : BufTy).Contents (Elt F)) (x7 : (⟨S128x128, .f32⟩ : BufTy).Contents (Elt F)) (x8 : (⟨S128, .f32⟩ : BufTy).Contents (Elt F))

def val_main_v16 : (⟨S1, .f32⟩ : BufTy).Contents (Elt F) :=
  extractStridedSlice S1 ![0] (x4) slices_S4_S1_0
abbrev idx_main_v16 (i : S1.Idx) : S4.Idx := fun a => match a with
  | ⟨0, _⟩ => ⟨(i 0).val, by have h0 : (i 0).val < 1 := (i 0).isLt; show (i 0).val < 4; omega⟩
theorem val_main_v16_apply (i : S1.Idx) :
    val_main_v16 (F := F) x4 i = x4 (idx_main_v16 i) := by
  unfold val_main_v16
  exact extractStridedSlice_apply ![0] x4 slices_S4_S1_0 i (idx_main_v16 i) (fun a => match a with
    | ⟨0, _⟩ => by show (i 0).val = 0 + (i 0).val; omega)

def val_main_v22 : (⟨S1x128x128, .f32⟩ : BufTy).Contents (Elt F) :=
  extractStridedSlice S1x128x128 ![0, 0, 0] (x3) slices_S4x128x128_S1x128x128_0_0_0
abbrev idx_main_v22 (i : S1x128x128.Idx) : S4x128x128.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v22_apply (i : S1x128x128.Idx) :
    val_main_v22 (F := F) x3 i = x3 (idx_main_v22 i) := by
  unfold val_main_v22
  exact extractStridedSlice_apply ![0, 0, 0] x3 slices_S4x128x128_S1x128x128_0_0_0 i (idx_main_v22 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v44 : (⟨S1x128, .f32⟩ : BufTy).Contents (Elt F) :=
  extractStridedSlice S1x128 ![0, 0] (x5) slices_S4x128_S1x128_0_0
abbrev idx_main_v44 := idx_slices_S4x128_S1x128_0_0
theorem val_main_v44_apply (i : S1x128.Idx) :
    val_main_v44 (F := F) x5 i = x5 (idx_main_v44 i) :=
  slices_S4x128_S1x128_0_0_apply _ i

def val_main_v49 : (⟨S1x128, .f32⟩ : BufTy).Contents (Elt F) :=
  extractStridedSlice S1x128 ![0, 0] (x6) slices_S4x128_S1x128_0_0
abbrev idx_main_v49 := idx_slices_S4x128_S1x128_0_0
theorem val_main_v49_apply (i : S1x128.Idx) :
    val_main_v49 (F := F) x6 i = x6 (idx_main_v49 i) :=
  slices_S4x128_S1x128_0_0_apply _ i

def val_main_c := Layer.c_7 (F := F)
def val_main_v4 := Layer.v56 (F := F)
def val_main_v5 := Layer.v57 (F := F) x1
def val_main_c_0 := Layer.c_8 (F := F)
def val_main_v6 := Layer.v58 (F := F)
def val_main_v7 := Layer.v59 (F := F) x1
def val_main_v8 := Layer.v60 (F := F) x1
def val_main_v9 := Layer.v61 (F := F) x1
def val_main_v10 := Layer.v62 (F := F) x0 x1
def val_main_v11 := Layer.v63 (F := F) x0 x1 x2
def val_main_call0_cst := Layer.call2_cst (F := F)
def val_main_call0_v0 := Layer.call2_v0 (F := F)
def val_main_v12 := Layer.v64 (F := F) x0 x1 x2
def val_main_cst := Layer.cst_9 (F := F)
def val_main_v13 := Layer.v65 (F := F)
def val_main_v14 := Layer.v66 (F := F) x1
def val_main_v15 := Layer.v67 (F := F) x0 x1 x2
def val_main_v17 := Layer.v69 (F := F) (val_main_v16 (F := F) x4)
def val_main_cst_1 := Layer.cst_10 (F := F)
def val_main_v18 := Layer.v70 (F := F) (val_main_v16 (F := F) x4)
def val_main_v19 := Layer.v71 (F := F) (val_main_v16 (F := F) x4)
def val_main_v20 := Layer.v72 (F := F) x0 (val_main_v16 (F := F) x4)
def val_main_v21 := Layer.v73 (F := F) x0 x1 x2 (val_main_v16 (F := F) x4)
def val_main_v23 := Layer.v75 (F := F) (val_main_v22 (F := F) x3)
def val_main_v24 := Layer.v76 (F := F) x0 x1 x2 (val_main_v22 (F := F) x3) (val_main_v16 (F := F) x4)
def val_main_cst_2 := Layer.cst_11 (F := F)
def val_main_v25 := Layer.v77 (F := F) x0 x1 x2 (val_main_v22 (F := F) x3) (val_main_v16 (F := F) x4)
def val_main_cst_3 := Layer.cst_12 (F := F)
def val_main_v26 := Layer.v78 (F := F)
def val_main_v27 := Layer.v79 (F := F) x0 x1 x2 (val_main_v22 (F := F) x3) (val_main_v16 (F := F) x4)
def val_main_v28 := Layer.v80 (F := F) x0 x1 x2 (val_main_v22 (F := F) x3) (val_main_v16 (F := F) x4)
def val_main_v29 := Layer.v81 (F := F) x0 x1 x2 (val_main_v22 (F := F) x3) (val_main_v16 (F := F) x4)
def val_main_v30 := Layer.v82 (F := F) x0 x1 x2 (val_main_v22 (F := F) x3) (val_main_v16 (F := F) x4)
def val_main_v31 := Layer.v83 (F := F) x0 x1 x2 (val_main_v22 (F := F) x3) (val_main_v16 (F := F) x4)
def val_main_cst_4 := Layer.cst_13 (F := F)
def val_main_v32 := Layer.v84 (F := F) x0 x1 x2 (val_main_v22 (F := F) x3) (val_main_v16 (F := F) x4)
def val_main_cst_5 := Layer.cst_14 (F := F)
def val_main_v33 := Layer.v85 (F := F)
def val_main_v34 := Layer.v86 (F := F) x0 x1 x2 (val_main_v22 (F := F) x3) (val_main_v16 (F := F) x4)
def val_main_v35 := Layer.v87 (F := F) x0 x1 x2 (val_main_v22 (F := F) x3) (val_main_v16 (F := F) x4)
def val_main_v36 := Layer.v88 (F := F) x0 x1 x2 (val_main_v22 (F := F) x3) (val_main_v16 (F := F) x4)
def val_main_v37 := Layer.v89 (F := F) x0 x1 x2 (val_main_v22 (F := F) x3) (val_main_v16 (F := F) x4)
def val_main_cst_6 := Layer.cst_15 (F := F)
def val_main_v38 := Layer.v90 (F := F)
def val_main_v39 := Layer.v91 (F := F) x0 x1 x2 (val_main_v22 (F := F) x3) (val_main_v16 (F := F) x4)
def val_main_v40 := Layer.v92 (F := F) x0 x1 x2 (val_main_v22 (F := F) x3) (val_main_v16 (F := F) x4)
def val_main_v41 := Layer.v93 (F := F) x0 x1 x2 (val_main_v22 (F := F) x3) (val_main_v16 (F := F) x4)
def val_main_v42 := Layer.v94 (F := F) x0 x1 x2 (val_main_v22 (F := F) x3) (val_main_v16 (F := F) x4)
def val_main_v43 := Layer.v95 (F := F) x0 x1 x2 (val_main_v22 (F := F) x3) (val_main_v16 (F := F) x4)
def val_main_v45 := Layer.v97 (F := F) (val_main_v44 (F := F) x5)
def val_main_v46 := Layer.v98 (F := F) (val_main_v44 (F := F) x5)
def val_main_v47 := Layer.v99 (F := F) (val_main_v44 (F := F) x5)
def val_main_v48 := Layer.v100 (F := F) x0 x1 x2 (val_main_v22 (F := F) x3) (val_main_v16 (F := F) x4) (val_main_v44 (F := F) x5)
def val_main_v50 := Layer.v102 (F := F) (val_main_v49 (F := F) x6)
def val_main_v51 := Layer.v103 (F := F) (val_main_v49 (F := F) x6)
def val_main_v52 := Layer.v104 (F := F) (val_main_v49 (F := F) x6)
def val_main_v53 := Layer.v105 (F := F) x0 x1 x2 (val_main_v22 (F := F) x3) (val_main_v16 (F := F) x4) (val_main_v44 (F := F) x5) (val_main_v49 (F := F) x6)
def val_main_call1_cst := Layer.call3_cst (F := F)
def val_main_call1_v0 := Layer.call3_v0 (F := F)
def val_main_v54 := Layer.v106 (F := F) x0 x1 x2 (val_main_v22 (F := F) x3) (val_main_v16 (F := F) x4) (val_main_v44 (F := F) x5) (val_main_v49 (F := F) x6)
def val_main_v55 := Layer.v107 (F := F) x0 x1 x2 (val_main_v22 (F := F) x3) (val_main_v16 (F := F) x4) (val_main_v44 (F := F) x5) (val_main_v49 (F := F) x6)

def val_main_v68 : (⟨S1, .f32⟩ : BufTy).Contents (Elt F) :=
  extractStridedSlice S1 ![1] (x4) slices_S4_S1_1
abbrev idx_main_v68 (i : S1.Idx) : S4.Idx := fun a => match a with
  | ⟨0, _⟩ => ⟨1 + (i 0).val, by have h0 : (i 0).val < 1 := (i 0).isLt; show 1 + (i 0).val < 4; omega⟩
theorem val_main_v68_apply (i : S1.Idx) :
    val_main_v68 (F := F) x4 i = x4 (idx_main_v68 i) := by
  unfold val_main_v68
  exact extractStridedSlice_apply ![1] x4 slices_S4_S1_1 i (idx_main_v68 i) (fun a => match a with
    | ⟨0, _⟩ => by show 1 + (i 0).val = 1 + (i 0).val; omega)

def val_main_v74 : (⟨S1x128x128, .f32⟩ : BufTy).Contents (Elt F) :=
  extractStridedSlice S1x128x128 ![1, 0, 0] (x3) slices_S4x128x128_S1x128x128_1_0_0
abbrev idx_main_v74 (i : S1x128x128.Idx) : S4x128x128.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩
theorem val_main_v74_apply (i : S1x128x128.Idx) :
    val_main_v74 (F := F) x3 i = x3 (idx_main_v74 i) := by
  unfold val_main_v74
  exact extractStridedSlice_apply ![1, 0, 0] x3 slices_S4x128x128_S1x128x128_1_0_0 i (idx_main_v74 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v96 : (⟨S1x128, .f32⟩ : BufTy).Contents (Elt F) :=
  extractStridedSlice S1x128 ![1, 0] (x5) slices_S4x128_S1x128_1_0
abbrev idx_main_v96 := idx_slices_S4x128_S1x128_1_0
theorem val_main_v96_apply (i : S1x128.Idx) :
    val_main_v96 (F := F) x5 i = x5 (idx_main_v96 i) :=
  slices_S4x128_S1x128_1_0_apply _ i

def val_main_v101 : (⟨S1x128, .f32⟩ : BufTy).Contents (Elt F) :=
  extractStridedSlice S1x128 ![1, 0] (x6) slices_S4x128_S1x128_1_0
abbrev idx_main_v101 := idx_slices_S4x128_S1x128_1_0
theorem val_main_v101_apply (i : S1x128.Idx) :
    val_main_v101 (F := F) x6 i = x6 (idx_main_v101 i) :=
  slices_S4x128_S1x128_1_0_apply _ i

def val_main_c_7 := Layer.c_7 (F := F)
def val_main_v56 := Layer.v56 (F := F)
def val_main_v57 := Layer.v57 (F := F) x1
def val_main_c_8 := Layer.c_8 (F := F)
def val_main_v58 := Layer.v58 (F := F)
def val_main_v59 := Layer.v59 (F := F) x1
def val_main_v60 := Layer.v60 (F := F) x1
def val_main_v61 := Layer.v61 (F := F) x1
def val_main_v62 := Layer.v62 (F := F) (val_main_v55 (F := F) x0 x1 x2 x3 x4 x5 x6) x1
def val_main_v63 := Layer.v63 (F := F) (val_main_v55 (F := F) x0 x1 x2 x3 x4 x5 x6) x1 x2
def val_main_call2_cst := Layer.call2_cst (F := F)
def val_main_call2_v0 := Layer.call2_v0 (F := F)
def val_main_v64 := Layer.v64 (F := F) (val_main_v55 (F := F) x0 x1 x2 x3 x4 x5 x6) x1 x2
def val_main_cst_9 := Layer.cst_9 (F := F)
def val_main_v65 := Layer.v65 (F := F)
def val_main_v66 := Layer.v66 (F := F) x1
def val_main_v67 := Layer.v67 (F := F) (val_main_v55 (F := F) x0 x1 x2 x3 x4 x5 x6) x1 x2
def val_main_v69 := Layer.v69 (F := F) (val_main_v68 (F := F) x4)
def val_main_cst_10 := Layer.cst_10 (F := F)
def val_main_v70 := Layer.v70 (F := F) (val_main_v68 (F := F) x4)
def val_main_v71 := Layer.v71 (F := F) (val_main_v68 (F := F) x4)
def val_main_v72 := Layer.v72 (F := F) (val_main_v55 (F := F) x0 x1 x2 x3 x4 x5 x6) (val_main_v68 (F := F) x4)
def val_main_v73 := Layer.v73 (F := F) (val_main_v55 (F := F) x0 x1 x2 x3 x4 x5 x6) x1 x2 (val_main_v68 (F := F) x4)
def val_main_v75 := Layer.v75 (F := F) (val_main_v74 (F := F) x3)
def val_main_v76 := Layer.v76 (F := F) (val_main_v55 (F := F) x0 x1 x2 x3 x4 x5 x6) x1 x2 (val_main_v74 (F := F) x3) (val_main_v68 (F := F) x4)
def val_main_cst_11 := Layer.cst_11 (F := F)
def val_main_v77 := Layer.v77 (F := F) (val_main_v55 (F := F) x0 x1 x2 x3 x4 x5 x6) x1 x2 (val_main_v74 (F := F) x3) (val_main_v68 (F := F) x4)
def val_main_cst_12 := Layer.cst_12 (F := F)
def val_main_v78 := Layer.v78 (F := F)
def val_main_v79 := Layer.v79 (F := F) (val_main_v55 (F := F) x0 x1 x2 x3 x4 x5 x6) x1 x2 (val_main_v74 (F := F) x3) (val_main_v68 (F := F) x4)
def val_main_v80 := Layer.v80 (F := F) (val_main_v55 (F := F) x0 x1 x2 x3 x4 x5 x6) x1 x2 (val_main_v74 (F := F) x3) (val_main_v68 (F := F) x4)
def val_main_v81 := Layer.v81 (F := F) (val_main_v55 (F := F) x0 x1 x2 x3 x4 x5 x6) x1 x2 (val_main_v74 (F := F) x3) (val_main_v68 (F := F) x4)
def val_main_v82 := Layer.v82 (F := F) (val_main_v55 (F := F) x0 x1 x2 x3 x4 x5 x6) x1 x2 (val_main_v74 (F := F) x3) (val_main_v68 (F := F) x4)
def val_main_v83 := Layer.v83 (F := F) (val_main_v55 (F := F) x0 x1 x2 x3 x4 x5 x6) x1 x2 (val_main_v74 (F := F) x3) (val_main_v68 (F := F) x4)
def val_main_cst_13 := Layer.cst_13 (F := F)
def val_main_v84 := Layer.v84 (F := F) (val_main_v55 (F := F) x0 x1 x2 x3 x4 x5 x6) x1 x2 (val_main_v74 (F := F) x3) (val_main_v68 (F := F) x4)
def val_main_cst_14 := Layer.cst_14 (F := F)
def val_main_v85 := Layer.v85 (F := F)
def val_main_v86 := Layer.v86 (F := F) (val_main_v55 (F := F) x0 x1 x2 x3 x4 x5 x6) x1 x2 (val_main_v74 (F := F) x3) (val_main_v68 (F := F) x4)
def val_main_v87 := Layer.v87 (F := F) (val_main_v55 (F := F) x0 x1 x2 x3 x4 x5 x6) x1 x2 (val_main_v74 (F := F) x3) (val_main_v68 (F := F) x4)
def val_main_v88 := Layer.v88 (F := F) (val_main_v55 (F := F) x0 x1 x2 x3 x4 x5 x6) x1 x2 (val_main_v74 (F := F) x3) (val_main_v68 (F := F) x4)
def val_main_v89 := Layer.v89 (F := F) (val_main_v55 (F := F) x0 x1 x2 x3 x4 x5 x6) x1 x2 (val_main_v74 (F := F) x3) (val_main_v68 (F := F) x4)
def val_main_cst_15 := Layer.cst_15 (F := F)
def val_main_v90 := Layer.v90 (F := F)
def val_main_v91 := Layer.v91 (F := F) (val_main_v55 (F := F) x0 x1 x2 x3 x4 x5 x6) x1 x2 (val_main_v74 (F := F) x3) (val_main_v68 (F := F) x4)
def val_main_v92 := Layer.v92 (F := F) (val_main_v55 (F := F) x0 x1 x2 x3 x4 x5 x6) x1 x2 (val_main_v74 (F := F) x3) (val_main_v68 (F := F) x4)
def val_main_v93 := Layer.v93 (F := F) (val_main_v55 (F := F) x0 x1 x2 x3 x4 x5 x6) x1 x2 (val_main_v74 (F := F) x3) (val_main_v68 (F := F) x4)
def val_main_v94 := Layer.v94 (F := F) (val_main_v55 (F := F) x0 x1 x2 x3 x4 x5 x6) x1 x2 (val_main_v74 (F := F) x3) (val_main_v68 (F := F) x4)
def val_main_v95 := Layer.v95 (F := F) (val_main_v55 (F := F) x0 x1 x2 x3 x4 x5 x6) x1 x2 (val_main_v74 (F := F) x3) (val_main_v68 (F := F) x4)
def val_main_v97 := Layer.v97 (F := F) (val_main_v96 (F := F) x5)
def val_main_v98 := Layer.v98 (F := F) (val_main_v96 (F := F) x5)
def val_main_v99 := Layer.v99 (F := F) (val_main_v96 (F := F) x5)
def val_main_v100 := Layer.v100 (F := F) (val_main_v55 (F := F) x0 x1 x2 x3 x4 x5 x6) x1 x2 (val_main_v74 (F := F) x3) (val_main_v68 (F := F) x4) (val_main_v96 (F := F) x5)
def val_main_v102 := Layer.v102 (F := F) (val_main_v101 (F := F) x6)
def val_main_v103 := Layer.v103 (F := F) (val_main_v101 (F := F) x6)
def val_main_v104 := Layer.v104 (F := F) (val_main_v101 (F := F) x6)
def val_main_v105 := Layer.v105 (F := F) (val_main_v55 (F := F) x0 x1 x2 x3 x4 x5 x6) x1 x2 (val_main_v74 (F := F) x3) (val_main_v68 (F := F) x4) (val_main_v96 (F := F) x5) (val_main_v101 (F := F) x6)
def val_main_call3_cst := Layer.call3_cst (F := F)
def val_main_call3_v0 := Layer.call3_v0 (F := F)
def val_main_v106 := Layer.v106 (F := F) (val_main_v55 (F := F) x0 x1 x2 x3 x4 x5 x6) x1 x2 (val_main_v74 (F := F) x3) (val_main_v68 (F := F) x4) (val_main_v96 (F := F) x5) (val_main_v101 (F := F) x6)
def val_main_v107 := Layer.v107 (F := F) (val_main_v55 (F := F) x0 x1 x2 x3 x4 x5 x6) x1 x2 (val_main_v74 (F := F) x3) (val_main_v68 (F := F) x4) (val_main_v96 (F := F) x5) (val_main_v101 (F := F) x6)

def val_main_v120 : (⟨S1, .f32⟩ : BufTy).Contents (Elt F) :=
  extractStridedSlice S1 ![2] (x4) slices_S4_S1_2
abbrev idx_main_v120 (i : S1.Idx) : S4.Idx := fun a => match a with
  | ⟨0, _⟩ => ⟨2 + (i 0).val, by have h0 : (i 0).val < 1 := (i 0).isLt; show 2 + (i 0).val < 4; omega⟩
theorem val_main_v120_apply (i : S1.Idx) :
    val_main_v120 (F := F) x4 i = x4 (idx_main_v120 i) := by
  unfold val_main_v120
  exact extractStridedSlice_apply ![2] x4 slices_S4_S1_2 i (idx_main_v120 i) (fun a => match a with
    | ⟨0, _⟩ => by show 2 + (i 0).val = 2 + (i 0).val; omega)

def val_main_v126 : (⟨S1x128x128, .f32⟩ : BufTy).Contents (Elt F) :=
  extractStridedSlice S1x128x128 ![2, 0, 0] (x3) slices_S4x128x128_S1x128x128_2_0_0
abbrev idx_main_v126 (i : S1x128x128.Idx) : S4x128x128.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩
theorem val_main_v126_apply (i : S1x128x128.Idx) :
    val_main_v126 (F := F) x3 i = x3 (idx_main_v126 i) := by
  unfold val_main_v126
  exact extractStridedSlice_apply ![2, 0, 0] x3 slices_S4x128x128_S1x128x128_2_0_0 i (idx_main_v126 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v148 : (⟨S1x128, .f32⟩ : BufTy).Contents (Elt F) :=
  extractStridedSlice S1x128 ![2, 0] (x5) slices_S4x128_S1x128_2_0
abbrev idx_main_v148 := idx_slices_S4x128_S1x128_2_0
theorem val_main_v148_apply (i : S1x128.Idx) :
    val_main_v148 (F := F) x5 i = x5 (idx_main_v148 i) :=
  slices_S4x128_S1x128_2_0_apply _ i

def val_main_v153 : (⟨S1x128, .f32⟩ : BufTy).Contents (Elt F) :=
  extractStridedSlice S1x128 ![2, 0] (x6) slices_S4x128_S1x128_2_0
abbrev idx_main_v153 := idx_slices_S4x128_S1x128_2_0
theorem val_main_v153_apply (i : S1x128.Idx) :
    val_main_v153 (F := F) x6 i = x6 (idx_main_v153 i) :=
  slices_S4x128_S1x128_2_0_apply _ i

def val_main_c_16 := Layer.c_7 (F := F)
def val_main_v108 := Layer.v56 (F := F)
def val_main_v109 := Layer.v57 (F := F) x1
def val_main_c_17 := Layer.c_8 (F := F)
def val_main_v110 := Layer.v58 (F := F)
def val_main_v111 := Layer.v59 (F := F) x1
def val_main_v112 := Layer.v60 (F := F) x1
def val_main_v113 := Layer.v61 (F := F) x1
def val_main_v114 := Layer.v62 (F := F) (val_main_v107 (F := F) x0 x1 x2 x3 x4 x5 x6) x1
def val_main_v115 := Layer.v63 (F := F) (val_main_v107 (F := F) x0 x1 x2 x3 x4 x5 x6) x1 x2
def val_main_call4_cst := Layer.call2_cst (F := F)
def val_main_call4_v0 := Layer.call2_v0 (F := F)
def val_main_v116 := Layer.v64 (F := F) (val_main_v107 (F := F) x0 x1 x2 x3 x4 x5 x6) x1 x2
def val_main_cst_18 := Layer.cst_9 (F := F)
def val_main_v117 := Layer.v65 (F := F)
def val_main_v118 := Layer.v66 (F := F) x1
def val_main_v119 := Layer.v67 (F := F) (val_main_v107 (F := F) x0 x1 x2 x3 x4 x5 x6) x1 x2
def val_main_v121 := Layer.v69 (F := F) (val_main_v120 (F := F) x4)
def val_main_cst_19 := Layer.cst_10 (F := F)
def val_main_v122 := Layer.v70 (F := F) (val_main_v120 (F := F) x4)
def val_main_v123 := Layer.v71 (F := F) (val_main_v120 (F := F) x4)
def val_main_v124 := Layer.v72 (F := F) (val_main_v107 (F := F) x0 x1 x2 x3 x4 x5 x6) (val_main_v120 (F := F) x4)
def val_main_v125 := Layer.v73 (F := F) (val_main_v107 (F := F) x0 x1 x2 x3 x4 x5 x6) x1 x2 (val_main_v120 (F := F) x4)
def val_main_v127 := Layer.v75 (F := F) (val_main_v126 (F := F) x3)
def val_main_v128 := Layer.v76 (F := F) (val_main_v107 (F := F) x0 x1 x2 x3 x4 x5 x6) x1 x2 (val_main_v126 (F := F) x3) (val_main_v120 (F := F) x4)
def val_main_cst_20 := Layer.cst_11 (F := F)
def val_main_v129 := Layer.v77 (F := F) (val_main_v107 (F := F) x0 x1 x2 x3 x4 x5 x6) x1 x2 (val_main_v126 (F := F) x3) (val_main_v120 (F := F) x4)
def val_main_cst_21 := Layer.cst_12 (F := F)
def val_main_v130 := Layer.v78 (F := F)
def val_main_v131 := Layer.v79 (F := F) (val_main_v107 (F := F) x0 x1 x2 x3 x4 x5 x6) x1 x2 (val_main_v126 (F := F) x3) (val_main_v120 (F := F) x4)
def val_main_v132 := Layer.v80 (F := F) (val_main_v107 (F := F) x0 x1 x2 x3 x4 x5 x6) x1 x2 (val_main_v126 (F := F) x3) (val_main_v120 (F := F) x4)
def val_main_v133 := Layer.v81 (F := F) (val_main_v107 (F := F) x0 x1 x2 x3 x4 x5 x6) x1 x2 (val_main_v126 (F := F) x3) (val_main_v120 (F := F) x4)
def val_main_v134 := Layer.v82 (F := F) (val_main_v107 (F := F) x0 x1 x2 x3 x4 x5 x6) x1 x2 (val_main_v126 (F := F) x3) (val_main_v120 (F := F) x4)
def val_main_v135 := Layer.v83 (F := F) (val_main_v107 (F := F) x0 x1 x2 x3 x4 x5 x6) x1 x2 (val_main_v126 (F := F) x3) (val_main_v120 (F := F) x4)
def val_main_cst_22 := Layer.cst_13 (F := F)
def val_main_v136 := Layer.v84 (F := F) (val_main_v107 (F := F) x0 x1 x2 x3 x4 x5 x6) x1 x2 (val_main_v126 (F := F) x3) (val_main_v120 (F := F) x4)
def val_main_cst_23 := Layer.cst_14 (F := F)
def val_main_v137 := Layer.v85 (F := F)
def val_main_v138 := Layer.v86 (F := F) (val_main_v107 (F := F) x0 x1 x2 x3 x4 x5 x6) x1 x2 (val_main_v126 (F := F) x3) (val_main_v120 (F := F) x4)
def val_main_v139 := Layer.v87 (F := F) (val_main_v107 (F := F) x0 x1 x2 x3 x4 x5 x6) x1 x2 (val_main_v126 (F := F) x3) (val_main_v120 (F := F) x4)
def val_main_v140 := Layer.v88 (F := F) (val_main_v107 (F := F) x0 x1 x2 x3 x4 x5 x6) x1 x2 (val_main_v126 (F := F) x3) (val_main_v120 (F := F) x4)
def val_main_v141 := Layer.v89 (F := F) (val_main_v107 (F := F) x0 x1 x2 x3 x4 x5 x6) x1 x2 (val_main_v126 (F := F) x3) (val_main_v120 (F := F) x4)
def val_main_cst_24 := Layer.cst_15 (F := F)
def val_main_v142 := Layer.v90 (F := F)
def val_main_v143 := Layer.v91 (F := F) (val_main_v107 (F := F) x0 x1 x2 x3 x4 x5 x6) x1 x2 (val_main_v126 (F := F) x3) (val_main_v120 (F := F) x4)
def val_main_v144 := Layer.v92 (F := F) (val_main_v107 (F := F) x0 x1 x2 x3 x4 x5 x6) x1 x2 (val_main_v126 (F := F) x3) (val_main_v120 (F := F) x4)
def val_main_v145 := Layer.v93 (F := F) (val_main_v107 (F := F) x0 x1 x2 x3 x4 x5 x6) x1 x2 (val_main_v126 (F := F) x3) (val_main_v120 (F := F) x4)
def val_main_v146 := Layer.v94 (F := F) (val_main_v107 (F := F) x0 x1 x2 x3 x4 x5 x6) x1 x2 (val_main_v126 (F := F) x3) (val_main_v120 (F := F) x4)
def val_main_v147 := Layer.v95 (F := F) (val_main_v107 (F := F) x0 x1 x2 x3 x4 x5 x6) x1 x2 (val_main_v126 (F := F) x3) (val_main_v120 (F := F) x4)
def val_main_v149 := Layer.v97 (F := F) (val_main_v148 (F := F) x5)
def val_main_v150 := Layer.v98 (F := F) (val_main_v148 (F := F) x5)
def val_main_v151 := Layer.v99 (F := F) (val_main_v148 (F := F) x5)
def val_main_v152 := Layer.v100 (F := F) (val_main_v107 (F := F) x0 x1 x2 x3 x4 x5 x6) x1 x2 (val_main_v126 (F := F) x3) (val_main_v120 (F := F) x4) (val_main_v148 (F := F) x5)
def val_main_v154 := Layer.v102 (F := F) (val_main_v153 (F := F) x6)
def val_main_v155 := Layer.v103 (F := F) (val_main_v153 (F := F) x6)
def val_main_v156 := Layer.v104 (F := F) (val_main_v153 (F := F) x6)
def val_main_v157 := Layer.v105 (F := F) (val_main_v107 (F := F) x0 x1 x2 x3 x4 x5 x6) x1 x2 (val_main_v126 (F := F) x3) (val_main_v120 (F := F) x4) (val_main_v148 (F := F) x5) (val_main_v153 (F := F) x6)
def val_main_call5_cst := Layer.call3_cst (F := F)
def val_main_call5_v0 := Layer.call3_v0 (F := F)
def val_main_v158 := Layer.v106 (F := F) (val_main_v107 (F := F) x0 x1 x2 x3 x4 x5 x6) x1 x2 (val_main_v126 (F := F) x3) (val_main_v120 (F := F) x4) (val_main_v148 (F := F) x5) (val_main_v153 (F := F) x6)
def val_main_v159 := Layer.v107 (F := F) (val_main_v107 (F := F) x0 x1 x2 x3 x4 x5 x6) x1 x2 (val_main_v126 (F := F) x3) (val_main_v120 (F := F) x4) (val_main_v148 (F := F) x5) (val_main_v153 (F := F) x6)

def val_main_v172 : (⟨S1, .f32⟩ : BufTy).Contents (Elt F) :=
  extractStridedSlice S1 ![3] (x4) slices_S4_S1_3
abbrev idx_main_v172 (i : S1.Idx) : S4.Idx := fun a => match a with
  | ⟨0, _⟩ => ⟨3 + (i 0).val, by have h0 : (i 0).val < 1 := (i 0).isLt; show 3 + (i 0).val < 4; omega⟩
theorem val_main_v172_apply (i : S1.Idx) :
    val_main_v172 (F := F) x4 i = x4 (idx_main_v172 i) := by
  unfold val_main_v172
  exact extractStridedSlice_apply ![3] x4 slices_S4_S1_3 i (idx_main_v172 i) (fun a => match a with
    | ⟨0, _⟩ => by show 3 + (i 0).val = 3 + (i 0).val; omega)

def val_main_v178 : (⟨S1x128x128, .f32⟩ : BufTy).Contents (Elt F) :=
  extractStridedSlice S1x128x128 ![3, 0, 0] (x3) slices_S4x128x128_S1x128x128_3_0_0
abbrev idx_main_v178 (i : S1x128x128.Idx) : S4x128x128.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩
theorem val_main_v178_apply (i : S1x128x128.Idx) :
    val_main_v178 (F := F) x3 i = x3 (idx_main_v178 i) := by
  unfold val_main_v178
  exact extractStridedSlice_apply ![3, 0, 0] x3 slices_S4x128x128_S1x128x128_3_0_0 i (idx_main_v178 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v200 : (⟨S1x128, .f32⟩ : BufTy).Contents (Elt F) :=
  extractStridedSlice S1x128 ![3, 0] (x5) slices_S4x128_S1x128_3_0
abbrev idx_main_v200 := idx_slices_S4x128_S1x128_3_0
theorem val_main_v200_apply (i : S1x128.Idx) :
    val_main_v200 (F := F) x5 i = x5 (idx_main_v200 i) :=
  slices_S4x128_S1x128_3_0_apply _ i

def val_main_v205 : (⟨S1x128, .f32⟩ : BufTy).Contents (Elt F) :=
  extractStridedSlice S1x128 ![3, 0] (x6) slices_S4x128_S1x128_3_0
abbrev idx_main_v205 := idx_slices_S4x128_S1x128_3_0
theorem val_main_v205_apply (i : S1x128.Idx) :
    val_main_v205 (F := F) x6 i = x6 (idx_main_v205 i) :=
  slices_S4x128_S1x128_3_0_apply _ i

def val_main_c_25 := Layer.c_7 (F := F)
def val_main_v160 := Layer.v56 (F := F)
def val_main_v161 := Layer.v57 (F := F) x1
def val_main_c_26 := Layer.c_8 (F := F)
def val_main_v162 := Layer.v58 (F := F)
def val_main_v163 := Layer.v59 (F := F) x1
def val_main_v164 := Layer.v60 (F := F) x1
def val_main_v165 := Layer.v61 (F := F) x1
def val_main_v166 := Layer.v62 (F := F) (val_main_v159 (F := F) x0 x1 x2 x3 x4 x5 x6) x1
def val_main_v167 := Layer.v63 (F := F) (val_main_v159 (F := F) x0 x1 x2 x3 x4 x5 x6) x1 x2
def val_main_call6_cst := Layer.call2_cst (F := F)
def val_main_call6_v0 := Layer.call2_v0 (F := F)
def val_main_v168 := Layer.v64 (F := F) (val_main_v159 (F := F) x0 x1 x2 x3 x4 x5 x6) x1 x2
def val_main_cst_27 := Layer.cst_9 (F := F)
def val_main_v169 := Layer.v65 (F := F)
def val_main_v170 := Layer.v66 (F := F) x1
def val_main_v171 := Layer.v67 (F := F) (val_main_v159 (F := F) x0 x1 x2 x3 x4 x5 x6) x1 x2
def val_main_v173 := Layer.v69 (F := F) (val_main_v172 (F := F) x4)
def val_main_cst_28 := Layer.cst_10 (F := F)
def val_main_v174 := Layer.v70 (F := F) (val_main_v172 (F := F) x4)
def val_main_v175 := Layer.v71 (F := F) (val_main_v172 (F := F) x4)
def val_main_v176 := Layer.v72 (F := F) (val_main_v159 (F := F) x0 x1 x2 x3 x4 x5 x6) (val_main_v172 (F := F) x4)
def val_main_v177 := Layer.v73 (F := F) (val_main_v159 (F := F) x0 x1 x2 x3 x4 x5 x6) x1 x2 (val_main_v172 (F := F) x4)
def val_main_v179 := Layer.v75 (F := F) (val_main_v178 (F := F) x3)
def val_main_v180 := Layer.v76 (F := F) (val_main_v159 (F := F) x0 x1 x2 x3 x4 x5 x6) x1 x2 (val_main_v178 (F := F) x3) (val_main_v172 (F := F) x4)
def val_main_cst_29 := Layer.cst_11 (F := F)
def val_main_v181 := Layer.v77 (F := F) (val_main_v159 (F := F) x0 x1 x2 x3 x4 x5 x6) x1 x2 (val_main_v178 (F := F) x3) (val_main_v172 (F := F) x4)
def val_main_cst_30 := Layer.cst_12 (F := F)
def val_main_v182 := Layer.v78 (F := F)
def val_main_v183 := Layer.v79 (F := F) (val_main_v159 (F := F) x0 x1 x2 x3 x4 x5 x6) x1 x2 (val_main_v178 (F := F) x3) (val_main_v172 (F := F) x4)
def val_main_v184 := Layer.v80 (F := F) (val_main_v159 (F := F) x0 x1 x2 x3 x4 x5 x6) x1 x2 (val_main_v178 (F := F) x3) (val_main_v172 (F := F) x4)
def val_main_v185 := Layer.v81 (F := F) (val_main_v159 (F := F) x0 x1 x2 x3 x4 x5 x6) x1 x2 (val_main_v178 (F := F) x3) (val_main_v172 (F := F) x4)
def val_main_v186 := Layer.v82 (F := F) (val_main_v159 (F := F) x0 x1 x2 x3 x4 x5 x6) x1 x2 (val_main_v178 (F := F) x3) (val_main_v172 (F := F) x4)
def val_main_v187 := Layer.v83 (F := F) (val_main_v159 (F := F) x0 x1 x2 x3 x4 x5 x6) x1 x2 (val_main_v178 (F := F) x3) (val_main_v172 (F := F) x4)
def val_main_cst_31 := Layer.cst_13 (F := F)
def val_main_v188 := Layer.v84 (F := F) (val_main_v159 (F := F) x0 x1 x2 x3 x4 x5 x6) x1 x2 (val_main_v178 (F := F) x3) (val_main_v172 (F := F) x4)
def val_main_cst_32 := Layer.cst_14 (F := F)
def val_main_v189 := Layer.v85 (F := F)
def val_main_v190 := Layer.v86 (F := F) (val_main_v159 (F := F) x0 x1 x2 x3 x4 x5 x6) x1 x2 (val_main_v178 (F := F) x3) (val_main_v172 (F := F) x4)
def val_main_v191 := Layer.v87 (F := F) (val_main_v159 (F := F) x0 x1 x2 x3 x4 x5 x6) x1 x2 (val_main_v178 (F := F) x3) (val_main_v172 (F := F) x4)
def val_main_v192 := Layer.v88 (F := F) (val_main_v159 (F := F) x0 x1 x2 x3 x4 x5 x6) x1 x2 (val_main_v178 (F := F) x3) (val_main_v172 (F := F) x4)
def val_main_v193 := Layer.v89 (F := F) (val_main_v159 (F := F) x0 x1 x2 x3 x4 x5 x6) x1 x2 (val_main_v178 (F := F) x3) (val_main_v172 (F := F) x4)
def val_main_cst_33 := Layer.cst_15 (F := F)
def val_main_v194 := Layer.v90 (F := F)
def val_main_v195 := Layer.v91 (F := F) (val_main_v159 (F := F) x0 x1 x2 x3 x4 x5 x6) x1 x2 (val_main_v178 (F := F) x3) (val_main_v172 (F := F) x4)
def val_main_v196 := Layer.v92 (F := F) (val_main_v159 (F := F) x0 x1 x2 x3 x4 x5 x6) x1 x2 (val_main_v178 (F := F) x3) (val_main_v172 (F := F) x4)
def val_main_v197 := Layer.v93 (F := F) (val_main_v159 (F := F) x0 x1 x2 x3 x4 x5 x6) x1 x2 (val_main_v178 (F := F) x3) (val_main_v172 (F := F) x4)
def val_main_v198 := Layer.v94 (F := F) (val_main_v159 (F := F) x0 x1 x2 x3 x4 x5 x6) x1 x2 (val_main_v178 (F := F) x3) (val_main_v172 (F := F) x4)
def val_main_v199 := Layer.v95 (F := F) (val_main_v159 (F := F) x0 x1 x2 x3 x4 x5 x6) x1 x2 (val_main_v178 (F := F) x3) (val_main_v172 (F := F) x4)
def val_main_v201 := Layer.v97 (F := F) (val_main_v200 (F := F) x5)
def val_main_v202 := Layer.v98 (F := F) (val_main_v200 (F := F) x5)
def val_main_v203 := Layer.v99 (F := F) (val_main_v200 (F := F) x5)
def val_main_v204 := Layer.v100 (F := F) (val_main_v159 (F := F) x0 x1 x2 x3 x4 x5 x6) x1 x2 (val_main_v178 (F := F) x3) (val_main_v172 (F := F) x4) (val_main_v200 (F := F) x5)
def val_main_v206 := Layer.v102 (F := F) (val_main_v205 (F := F) x6)
def val_main_v207 := Layer.v103 (F := F) (val_main_v205 (F := F) x6)
def val_main_v208 := Layer.v104 (F := F) (val_main_v205 (F := F) x6)
def val_main_v209 := Layer.v105 (F := F) (val_main_v159 (F := F) x0 x1 x2 x3 x4 x5 x6) x1 x2 (val_main_v178 (F := F) x3) (val_main_v172 (F := F) x4) (val_main_v200 (F := F) x5) (val_main_v205 (F := F) x6)
def val_main_call7_cst := Layer.call3_cst (F := F)
def val_main_call7_v0 := Layer.call3_v0 (F := F)
def val_main_v210 := Layer.v106 (F := F) (val_main_v159 (F := F) x0 x1 x2 x3 x4 x5 x6) x1 x2 (val_main_v178 (F := F) x3) (val_main_v172 (F := F) x4) (val_main_v200 (F := F) x5) (val_main_v205 (F := F) x6)
def val_main_v211 := Layer.v107 (F := F) (val_main_v159 (F := F) x0 x1 x2 x3 x4 x5 x6) x1 x2 (val_main_v178 (F := F) x3) (val_main_v172 (F := F) x4) (val_main_v200 (F := F) x5) (val_main_v205 (F := F) x6)

def val_main_v212 : (⟨S100000x128, .f32⟩ : BufTy).Contents (Elt F) :=
  Host.dotGeneral dot_S100000x128_S128x128_S100000x128_1_0_0_1_n_n none (val_main_v211 (F := F) x0 x1 x2 x3 x4 x5 x6) (x7)
abbrev lidx_main_v212 := lidx_dot_S100000x128_S128x128_S100000x128_1_0_0_1_n_n
abbrev ridx_main_v212 := ridx_dot_S100000x128_S128x128_S100000x128_1_0_0_1_n_n
theorem val_main_v212_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S4x128x128, .f32⟩ : BufTy).Contents (Elt Ideal)) (x4 : (⟨S4, .f32⟩ : BufTy).Contents (Elt Ideal)) (x5 x6 : (⟨S4x128, .f32⟩ : BufTy).Contents (Elt Ideal)) (x7 : (⟨S128x128, .f32⟩ : BufTy).Contents (Elt Ideal)) (i : S100000x128.Idx) :
    val_main_v212 (F := Ideal) x0 x1 x2 x3 x4 x5 x6 x7 i = ∑ k : Fin 128, (val_main_v211 (F := Ideal) x0 x1 x2 x3 x4 x5 x6) (lidx_main_v212 i k) * x7 (ridx_main_v212 i k) :=
  dot_S100000x128_S128x128_S100000x128_1_0_0_1_n_n_apply _ _ i

def val_main_v213 : (⟨S1x128, .f32⟩ : BufTy).Contents (Elt F) :=
  broadcastInDim S1x128 ![1] bcast_S128_S1x128_1 (x8)
abbrev idx_main_v213 := idx_bcast_S128_S1x128_1
theorem val_main_v213_apply (i : S1x128.Idx) :
    val_main_v213 (F := F) x8 i = x8 (idx_main_v213 i) :=
  bcast_S128_S1x128_1_apply _ i

def val_main_v214 : (⟨S100000x128, .f32⟩ : BufTy).Contents (Elt F) :=
  broadcastInDim S100000x128 ![0, 1] bcast_S1x128_S100000x128_0_1 (val_main_v213 (F := F) x8)
abbrev idx_main_v214 := idx_bcast_S1x128_S100000x128_0_1
theorem val_main_v214_apply (i : S100000x128.Idx) :
    val_main_v214 (F := F) x8 i = val_main_v213 (F := F) x8 (idx_main_v214 i) :=
  bcast_S1x128_S100000x128_0_1_apply _ i

def val_main_v215 : (⟨S100000x128, .f32⟩ : BufTy).Contents (Elt F) :=
  addf (val_main_v212 (F := F) x0 x1 x2 x3 x4 x5 x6 x7) (val_main_v214 (F := F) x8)
theorem val_main_v215_apply (i : S100000x128.Idx) :
    val_main_v215 (F := F) x0 x1 x2 x3 x4 x5 x6 x7 x8 i = FloatOps.addf (val_main_v212 (F := F) x0 x1 x2 x3 x4 x5 x6 x7 i) (val_main_v214 (F := F) x8 i) := rfl

end Cert.ReferenceIdeal.ReadP

end
-- ==== Proof.RefRecords.lean ====
import proofs.«410150_j30107720744960_1_alg».proof.Proof.Spec
import proofs.«410150_j30107720744960_1_alg».proof.Proof.RefRead

noncomputable section

namespace Cert.ReferenceIdeal.RefValue

open Idealize.ShloMosaic Cert.ReferenceIdeal Cert.ReferenceIdeal.Gen Cert.Gin

abbrev dGR : GatherDims SN SI SE := gather_S100000x128_S640000x1_S640000x128_1_0_n_n_0_1_1128
abbrev dSR : ScatterDims SN SI SE := scatter_S100000x128_S640000x1_S640000x128_1_0_0_1

end Cert.ReferenceIdeal.RefValue

end
-- ==== Proof.RefSteps.lean ====
import proofs.«410150_j30107720744960_1_alg».proof.Proof.RefRecords

noncomputable section

namespace Cert.ReferenceIdeal.RefValue

open Idealize.ShloMosaic Idealize.ShloMosaic.ValueIdx Idealize.ShloMosaic.StableHlo Idealize.SL.Sem
open Cert.ReferenceIdeal Cert.ReferenceIdeal.Gen Cert.ReferenceIdeal.RunP Cert.ReferenceIdeal.ReadP Cert.Gin

namespace Fold

open Idealize.ShloMosaic.TcCoe

variable {F : FTy → Type} [FloatOps F]

-- Each operation of the list writes one buffer only: the k-th, the buffer numbered b + k.
def Numbered : Nat → List (HloOp τ sig (Elt F)) → Prop
  | _, [] => True
  | b, op :: l => (∀ r : Ref sig .tc, Proc.devRef .tc r ∈ op.writes → r.idx.val = b) ∧ Numbered (b + 1) l

theorem one_write {op : HloOp τ sig (Elt F)} {y : Ref sig .tc} {b : Nat} (hw : op.writes = {Proc.devRef .tc y})
    (hb : y.idx.val = b) (r : Ref sig .tc) (h : Proc.devRef .tc r ∈ op.writes) : r.idx.val = b := by
  rw [hw, Finset.mem_singleton] at h
  obtain rfl := Proc.devRef_injective _ h
  exact hb

-- A buffer numbered below every operation's keeps its contents.
theorem Numbered.keep {l : List (HloOp τ sig (Elt F))} : ∀ {b : Nat}, Numbered b l → ∀ {r : Ref sig .tc}, r.idx.val < b →
    ∀ W : Valuation τ sig (Elt F), after l W (Proc.devRef .tc r) = W (Proc.devRef .tc r) := by
  induction l with
  | nil => intros; rfl
  | cons o l ih =>
    intro b hl r hr W
    exact (ih hl.2 (Nat.lt_succ_of_lt hr) _).trans (o.result_of_not_mem W fun hm => Nat.ne_of_lt hr (hl.1 r hm))

-- The n-th operation's buffer ends at its result from contents P that agree with the end contents on every buffer numbered below it.
theorem Numbered.at {l : List (HloOp τ sig (Elt F))} : ∀ {b n : Nat} {op : HloOp τ sig (Elt F)}, Numbered b l → l[n]? = some op →
    ∀ W : Valuation τ sig (Elt F), ∃ P : Valuation τ sig (Elt F),
      (∀ r : Ref sig .tc, r.idx.val < b + n → after l W (Proc.devRef .tc r) = P (Proc.devRef .tc r)) ∧
      ∀ r : Ref sig .tc, r.idx.val = b + n → after l W (Proc.devRef .tc r) = op.result P (Proc.devRef .tc r) := by
  induction l with
  | nil => intro b n op _ h; rw [List.getElem?_nil] at h; cases h
  | cons o l ih =>
    intro b n op hl h W
    cases n with
    | zero =>
      rw [List.getElem?_cons_zero] at h
      obtain rfl := Option.some.inj h
      exact ⟨W, fun r hr => (hl.2.keep (Nat.lt_succ_of_lt hr) _).trans (o.result_of_not_mem W fun hm => Nat.ne_of_lt hr (hl.1 r hm)),
        fun r hr => hl.2.keep (Nat.lt_succ_of_le (Nat.le_of_eq hr)) _⟩
    | succ k =>
      obtain ⟨P, h1, h2⟩ := ih hl.2 h (o.result W)
      exact ⟨P, fun r hr => h1 r (by omega), fun r hr => h2 r (by omega)⟩

theorem ops_numbered : Numbered 9 (ops : List (HloOp τ sig (Elt F))) := by
  repeat' apply And.intro
  all_goals first | exact one_write rfl rfl | trivial

variable (V : Valuation τ sig (Elt F)) (x0 : (⟨S100000x128, .f32⟩ : BufTy).Contents (Elt F)) (x1 : (⟨S2x640000, .i32⟩ : BufTy).Contents (Elt F))
  (x2 : (⟨S640000x128, .f32⟩ : BufTy).Contents (Elt F)) (x3 : (⟨S4x128x128, .f32⟩ : BufTy).Contents (Elt F))
  (x4 : (⟨S4, .f32⟩ : BufTy).Contents (Elt F)) (x5 x6 : (⟨S4x128, .f32⟩ : BufTy).Contents (Elt F))
  (x7 : (⟨S128x128, .f32⟩ : BufTy).Contents (Elt F)) (x8 : (⟨S128, .f32⟩ : BufTy).Contents (Elt F))

-- The contents of a buffer after the whole list.
abbrev S (r : Ref sig .tc) := after (ops (F := F)) V (Proc.devRef .tc r)

-- Contents V hold the arguments.
structure Args : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8

variable {V x0 x1 x2 x3 x4 x5 x6 x7 x8}

-- An operation's buffer ends at its function of its operands' end contents: nothing later writes it or them.
theorem step0 (n : Nat) {y : Ref sig .tc} {w : y.ty.Contents (Elt F)} {hy}
    (h : (ops : List (HloOp τ sig (Elt F)))[n]? = some (nullary y w hy))
    {v : y.ty.Contents (Elt F)} (hv : w = v := by rfl) (ly : y.idx.val = 9 + n := by decide) : S V y = v := by
  obtain ⟨P, h1, h2⟩ := ops_numbered.at h V
  exact (h2 y ly).trans ((nullary_result y w hy P).trans hv)

theorem step1 (n : Nat) {x y : Ref sig .tc} {f : x.ty.Contents (Elt F) → y.ty.Contents (Elt F)} {hx hy}
    (h : (ops : List (HloOp τ sig (Elt F)))[n]? = some (unary x y f hx hy))
    {vx : x.ty.Contents (Elt F)} (ex : S V x = vx) {v : y.ty.Contents (Elt F)} (hv : f vx = v := by rfl)
    (lx : x.idx.val < 9 + n := by decide) (ly : y.idx.val = 9 + n := by decide) : S V y = v := by
  obtain ⟨P, h1, h2⟩ := ops_numbered.at h V
  subst ex hv
  exact (h2 y ly).trans ((unary_result x y f hx hy P).trans (by unfold S; rw [h1 x lx]))

theorem stepR (n : Nat) {x y : Ref sig .tc} {he hn hx hy}
    (h : (ops : List (HloOp τ sig (Elt F)))[n]? = some (reshape x y he hn hx hy))
    {vx : x.ty.Contents (Elt F)} (ex : S V x = vx) {v : y.ty.Contents (Elt F)}
    (hv : (fun i => he ▸ shapeCast y.ty.shape vx hn i) = v := by rfl)
    (lx : x.idx.val < 9 + n := by decide) (ly : y.idx.val = 9 + n := by decide) : S V y = v := by
  obtain ⟨P, h1, h2⟩ := ops_numbered.at h V
  subst ex hv
  exact (h2 y ly).trans ((reshape_result x y he hn hx hy P).trans (by unfold S; rw [h1 x lx]))

theorem step2 (n : Nat) {a b y : Ref sig .tc} {f : a.ty.Contents (Elt F) → b.ty.Contents (Elt F) → y.ty.Contents (Elt F)} {ha hb hy}
    (h : (ops : List (HloOp τ sig (Elt F)))[n]? = some (binary a b y f ha hb hy))
    {va : a.ty.Contents (Elt F)} {vb : b.ty.Contents (Elt F)} (ea : S V a = va) (eb : S V b = vb)
    {v : y.ty.Contents (Elt F)} (hv : f va vb = v := by rfl)
    (la : a.idx.val < 9 + n := by decide) (lb : b.idx.val < 9 + n := by decide) (ly : y.idx.val = 9 + n := by decide) : S V y = v := by
  obtain ⟨P, h1, h2⟩ := ops_numbered.at h V
  subst ea eb hv
  exact (h2 y ly).trans ((binary_result a b y f ha hb hy P).trans (by unfold S; rw [h1 a la, h1 b lb]))

theorem step3 (n : Nat) {c a b y : Ref sig .tc}
    {f : c.ty.Contents (Elt F) → a.ty.Contents (Elt F) → b.ty.Contents (Elt F) → y.ty.Contents (Elt F)} {hc ha hb hy}
    (h : (ops : List (HloOp τ sig (Elt F)))[n]? = some (ternary c a b y f hc ha hb hy))
    {vc : c.ty.Contents (Elt F)} {va : a.ty.Contents (Elt F)} {vb : b.ty.Contents (Elt F)}
    (ec : S V c = vc) (ea : S V a = va) (eb : S V b = vb) {v : y.ty.Contents (Elt F)} (hv : f vc va vb = v := by rfl)
    (lc : c.idx.val < 9 + n := by decide) (la : a.idx.val < 9 + n := by decide) (lb : b.idx.val < 9 + n := by decide)
    (ly : y.idx.val = 9 + n := by decide) : S V y = v := by
  obtain ⟨P, h1, h2⟩ := ops_numbered.at h V
  subst ec ea eb hv
  exact (h2 y ly).trans ((ternary_result c a b y f hc ha hb hy P).trans (by unfold S; rw [h1 c lc, h1 a la, h1 b lb]))

end Fold

end Cert.ReferenceIdeal.RefValue

end
-- ==== Proof.RefStages.lean ====
import proofs.«410150_j30107720744960_1_alg».proof.Proof.RefSteps

noncomputable section

namespace Cert.ReferenceIdeal.RefValue

open Idealize.ShloMosaic Idealize.ShloMosaic.ValueIdx Idealize.ShloMosaic.StableHlo Idealize.SL.Sem
open Cert.ReferenceIdeal Cert.ReferenceIdeal.Gen Cert.ReferenceIdeal.RunP Cert.ReferenceIdeal.ReadP Cert.Gin

namespace Fold

open Idealize.ShloMosaic.TcCoe

variable {F : FTy → Type} [FloatOps F] {V : Valuation τ sig (Elt F)} {x0 x1 x2 x3 x4 x5 x6 x7 x8} (H : Args V x0 x1 x2 x3 x4 x5 x6 x7 x8)
include H

-- Every buffer ends at its stage function of the arguments.
theorem at_arg0 : S V main_arg0 = x0 := (ops_numbered.keep (by decide) V).trans H.a0
theorem at_arg1 : S V main_arg1 = x1 := (ops_numbered.keep (by decide) V).trans H.a1
theorem at_arg2 : S V main_arg2 = x2 := (ops_numbered.keep (by decide) V).trans H.a2
theorem at_arg3 : S V main_arg3 = x3 := (ops_numbered.keep (by decide) V).trans H.a3
theorem at_arg4 : S V main_arg4 = x4 := (ops_numbered.keep (by decide) V).trans H.a4
theorem at_arg5 : S V main_arg5 = x5 := (ops_numbered.keep (by decide) V).trans H.a5
theorem at_arg6 : S V main_arg6 = x6 := (ops_numbered.keep (by decide) V).trans H.a6
theorem at_arg7 : S V main_arg7 = x7 := (ops_numbered.keep (by decide) V).trans H.a7
theorem at_arg8 : S V main_arg8 = x8 := (ops_numbered.keep (by decide) V).trans H.a8
theorem at_v0 : S V main_v0 = val_main_v0 x1 := step1 0 rfl (at_arg1 H)
theorem at_v1 : S V main_v1 = val_main_v1 x1 := stepR 1 rfl (at_v0 H)
theorem at_v2 : S V main_v2 = val_main_v2 x1 := step1 2 rfl (at_arg1 H)
theorem at_v3 : S V main_v3 = val_main_v3 x1 := stepR 3 rfl (at_v2 H)
theorem at_c : S V main_c = val_main_c (F := F) := step0 4 rfl
theorem at_v4 : S V main_v4 = val_main_v4 (F := F) := step1 5 rfl (at_c H)
theorem at_v5 : S V main_v5 = val_main_v5 x1 := step2 6 rfl (at_v1 H) (at_v4 H)
theorem at_c_0 : S V main_c_0 = val_main_c_0 (F := F) := step0 7 rfl
theorem at_v6 : S V main_v6 = val_main_v6 (F := F) := step1 8 rfl (at_c_0 H)
theorem at_v7 : S V main_v7 = val_main_v7 x1 := step2 9 rfl (at_v1 H) (at_v6 H)
theorem at_v8 : S V main_v8 = val_main_v8 x1 := step3 10 rfl (at_v5 H) (at_v7 H) (at_v1 H)
theorem at_v9 : S V main_v9 = val_main_v9 x1 := step1 11 rfl (at_v8 H)
theorem at_v10 : S V main_v10 = val_main_v10 x0 x1 := step2 12 rfl (at_arg0 H) (at_v9 H)
theorem at_v11 : S V main_v11 = val_main_v11 x0 x1 x2 := step2 13 rfl (at_v10 H) (at_arg2 H)
theorem at_call0_cst : S V main_call0_cst = val_main_call0_cst (F := F) := step0 14 rfl
theorem at_call0_v0 : S V main_call0_v0 = val_main_call0_v0 (F := F) := step1 15 rfl (at_call0_cst H)
theorem at_v12 : S V main_v12 = val_main_v12 x0 x1 x2 := step2 16 rfl (at_v11 H) (at_call0_v0 H)
theorem at_cst : S V main_cst = val_main_cst (F := F) := step0 17 rfl
theorem at_v13 : S V main_v13 = val_main_v13 (F := F) := step1 18 rfl (at_cst H)
theorem at_v14 : S V main_v14 = val_main_v14 x1 := step1 19 rfl (at_v3 H)
theorem at_v15 : S V main_v15 = val_main_v15 x0 x1 x2 := step3 20 rfl (at_v13 H) (at_v14 H) (at_v12 H)
theorem at_v16 : S V main_v16 = val_main_v16 x4 := step1 21 rfl (at_arg4 H)
theorem at_v17 : S V main_v17 = val_main_v17 x4 := stepR 22 rfl (at_v16 H)
theorem at_cst_1 : S V main_cst_1 = val_main_cst_1 (F := F) := step0 23 rfl
theorem at_v18 : S V main_v18 = val_main_v18 x4 := step2 24 rfl (at_cst_1 H) (at_v17 H)
theorem at_v19 : S V main_v19 = val_main_v19 x4 := step1 25 rfl (at_v18 H)
theorem at_v20 : S V main_v20 = val_main_v20 x0 x4 := step2 26 rfl (at_v19 H) (at_arg0 H)
theorem at_v21 : S V main_v21 = val_main_v21 x0 x1 x2 x4 := step2 27 rfl (at_v20 H) (at_v15 H)
theorem at_v22 : S V main_v22 = val_main_v22 x3 := step1 28 rfl (at_arg3 H)
theorem at_v23 : S V main_v23 = val_main_v23 x3 := stepR 29 rfl (at_v22 H)
theorem at_v24 : S V main_v24 = val_main_v24 x0 x1 x2 x3 x4 := step2 30 rfl (at_v21 H) (at_v23 H)
theorem at_cst_2 : S V main_cst_2 = val_main_cst_2 (F := F) := step0 31 rfl
theorem at_v25 : S V main_v25 = val_main_v25 x0 x1 x2 x3 x4 := step2 32 rfl (at_v24 H) (at_cst_2 H)
theorem at_cst_3 : S V main_cst_3 = val_main_cst_3 (F := F) := step0 33 rfl
theorem at_v26 : S V main_v26 = val_main_v26 (F := F) := step1 34 rfl (at_cst_3 H)
theorem at_v27 : S V main_v27 = val_main_v27 x0 x1 x2 x3 x4 := step2 35 rfl (at_v25 H) (at_v26 H)
theorem at_v28 : S V main_v28 = val_main_v28 x0 x1 x2 x3 x4 := step1 36 rfl (at_v27 H)
theorem at_v29 : S V main_v29 = val_main_v29 x0 x1 x2 x3 x4 := step1 37 rfl (at_v28 H)
theorem at_v30 : S V main_v30 = val_main_v30 x0 x1 x2 x3 x4 := step2 38 rfl (at_v24 H) (at_v29 H)
theorem at_v31 : S V main_v31 = val_main_v31 x0 x1 x2 x3 x4 := step2 39 rfl (at_v30 H) (at_v30 H)
theorem at_cst_4 : S V main_cst_4 = val_main_cst_4 (F := F) := step0 40 rfl
theorem at_v32 : S V main_v32 = val_main_v32 x0 x1 x2 x3 x4 := step2 41 rfl (at_v31 H) (at_cst_4 H)
theorem at_cst_5 : S V main_cst_5 = val_main_cst_5 (F := F) := step0 42 rfl
theorem at_v33 : S V main_v33 = val_main_v33 (F := F) := step1 43 rfl (at_cst_5 H)
theorem at_v34 : S V main_v34 = val_main_v34 x0 x1 x2 x3 x4 := step2 44 rfl (at_v32 H) (at_v33 H)
theorem at_v35 : S V main_v35 = val_main_v35 x0 x1 x2 x3 x4 := step1 45 rfl (at_v27 H)
theorem at_v36 : S V main_v36 = val_main_v36 x0 x1 x2 x3 x4 := step1 46 rfl (at_v35 H)
theorem at_v37 : S V main_v37 = val_main_v37 x0 x1 x2 x3 x4 := step2 47 rfl (at_v24 H) (at_v36 H)
theorem at_cst_6 : S V main_cst_6 = val_main_cst_6 (F := F) := step0 48 rfl
theorem at_v38 : S V main_v38 = val_main_v38 (F := F) := step1 49 rfl (at_cst_6 H)
theorem at_v39 : S V main_v39 = val_main_v39 x0 x1 x2 x3 x4 := step2 50 rfl (at_v34 H) (at_v38 H)
theorem at_v40 : S V main_v40 = val_main_v40 x0 x1 x2 x3 x4 := step1 51 rfl (at_v39 H)
theorem at_v41 : S V main_v41 = val_main_v41 x0 x1 x2 x3 x4 := step1 52 rfl (at_v40 H)
theorem at_v42 : S V main_v42 = val_main_v42 x0 x1 x2 x3 x4 := step1 53 rfl (at_v41 H)
theorem at_v43 : S V main_v43 = val_main_v43 x0 x1 x2 x3 x4 := step2 54 rfl (at_v37 H) (at_v42 H)
theorem at_v44 : S V main_v44 = val_main_v44 x5 := step1 55 rfl (at_arg5 H)
theorem at_v45 : S V main_v45 = val_main_v45 x5 := stepR 56 rfl (at_v44 H)
theorem at_v46 : S V main_v46 = val_main_v46 x5 := step1 57 rfl (at_v45 H)
theorem at_v47 : S V main_v47 = val_main_v47 x5 := step1 58 rfl (at_v46 H)
theorem at_v48 : S V main_v48 = val_main_v48 x0 x1 x2 x3 x4 x5 := step2 59 rfl (at_v43 H) (at_v47 H)
theorem at_v49 : S V main_v49 = val_main_v49 x6 := step1 60 rfl (at_arg6 H)
theorem at_v50 : S V main_v50 = val_main_v50 x6 := stepR 61 rfl (at_v49 H)
theorem at_v51 : S V main_v51 = val_main_v51 x6 := step1 62 rfl (at_v50 H)
theorem at_v52 : S V main_v52 = val_main_v52 x6 := step1 63 rfl (at_v51 H)
theorem at_v53 : S V main_v53 = val_main_v53 x0 x1 x2 x3 x4 x5 x6 := step2 64 rfl (at_v48 H) (at_v52 H)
theorem at_call1_cst : S V main_call1_cst = val_main_call1_cst (F := F) := step0 65 rfl
theorem at_call1_v0 : S V main_call1_v0 = val_main_call1_v0 (F := F) := step1 66 rfl (at_call1_cst H)
theorem at_v54 : S V main_v54 = val_main_v54 x0 x1 x2 x3 x4 x5 x6 := step2 67 rfl (at_v53 H) (at_call1_v0 H)
theorem at_v55 : S V main_v55 = val_main_v55 x0 x1 x2 x3 x4 x5 x6 := step2 68 rfl (at_v54 H) (at_arg0 H)
theorem at_c_7 : S V main_c_7 = val_main_c_7 (F := F) := step0 69 rfl
theorem at_v56 : S V main_v56 = val_main_v56 (F := F) := step1 70 rfl (at_c_7 H)
theorem at_v57 : S V main_v57 = val_main_v57 x1 := step2 71 rfl (at_v1 H) (at_v56 H)
theorem at_c_8 : S V main_c_8 = val_main_c_8 (F := F) := step0 72 rfl
theorem at_v58 : S V main_v58 = val_main_v58 (F := F) := step1 73 rfl (at_c_8 H)
theorem at_v59 : S V main_v59 = val_main_v59 x1 := step2 74 rfl (at_v1 H) (at_v58 H)
theorem at_v60 : S V main_v60 = val_main_v60 x1 := step3 75 rfl (at_v57 H) (at_v59 H) (at_v1 H)
theorem at_v61 : S V main_v61 = val_main_v61 x1 := step1 76 rfl (at_v60 H)
theorem at_v62 : S V main_v62 = val_main_v62 x0 x1 x2 x3 x4 x5 x6 := step2 77 rfl (at_v55 H) (at_v61 H)
theorem at_v63 : S V main_v63 = val_main_v63 x0 x1 x2 x3 x4 x5 x6 := step2 78 rfl (at_v62 H) (at_arg2 H)
theorem at_call2_cst : S V main_call2_cst = val_main_call2_cst (F := F) := step0 79 rfl
theorem at_call2_v0 : S V main_call2_v0 = val_main_call2_v0 (F := F) := step1 80 rfl (at_call2_cst H)
theorem at_v64 : S V main_v64 = val_main_v64 x0 x1 x2 x3 x4 x5 x6 := step2 81 rfl (at_v63 H) (at_call2_v0 H)
theorem at_cst_9 : S V main_cst_9 = val_main_cst_9 (F := F) := step0 82 rfl
theorem at_v65 : S V main_v65 = val_main_v65 (F := F) := step1 83 rfl (at_cst_9 H)
theorem at_v66 : S V main_v66 = val_main_v66 x1 := step1 84 rfl (at_v3 H)
theorem at_v67 : S V main_v67 = val_main_v67 x0 x1 x2 x3 x4 x5 x6 := step3 85 rfl (at_v65 H) (at_v66 H) (at_v64 H)
theorem at_v68 : S V main_v68 = val_main_v68 x4 := step1 86 rfl (at_arg4 H)
theorem at_v69 : S V main_v69 = val_main_v69 x4 := stepR 87 rfl (at_v68 H)
theorem at_cst_10 : S V main_cst_10 = val_main_cst_10 (F := F) := step0 88 rfl
theorem at_v70 : S V main_v70 = val_main_v70 x4 := step2 89 rfl (at_cst_10 H) (at_v69 H)
theorem at_v71 : S V main_v71 = val_main_v71 x4 := step1 90 rfl (at_v70 H)
theorem at_v72 : S V main_v72 = val_main_v72 x0 x1 x2 x3 x4 x5 x6 := step2 91 rfl (at_v71 H) (at_v55 H)
theorem at_v73 : S V main_v73 = val_main_v73 x0 x1 x2 x3 x4 x5 x6 := step2 92 rfl (at_v72 H) (at_v67 H)
theorem at_v74 : S V main_v74 = val_main_v74 x3 := step1 93 rfl (at_arg3 H)
theorem at_v75 : S V main_v75 = val_main_v75 x3 := stepR 94 rfl (at_v74 H)
theorem at_v76 : S V main_v76 = val_main_v76 x0 x1 x2 x3 x4 x5 x6 := step2 95 rfl (at_v73 H) (at_v75 H)
theorem at_cst_11 : S V main_cst_11 = val_main_cst_11 (F := F) := step0 96 rfl
theorem at_v77 : S V main_v77 = val_main_v77 x0 x1 x2 x3 x4 x5 x6 := step2 97 rfl (at_v76 H) (at_cst_11 H)
theorem at_cst_12 : S V main_cst_12 = val_main_cst_12 (F := F) := step0 98 rfl
theorem at_v78 : S V main_v78 = val_main_v78 (F := F) := step1 99 rfl (at_cst_12 H)
theorem at_v79 : S V main_v79 = val_main_v79 x0 x1 x2 x3 x4 x5 x6 := step2 100 rfl (at_v77 H) (at_v78 H)
theorem at_v80 : S V main_v80 = val_main_v80 x0 x1 x2 x3 x4 x5 x6 := step1 101 rfl (at_v79 H)
theorem at_v81 : S V main_v81 = val_main_v81 x0 x1 x2 x3 x4 x5 x6 := step1 102 rfl (at_v80 H)
theorem at_v82 : S V main_v82 = val_main_v82 x0 x1 x2 x3 x4 x5 x6 := step2 103 rfl (at_v76 H) (at_v81 H)
theorem at_v83 : S V main_v83 = val_main_v83 x0 x1 x2 x3 x4 x5 x6 := step2 104 rfl (at_v82 H) (at_v82 H)
theorem at_cst_13 : S V main_cst_13 = val_main_cst_13 (F := F) := step0 105 rfl
theorem at_v84 : S V main_v84 = val_main_v84 x0 x1 x2 x3 x4 x5 x6 := step2 106 rfl (at_v83 H) (at_cst_13 H)
theorem at_cst_14 : S V main_cst_14 = val_main_cst_14 (F := F) := step0 107 rfl
theorem at_v85 : S V main_v85 = val_main_v85 (F := F) := step1 108 rfl (at_cst_14 H)
theorem at_v86 : S V main_v86 = val_main_v86 x0 x1 x2 x3 x4 x5 x6 := step2 109 rfl (at_v84 H) (at_v85 H)
theorem at_v87 : S V main_v87 = val_main_v87 x0 x1 x2 x3 x4 x5 x6 := step1 110 rfl (at_v79 H)
theorem at_v88 : S V main_v88 = val_main_v88 x0 x1 x2 x3 x4 x5 x6 := step1 111 rfl (at_v87 H)
theorem at_v89 : S V main_v89 = val_main_v89 x0 x1 x2 x3 x4 x5 x6 := step2 112 rfl (at_v76 H) (at_v88 H)
theorem at_cst_15 : S V main_cst_15 = val_main_cst_15 (F := F) := step0 113 rfl
theorem at_v90 : S V main_v90 = val_main_v90 (F := F) := step1 114 rfl (at_cst_15 H)
theorem at_v91 : S V main_v91 = val_main_v91 x0 x1 x2 x3 x4 x5 x6 := step2 115 rfl (at_v86 H) (at_v90 H)
theorem at_v92 : S V main_v92 = val_main_v92 x0 x1 x2 x3 x4 x5 x6 := step1 116 rfl (at_v91 H)
theorem at_v93 : S V main_v93 = val_main_v93 x0 x1 x2 x3 x4 x5 x6 := step1 117 rfl (at_v92 H)
theorem at_v94 : S V main_v94 = val_main_v94 x0 x1 x2 x3 x4 x5 x6 := step1 118 rfl (at_v93 H)
theorem at_v95 : S V main_v95 = val_main_v95 x0 x1 x2 x3 x4 x5 x6 := step2 119 rfl (at_v89 H) (at_v94 H)
theorem at_v96 : S V main_v96 = val_main_v96 x5 := step1 120 rfl (at_arg5 H)
theorem at_v97 : S V main_v97 = val_main_v97 x5 := stepR 121 rfl (at_v96 H)
theorem at_v98 : S V main_v98 = val_main_v98 x5 := step1 122 rfl (at_v97 H)
theorem at_v99 : S V main_v99 = val_main_v99 x5 := step1 123 rfl (at_v98 H)
theorem at_v100 : S V main_v100 = val_main_v100 x0 x1 x2 x3 x4 x5 x6 := step2 124 rfl (at_v95 H) (at_v99 H)
theorem at_v101 : S V main_v101 = val_main_v101 x6 := step1 125 rfl (at_arg6 H)
theorem at_v102 : S V main_v102 = val_main_v102 x6 := stepR 126 rfl (at_v101 H)
theorem at_v103 : S V main_v103 = val_main_v103 x6 := step1 127 rfl (at_v102 H)
theorem at_v104 : S V main_v104 = val_main_v104 x6 := step1 128 rfl (at_v103 H)
theorem at_v105 : S V main_v105 = val_main_v105 x0 x1 x2 x3 x4 x5 x6 := step2 129 rfl (at_v100 H) (at_v104 H)
theorem at_call3_cst : S V main_call3_cst = val_main_call3_cst (F := F) := step0 130 rfl
theorem at_call3_v0 : S V main_call3_v0 = val_main_call3_v0 (F := F) := step1 131 rfl (at_call3_cst H)
theorem at_v106 : S V main_v106 = val_main_v106 x0 x1 x2 x3 x4 x5 x6 := step2 132 rfl (at_v105 H) (at_call3_v0 H)
theorem at_v107 : S V main_v107 = val_main_v107 x0 x1 x2 x3 x4 x5 x6 := step2 133 rfl (at_v106 H) (at_v55 H)
theorem at_c_16 : S V main_c_16 = val_main_c_16 (F := F) := step0 134 rfl
theorem at_v108 : S V main_v108 = val_main_v108 (F := F) := step1 135 rfl (at_c_16 H)
theorem at_v109 : S V main_v109 = val_main_v109 x1 := step2 136 rfl (at_v1 H) (at_v108 H)
theorem at_c_17 : S V main_c_17 = val_main_c_17 (F := F) := step0 137 rfl
theorem at_v110 : S V main_v110 = val_main_v110 (F := F) := step1 138 rfl (at_c_17 H)
theorem at_v111 : S V main_v111 = val_main_v111 x1 := step2 139 rfl (at_v1 H) (at_v110 H)
theorem at_v112 : S V main_v112 = val_main_v112 x1 := step3 140 rfl (at_v109 H) (at_v111 H) (at_v1 H)
theorem at_v113 : S V main_v113 = val_main_v113 x1 := step1 141 rfl (at_v112 H)
theorem at_v114 : S V main_v114 = val_main_v114 x0 x1 x2 x3 x4 x5 x6 := step2 142 rfl (at_v107 H) (at_v113 H)
theorem at_v115 : S V main_v115 = val_main_v115 x0 x1 x2 x3 x4 x5 x6 := step2 143 rfl (at_v114 H) (at_arg2 H)
theorem at_call4_cst : S V main_call4_cst = val_main_call4_cst (F := F) := step0 144 rfl
theorem at_call4_v0 : S V main_call4_v0 = val_main_call4_v0 (F := F) := step1 145 rfl (at_call4_cst H)
theorem at_v116 : S V main_v116 = val_main_v116 x0 x1 x2 x3 x4 x5 x6 := step2 146 rfl (at_v115 H) (at_call4_v0 H)
theorem at_cst_18 : S V main_cst_18 = val_main_cst_18 (F := F) := step0 147 rfl
theorem at_v117 : S V main_v117 = val_main_v117 (F := F) := step1 148 rfl (at_cst_18 H)
theorem at_v118 : S V main_v118 = val_main_v118 x1 := step1 149 rfl (at_v3 H)
theorem at_v119 : S V main_v119 = val_main_v119 x0 x1 x2 x3 x4 x5 x6 := step3 150 rfl (at_v117 H) (at_v118 H) (at_v116 H)
theorem at_v120 : S V main_v120 = val_main_v120 x4 := step1 151 rfl (at_arg4 H)
theorem at_v121 : S V main_v121 = val_main_v121 x4 := stepR 152 rfl (at_v120 H)
theorem at_cst_19 : S V main_cst_19 = val_main_cst_19 (F := F) := step0 153 rfl
theorem at_v122 : S V main_v122 = val_main_v122 x4 := step2 154 rfl (at_cst_19 H) (at_v121 H)
theorem at_v123 : S V main_v123 = val_main_v123 x4 := step1 155 rfl (at_v122 H)
theorem at_v124 : S V main_v124 = val_main_v124 x0 x1 x2 x3 x4 x5 x6 := step2 156 rfl (at_v123 H) (at_v107 H)
theorem at_v125 : S V main_v125 = val_main_v125 x0 x1 x2 x3 x4 x5 x6 := step2 157 rfl (at_v124 H) (at_v119 H)
theorem at_v126 : S V main_v126 = val_main_v126 x3 := step1 158 rfl (at_arg3 H)
theorem at_v127 : S V main_v127 = val_main_v127 x3 := stepR 159 rfl (at_v126 H)
theorem at_v128 : S V main_v128 = val_main_v128 x0 x1 x2 x3 x4 x5 x6 := step2 160 rfl (at_v125 H) (at_v127 H)
theorem at_cst_20 : S V main_cst_20 = val_main_cst_20 (F := F) := step0 161 rfl
theorem at_v129 : S V main_v129 = val_main_v129 x0 x1 x2 x3 x4 x5 x6 := step2 162 rfl (at_v128 H) (at_cst_20 H)
theorem at_cst_21 : S V main_cst_21 = val_main_cst_21 (F := F) := step0 163 rfl
theorem at_v130 : S V main_v130 = val_main_v130 (F := F) := step1 164 rfl (at_cst_21 H)
theorem at_v131 : S V main_v131 = val_main_v131 x0 x1 x2 x3 x4 x5 x6 := step2 165 rfl (at_v129 H) (at_v130 H)
theorem at_v132 : S V main_v132 = val_main_v132 x0 x1 x2 x3 x4 x5 x6 := step1 166 rfl (at_v131 H)
theorem at_v133 : S V main_v133 = val_main_v133 x0 x1 x2 x3 x4 x5 x6 := step1 167 rfl (at_v132 H)
theorem at_v134 : S V main_v134 = val_main_v134 x0 x1 x2 x3 x4 x5 x6 := step2 168 rfl (at_v128 H) (at_v133 H)
theorem at_v135 : S V main_v135 = val_main_v135 x0 x1 x2 x3 x4 x5 x6 := step2 169 rfl (at_v134 H) (at_v134 H)
theorem at_cst_22 : S V main_cst_22 = val_main_cst_22 (F := F) := step0 170 rfl
theorem at_v136 : S V main_v136 = val_main_v136 x0 x1 x2 x3 x4 x5 x6 := step2 171 rfl (at_v135 H) (at_cst_22 H)
theorem at_cst_23 : S V main_cst_23 = val_main_cst_23 (F := F) := step0 172 rfl
theorem at_v137 : S V main_v137 = val_main_v137 (F := F) := step1 173 rfl (at_cst_23 H)
theorem at_v138 : S V main_v138 = val_main_v138 x0 x1 x2 x3 x4 x5 x6 := step2 174 rfl (at_v136 H) (at_v137 H)
theorem at_v139 : S V main_v139 = val_main_v139 x0 x1 x2 x3 x4 x5 x6 := step1 175 rfl (at_v131 H)
theorem at_v140 : S V main_v140 = val_main_v140 x0 x1 x2 x3 x4 x5 x6 := step1 176 rfl (at_v139 H)
theorem at_v141 : S V main_v141 = val_main_v141 x0 x1 x2 x3 x4 x5 x6 := step2 177 rfl (at_v128 H) (at_v140 H)
theorem at_cst_24 : S V main_cst_24 = val_main_cst_24 (F := F) := step0 178 rfl
theorem at_v142 : S V main_v142 = val_main_v142 (F := F) := step1 179 rfl (at_cst_24 H)
theorem at_v143 : S V main_v143 = val_main_v143 x0 x1 x2 x3 x4 x5 x6 := step2 180 rfl (at_v138 H) (at_v142 H)
theorem at_v144 : S V main_v144 = val_main_v144 x0 x1 x2 x3 x4 x5 x6 := step1 181 rfl (at_v143 H)
theorem at_v145 : S V main_v145 = val_main_v145 x0 x1 x2 x3 x4 x5 x6 := step1 182 rfl (at_v144 H)
theorem at_v146 : S V main_v146 = val_main_v146 x0 x1 x2 x3 x4 x5 x6 := step1 183 rfl (at_v145 H)
theorem at_v147 : S V main_v147 = val_main_v147 x0 x1 x2 x3 x4 x5 x6 := step2 184 rfl (at_v141 H) (at_v146 H)
theorem at_v148 : S V main_v148 = val_main_v148 x5 := step1 185 rfl (at_arg5 H)
theorem at_v149 : S V main_v149 = val_main_v149 x5 := stepR 186 rfl (at_v148 H)
theorem at_v150 : S V main_v150 = val_main_v150 x5 := step1 187 rfl (at_v149 H)
theorem at_v151 : S V main_v151 = val_main_v151 x5 := step1 188 rfl (at_v150 H)
theorem at_v152 : S V main_v152 = val_main_v152 x0 x1 x2 x3 x4 x5 x6 := step2 189 rfl (at_v147 H) (at_v151 H)
theorem at_v153 : S V main_v153 = val_main_v153 x6 := step1 190 rfl (at_arg6 H)
theorem at_v154 : S V main_v154 = val_main_v154 x6 := stepR 191 rfl (at_v153 H)
theorem at_v155 : S V main_v155 = val_main_v155 x6 := step1 192 rfl (at_v154 H)
theorem at_v156 : S V main_v156 = val_main_v156 x6 := step1 193 rfl (at_v155 H)
theorem at_v157 : S V main_v157 = val_main_v157 x0 x1 x2 x3 x4 x5 x6 := step2 194 rfl (at_v152 H) (at_v156 H)
theorem at_call5_cst : S V main_call5_cst = val_main_call5_cst (F := F) := step0 195 rfl
theorem at_call5_v0 : S V main_call5_v0 = val_main_call5_v0 (F := F) := step1 196 rfl (at_call5_cst H)
theorem at_v158 : S V main_v158 = val_main_v158 x0 x1 x2 x3 x4 x5 x6 := step2 197 rfl (at_v157 H) (at_call5_v0 H)
theorem at_v159 : S V main_v159 = val_main_v159 x0 x1 x2 x3 x4 x5 x6 := step2 198 rfl (at_v158 H) (at_v107 H)
theorem at_c_25 : S V main_c_25 = val_main_c_25 (F := F) := step0 199 rfl
theorem at_v160 : S V main_v160 = val_main_v160 (F := F) := step1 200 rfl (at_c_25 H)
theorem at_v161 : S V main_v161 = val_main_v161 x1 := step2 201 rfl (at_v1 H) (at_v160 H)
theorem at_c_26 : S V main_c_26 = val_main_c_26 (F := F) := step0 202 rfl
theorem at_v162 : S V main_v162 = val_main_v162 (F := F) := step1 203 rfl (at_c_26 H)
theorem at_v163 : S V main_v163 = val_main_v163 x1 := step2 204 rfl (at_v1 H) (at_v162 H)
theorem at_v164 : S V main_v164 = val_main_v164 x1 := step3 205 rfl (at_v161 H) (at_v163 H) (at_v1 H)
theorem at_v165 : S V main_v165 = val_main_v165 x1 := step1 206 rfl (at_v164 H)
theorem at_v166 : S V main_v166 = val_main_v166 x0 x1 x2 x3 x4 x5 x6 := step2 207 rfl (at_v159 H) (at_v165 H)
theorem at_v167 : S V main_v167 = val_main_v167 x0 x1 x2 x3 x4 x5 x6 := step2 208 rfl (at_v166 H) (at_arg2 H)
theorem at_call6_cst : S V main_call6_cst = val_main_call6_cst (F := F) := step0 209 rfl
theorem at_call6_v0 : S V main_call6_v0 = val_main_call6_v0 (F := F) := step1 210 rfl (at_call6_cst H)
theorem at_v168 : S V main_v168 = val_main_v168 x0 x1 x2 x3 x4 x5 x6 := step2 211 rfl (at_v167 H) (at_call6_v0 H)
theorem at_cst_27 : S V main_cst_27 = val_main_cst_27 (F := F) := step0 212 rfl
theorem at_v169 : S V main_v169 = val_main_v169 (F := F) := step1 213 rfl (at_cst_27 H)
theorem at_v170 : S V main_v170 = val_main_v170 x1 := step1 214 rfl (at_v3 H)
theorem at_v171 : S V main_v171 = val_main_v171 x0 x1 x2 x3 x4 x5 x6 := step3 215 rfl (at_v169 H) (at_v170 H) (at_v168 H)
theorem at_v172 : S V main_v172 = val_main_v172 x4 := step1 216 rfl (at_arg4 H)
theorem at_v173 : S V main_v173 = val_main_v173 x4 := stepR 217 rfl (at_v172 H)
theorem at_cst_28 : S V main_cst_28 = val_main_cst_28 (F := F) := step0 218 rfl
theorem at_v174 : S V main_v174 = val_main_v174 x4 := step2 219 rfl (at_cst_28 H) (at_v173 H)
theorem at_v175 : S V main_v175 = val_main_v175 x4 := step1 220 rfl (at_v174 H)
theorem at_v176 : S V main_v176 = val_main_v176 x0 x1 x2 x3 x4 x5 x6 := step2 221 rfl (at_v175 H) (at_v159 H)
theorem at_v177 : S V main_v177 = val_main_v177 x0 x1 x2 x3 x4 x5 x6 := step2 222 rfl (at_v176 H) (at_v171 H)
theorem at_v178 : S V main_v178 = val_main_v178 x3 := step1 223 rfl (at_arg3 H)
theorem at_v179 : S V main_v179 = val_main_v179 x3 := stepR 224 rfl (at_v178 H)
theorem at_v180 : S V main_v180 = val_main_v180 x0 x1 x2 x3 x4 x5 x6 := step2 225 rfl (at_v177 H) (at_v179 H)
theorem at_cst_29 : S V main_cst_29 = val_main_cst_29 (F := F) := step0 226 rfl
theorem at_v181 : S V main_v181 = val_main_v181 x0 x1 x2 x3 x4 x5 x6 := step2 227 rfl (at_v180 H) (at_cst_29 H)
theorem at_cst_30 : S V main_cst_30 = val_main_cst_30 (F := F) := step0 228 rfl
theorem at_v182 : S V main_v182 = val_main_v182 (F := F) := step1 229 rfl (at_cst_30 H)
theorem at_v183 : S V main_v183 = val_main_v183 x0 x1 x2 x3 x4 x5 x6 := step2 230 rfl (at_v181 H) (at_v182 H)
theorem at_v184 : S V main_v184 = val_main_v184 x0 x1 x2 x3 x4 x5 x6 := step1 231 rfl (at_v183 H)
theorem at_v185 : S V main_v185 = val_main_v185 x0 x1 x2 x3 x4 x5 x6 := step1 232 rfl (at_v184 H)
theorem at_v186 : S V main_v186 = val_main_v186 x0 x1 x2 x3 x4 x5 x6 := step2 233 rfl (at_v180 H) (at_v185 H)
theorem at_v187 : S V main_v187 = val_main_v187 x0 x1 x2 x3 x4 x5 x6 := step2 234 rfl (at_v186 H) (at_v186 H)
theorem at_cst_31 : S V main_cst_31 = val_main_cst_31 (F := F) := step0 235 rfl
theorem at_v188 : S V main_v188 = val_main_v188 x0 x1 x2 x3 x4 x5 x6 := step2 236 rfl (at_v187 H) (at_cst_31 H)
theorem at_cst_32 : S V main_cst_32 = val_main_cst_32 (F := F) := step0 237 rfl
theorem at_v189 : S V main_v189 = val_main_v189 (F := F) := step1 238 rfl (at_cst_32 H)
theorem at_v190 : S V main_v190 = val_main_v190 x0 x1 x2 x3 x4 x5 x6 := step2 239 rfl (at_v188 H) (at_v189 H)
theorem at_v191 : S V main_v191 = val_main_v191 x0 x1 x2 x3 x4 x5 x6 := step1 240 rfl (at_v183 H)
theorem at_v192 : S V main_v192 = val_main_v192 x0 x1 x2 x3 x4 x5 x6 := step1 241 rfl (at_v191 H)
theorem at_v193 : S V main_v193 = val_main_v193 x0 x1 x2 x3 x4 x5 x6 := step2 242 rfl (at_v180 H) (at_v192 H)
theorem at_cst_33 : S V main_cst_33 = val_main_cst_33 (F := F) := step0 243 rfl
theorem at_v194 : S V main_v194 = val_main_v194 (F := F) := step1 244 rfl (at_cst_33 H)
theorem at_v195 : S V main_v195 = val_main_v195 x0 x1 x2 x3 x4 x5 x6 := step2 245 rfl (at_v190 H) (at_v194 H)
theorem at_v196 : S V main_v196 = val_main_v196 x0 x1 x2 x3 x4 x5 x6 := step1 246 rfl (at_v195 H)
theorem at_v197 : S V main_v197 = val_main_v197 x0 x1 x2 x3 x4 x5 x6 := step1 247 rfl (at_v196 H)
theorem at_v198 : S V main_v198 = val_main_v198 x0 x1 x2 x3 x4 x5 x6 := step1 248 rfl (at_v197 H)
theorem at_v199 : S V main_v199 = val_main_v199 x0 x1 x2 x3 x4 x5 x6 := step2 249 rfl (at_v193 H) (at_v198 H)
theorem at_v200 : S V main_v200 = val_main_v200 x5 := step1 250 rfl (at_arg5 H)
theorem at_v201 : S V main_v201 = val_main_v201 x5 := stepR 251 rfl (at_v200 H)
theorem at_v202 : S V main_v202 = val_main_v202 x5 := step1 252 rfl (at_v201 H)
theorem at_v203 : S V main_v203 = val_main_v203 x5 := step1 253 rfl (at_v202 H)
theorem at_v204 : S V main_v204 = val_main_v204 x0 x1 x2 x3 x4 x5 x6 := step2 254 rfl (at_v199 H) (at_v203 H)
theorem at_v205 : S V main_v205 = val_main_v205 x6 := step1 255 rfl (at_arg6 H)
theorem at_v206 : S V main_v206 = val_main_v206 x6 := stepR 256 rfl (at_v205 H)
theorem at_v207 : S V main_v207 = val_main_v207 x6 := step1 257 rfl (at_v206 H)
theorem at_v208 : S V main_v208 = val_main_v208 x6 := step1 258 rfl (at_v207 H)
theorem at_v209 : S V main_v209 = val_main_v209 x0 x1 x2 x3 x4 x5 x6 := step2 259 rfl (at_v204 H) (at_v208 H)
theorem at_call7_cst : S V main_call7_cst = val_main_call7_cst (F := F) := step0 260 rfl
theorem at_call7_v0 : S V main_call7_v0 = val_main_call7_v0 (F := F) := step1 261 rfl (at_call7_cst H)
theorem at_v210 : S V main_v210 = val_main_v210 x0 x1 x2 x3 x4 x5 x6 := step2 262 rfl (at_v209 H) (at_call7_v0 H)
theorem at_v211 : S V main_v211 = val_main_v211 x0 x1 x2 x3 x4 x5 x6 := step2 263 rfl (at_v210 H) (at_v159 H)
theorem at_v212 : S V main_v212 = val_main_v212 x0 x1 x2 x3 x4 x5 x6 x7 := step2 264 rfl (at_v211 H) (at_arg7 H)
theorem at_v213 : S V main_v213 = val_main_v213 x8 := step1 265 rfl (at_arg8 H)
theorem at_v214 : S V main_v214 = val_main_v214 x8 := step1 266 rfl (at_v213 H)
theorem at_v215 : S V main_v215 = val_main_v215 x0 x1 x2 x3 x4 x5 x6 x7 x8 := step2 267 rfl (at_v212 H) (at_v214 H)

end Fold

variable (m : (ℓ : Loc nD τ sig) → Buf (Elt Ideal) ℓ) (c : Dev nD)

theorem fold_result :
    after (ops (F := Ideal)) (launchContents m c) (Proc.devRef .tc main_v215)
      = val_main_v215 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  Fold.at_v215 (V := launchContents m c) ⟨rfl, rfl, rfl, rfl, rfl, rfl, rfl, rfl, rfl⟩

theorem fold_arg0 :
    after (ops (F := Ideal)) (launchContents m c) (Proc.devRef .tc main_arg0) = m ((c.tc : Thread nD τ).loc main_arg0) :=
  Fold.ops_numbered.keep (by decide) _

theorem fold_arg1 :
    after (ops (F := Ideal)) (launchContents m c) (Proc.devRef .tc main_arg1) = m ((c.tc : Thread nD τ).loc main_arg1) :=
  Fold.ops_numbered.keep (by decide) _

theorem fold_arg2 :
    after (ops (F := Ideal)) (launchContents m c) (Proc.devRef .tc main_arg2) = m ((c.tc : Thread nD τ).loc main_arg2) :=
  Fold.ops_numbered.keep (by decide) _

theorem fold_arg3 :
    after (ops (F := Ideal)) (launchContents m c) (Proc.devRef .tc main_arg3) = m ((c.tc : Thread nD τ).loc main_arg3) :=
  Fold.ops_numbered.keep (by decide) _

theorem fold_arg4 :
    after (ops (F := Ideal)) (launchContents m c) (Proc.devRef .tc main_arg4) = m ((c.tc : Thread nD τ).loc main_arg4) :=
  Fold.ops_numbered.keep (by decide) _

theorem fold_arg5 :
    after (ops (F := Ideal)) (launchContents m c) (Proc.devRef .tc main_arg5) = m ((c.tc : Thread nD τ).loc main_arg5) :=
  Fold.ops_numbered.keep (by decide) _

theorem fold_arg6 :
    after (ops (F := Ideal)) (launchContents m c) (Proc.devRef .tc main_arg6) = m ((c.tc : Thread nD τ).loc main_arg6) :=
  Fold.ops_numbered.keep (by decide) _

theorem fold_arg7 :
    after (ops (F := Ideal)) (launchContents m c) (Proc.devRef .tc main_arg7) = m ((c.tc : Thread nD τ).loc main_arg7) :=
  Fold.ops_numbered.keep (by decide) _

theorem fold_arg8 :
    after (ops (F := Ideal)) (launchContents m c) (Proc.devRef .tc main_arg8) = m ((c.tc : Thread nD τ).loc main_arg8) :=
  Fold.ops_numbered.keep (by decide) _

end Cert.ReferenceIdeal.RefValue

end
-- ==== Proof.RefLayerShared.lean ====
import proofs.«410150_j30107720744960_1_alg».proof.Proof.RefRecords
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP Cert.Gin

-- Indices with the same coordinates are equal.
theorem idx1_ext {a : ℕ} {i j : (⟨1, ![a]⟩ : Shape).Idx} (h : (i 0).val = (j 0).val) : i = j :=
  funext fun c => Fin.ext (by match c with | ⟨0, _⟩ => exact h)

theorem idx2_ext {a b : ℕ} {i j : (⟨2, ![a, b]⟩ : Shape).Idx} (h0 : (i 0).val = (j 0).val)
    (h1 : (i 1).val = (j 1).val) : i = j :=
  funext fun c => Fin.ext (by match c with | ⟨0, _⟩ => exact h0 | ⟨1, _⟩ => exact h1)

theorem idx3_ext {a b c : ℕ} {i j : (⟨3, ![a, b, c]⟩ : Shape).Idx} (h0 : (i 0).val = (j 0).val)
    (h1 : (i 1).val = (j 1).val) (h2 : (i 2).val = (j 2).val) : i = j :=
  funext fun e => Fin.ext (by match e with | ⟨0, _⟩ => exact h0 | ⟨1, _⟩ => exact h1 | ⟨2, _⟩ => exact h2)

-- Position k * 128 + d of a [128, 128] array has row k and column d.
theorem w_idx (k d : Fin 128) :
    (k.val * 128 + d.val) / 128 % 128 = k.val ∧ (k.val * 128 + d.val) % 128 = d.val := by
  have hk := k.isLt
  have hd := d.isLt
  omega

-- A negative row number counts from the end.
theorem select_slt (v : BitVec 32) :
    Scalar.select (IntOp.cmpi .slt v 0#32) (IntOp.addi v 100000#32) v = wrapRow v := by
  unfold Scalar.select IntOp.cmpi IntOp.addi wrapRow
  cases v.slt 0#32 <;> rfl

theorem cast0 {α : Type} (y : S1.Idx → α) (h : S1.ShapeCasts S_) (i : S_.Idx) :
    shapeCast S_ y h i = y (ix1 (0 : Fin 1)) :=
  shapeCast_apply y h i (ix1 (0 : Fin 1)) (by
    rw [Shape.rowMajor_val_one]; exact (Shape.rowMajorPi_zero _ _).symm)

variable (x1 : IVec S2E 32)

theorem v1_at (i : S640000.Idx) : val_main_v1 (F := Ideal) x1 i = x1 (ix2 (0 : Fin 2) (i 0)) := by
  rw [val_main_v1_apply, val_main_v0_apply]
  exact congrArg x1 (idx2_ext rfl (Nat.mod_eq_of_lt (i 0).isLt))

theorem v3_at (i : S640000.Idx) : val_main_v3 (F := Ideal) x1 i = x1 (ix2 (1 : Fin 2) (i 0)) := by
  rw [val_main_v3_apply, val_main_v2_apply]
  exact congrArg x1 (idx2_ext rfl (Nat.mod_eq_of_lt (i 0).isLt))

variable {x1} {x2 : SE.Idx → EReal} {x3 : S4W.Idx → EReal} {x4 : S4.Idx → EReal} {x5 x6 : S4R.Idx → EReal}

-- A layer read stage by stage is the specification's layer of the previous layer's result P.
theorem layer_of (l : Fin 4) {P out : SN.Idx → EReal} (src dst : IVec SI 32) (msg : SE.Idx → EReal)
    (zero agg lin : SN.Idx → EReal) (mean var : S128.Idx → EReal)
    (hsrc : src = srcCol x1) (hdst : dst = dstCol x1)
    (hmsg : ∀ j, msg j = max (Host.gather dGR P src j + x2 j) (Ideal.ofBits .f32 0x00000000#32))
    (hzero : ∀ j, zero j = Ideal.ofBits .f32 0x00000000#32)
    (hagg : agg = Host.scatterAdd (F := Ideal) (φ := .f32) dSR zero dst msg)
    (hlin : ∀ n d, lin (ix2 n d)
      = ∑ k : Fin 128, (coefAt x4 l * P (ix2 n k) + agg (ix2 n k)) * x3 (ix3 l k d))
    (hmean : ∀ d, mean (ix1 d) = Ideal.div (Ideal.ofBits .f32 0x00000000#32 + ∑ k : Fin 100000, lin (ix2 k d)) nodeCount)
    (hvar : ∀ d, var (ix1 d) = Ideal.div (Ideal.ofBits .f32 0x00000000#32
      + ∑ k : Fin 100000, (lin (ix2 k d) - mean (ix1 d)) * (lin (ix2 k d) - mean (ix1 d))) nodeCount)
    (hout : ∀ n d, out (ix2 n d) = max ((lin (ix2 n d) - mean (ix1 d)) * Ideal.rsqrt (var (ix1 d) + bnEps)
      * x5 (ix2 l d) + x6 (ix2 l d)) (Ideal.ofBits .f32 0x00000000#32) + P (ix2 n d)) :
    out = layerR dGR dSR P (srcCol x1) (dstCol x1) x2 (coefAt x4 l) (weightAt x3 l) (rowAt x5 l) (rowAt x6 l) := by
  subst hsrc hdst
  obtain rfl : zero = fun _ => (0 : EReal) := funext fun j => (hzero j).trans Ideal.ofBits_zero_f32
  obtain rfl : msg = fun j => max (takeR dGR P (srcCol x1) j + x2 j) 0 :=
    funext fun j => (hmsg j).trans (by rw [Ideal.ofBits_zero_f32]; rfl)
  subst hagg
  have hH : toMat lin = linM (coefAt x4 l) (toMat P)
      (toMat (aggOf dSR (takeR dGR P (srcCol x1)) (dstCol x1) x2)) (toMat (weightAt x3 l)) :=
    funext fun n => funext fun d => hlin n d
  have hmu : ∀ d, mean (ix1 d) = meanOf (toMat lin) d := fun d =>
    (hmean d).trans (by rw [Ideal.ofBits_zero_f32, zero_add]; rfl)
  have hv : ∀ d, var (ix1 d) = varR (toMat lin) d := fun d =>
    (hvar d).trans (by rw [Ideal.ofBits_zero_f32, zero_add, hmu]; rfl)
  unfold layerR layerOf
  rw [← hH]
  funext j
  obtain ⟨n, d, rfl⟩ : ∃ (n : Fin 100000) (d : Fin 128), j = ix2 n d := ⟨j 0, j 1, eq_ix2 j⟩
  rw [hout, hmu, hv, Ideal.ofBits_zero_f32]
  rfl

section Generic
open Cert.ReferenceIdeal.ReadP.Layer

variable {h : SN.Idx → EReal} {W : S1x128x128.Idx → EReal} {eps : S1.Idx → EReal} {g b : S1x128.Idx → EReal}

-- The generic layer read operation by operation, its four slices being layer l's of the stacked inputs.
theorem layer_generic (l : Fin 4) (heps : eps (ix1 (0 : Fin 1)) = x4 (ix1 l))
    (hW : ∀ k d, W (ix3 (0 : Fin 1) k d) = x3 (ix3 l k d)) (hg : ∀ d, g (ix2 (0 : Fin 1) d) = x5 (ix2 l d))
    (hb : ∀ d, b (ix2 (0 : Fin 1) d) = x6 (ix2 l d)) :
    v107 (F := Ideal) h x1 x2 W eps g b
      = layerR dGR dSR h (srcCol x1) (dstCol x1) x2 (coefAt x4 l) (weightAt x3 l) (rowAt x5 l) (rowAt x6 l) :=
  layer_of l (v61 (F := Ideal) x1) (v66 (F := Ideal) x1) (v64 (F := Ideal) h x1 x2) (v65 (F := Ideal))
    (v67 (F := Ideal) h x1 x2) (v76 (F := Ideal) h x1 x2 W eps) (v79 (F := Ideal) h x1 x2 W eps)
    (v86 (F := Ideal) h x1 x2 W eps)
    (funext fun j => by
      rw [v61_apply, v60_apply, v57_apply, v56_apply, c_7_apply, v59_apply, v58_apply, c_8_apply, v1_at]
      exact select_slt _)
    (funext fun j => (v66_apply x1 j).trans (v3_at x1 _))
    (fun j => by rw [v64_apply, v63_apply, call2_v0_apply, call2_cst_apply]; rfl)
    (fun j => by rw [v65_apply, cst_9_apply]; rfl)
    rfl
    (fun n d => (v76_apply h x1 x2 W eps (ix2 n d)).trans (Finset.sum_congr rfl fun k _ => by
      rw [v73_apply, v72_apply, v71_apply, v70_apply, cst_10_apply, v69, cast0, heps, v75_apply,
        (idx2_ext rfl rfl : lidx_v76 (ix2 n d) k = ix2 n k),
        (idx3_ext rfl (w_idx k d).1 (w_idx k d).2 : idx_v75 (ridx_v76 (ix2 n d) k) = ix3 (0 : Fin 1) k d), hW]; rfl))
    (fun d => by
      rw [v79_apply, v77_apply, v78_apply, cst_11_apply, cst_12_apply]
      simp only [(fun k => idx2_ext rfl rfl : ∀ k, idx_v77 (ix1 d) k = ix2 k d)]
      rfl)
    (fun d => by
      rw [v86_apply, v84_apply, v85_apply, cst_13_apply, cst_14_apply]
      simp only [(fun k => idx2_ext rfl rfl : ∀ k, idx_v84 (ix1 d) k = ix2 k d), v83_apply, v82_apply, v81_apply,
        v80_apply, (fun k => idx1_ext rfl : ∀ k : Fin 100000, idx_v80 (idx_v81 (ix2 k d)) = ix1 d)]
      rfl)
    (fun n d => by
      rw [v107_apply, v106_apply, v105_apply, v100_apply, v95_apply, v89_apply, v88_apply, v87_apply, v94_apply,
        v93_apply, v92_apply, v91_apply, v90_apply, cst_15_apply, v99_apply, v98_apply, v97_apply, v104_apply,
        v103_apply, v102_apply, call3_v0_apply, call3_cst_apply,
        (idx1_ext rfl : idx_v87 (idx_v88 (ix2 n d)) = ix1 d), (idx1_ext rfl : idx_v93 (idx_v94 (ix2 n d)) = ix1 d),
        (idx2_ext rfl (Nat.mod_eq_of_lt d.isLt) : idx_v97 (idx_v98 (idx_v99 (ix2 n d))) = ix2 (0 : Fin 1) d), hg,
        (idx2_ext rfl (Nat.mod_eq_of_lt d.isLt) : idx_v102 (idx_v103 (idx_v104 (ix2 n d))) = ix2 (0 : Fin 1) d),
        hb]; rfl)

end Generic

end Cert.ReferenceIdeal.RefValue

end
-- ==== Proof.RefFinal.lean ====
import proofs.«410150_j30107720744960_1_alg».proof.Proof.RefLayerShared

noncomputable section

namespace Cert.ReferenceIdeal.RefValue

open Idealize.ShloMosaic Idealize.ShloMosaic.ValueIdx Cert.ReferenceIdeal Cert.ReferenceIdeal.Gen Cert.ReferenceIdeal.ReadP Cert.Gin

variable (x0 : SN.Idx → EReal) (x1 : IVec S2E 32) (x2 : SE.Idx → EReal) (x3 : S4W.Idx → EReal) (x4 : S4.Idx → EReal)
  (x5 x6 : S4R.Idx → EReal) (x7 : SW.Idx → EReal) (x8 : S128.Idx → EReal)

theorem ref_layer0 :
    val_main_v55 (F := Ideal) x0 x1 x2 x3 x4 x5 x6
      = layerR dGR dSR x0 (srcCol x1) (dstCol x1) x2 (coefAt x4 0) (weightAt x3 0) (rowAt x5 0) (rowAt x6 0) :=
  layer_generic 0 ((val_main_v16_apply (F := Ideal) x4 _).trans (congrArg x4 (idx1_ext rfl)))
    (fun k d => (val_main_v22_apply (F := Ideal) x3 _).trans (congrArg x3 (idx3_ext rfl rfl rfl)))
    (fun d => (val_main_v44_apply (F := Ideal) x5 _).trans (congrArg x5 (idx2_ext rfl rfl)))
    (fun d => (val_main_v49_apply (F := Ideal) x6 _).trans (congrArg x6 (idx2_ext rfl rfl)))

theorem ref_layer1 :
    val_main_v107 (F := Ideal) x0 x1 x2 x3 x4 x5 x6
      = layerR dGR dSR (val_main_v55 (F := Ideal) x0 x1 x2 x3 x4 x5 x6) (srcCol x1) (dstCol x1) x2 (coefAt x4 1)
          (weightAt x3 1) (rowAt x5 1) (rowAt x6 1) :=
  layer_generic 1 ((val_main_v68_apply (F := Ideal) x4 _).trans (congrArg x4 (idx1_ext rfl)))
    (fun k d => (val_main_v74_apply (F := Ideal) x3 _).trans (congrArg x3 (idx3_ext rfl rfl rfl)))
    (fun d => (val_main_v96_apply (F := Ideal) x5 _).trans (congrArg x5 (idx2_ext rfl rfl)))
    (fun d => (val_main_v101_apply (F := Ideal) x6 _).trans (congrArg x6 (idx2_ext rfl rfl)))

theorem ref_layer2 :
    val_main_v159 (F := Ideal) x0 x1 x2 x3 x4 x5 x6
      = layerR dGR dSR (val_main_v107 (F := Ideal) x0 x1 x2 x3 x4 x5 x6) (srcCol x1) (dstCol x1) x2 (coefAt x4 2)
          (weightAt x3 2) (rowAt x5 2) (rowAt x6 2) :=
  layer_generic 2 ((val_main_v120_apply (F := Ideal) x4 _).trans (congrArg x4 (idx1_ext rfl)))
    (fun k d => (val_main_v126_apply (F := Ideal) x3 _).trans (congrArg x3 (idx3_ext rfl rfl rfl)))
    (fun d => (val_main_v148_apply (F := Ideal) x5 _).trans (congrArg x5 (idx2_ext rfl rfl)))
    (fun d => (val_main_v153_apply (F := Ideal) x6 _).trans (congrArg x6 (idx2_ext rfl rfl)))

theorem ref_layer3 :
    val_main_v211 (F := Ideal) x0 x1 x2 x3 x4 x5 x6
      = layerR dGR dSR (val_main_v159 (F := Ideal) x0 x1 x2 x3 x4 x5 x6) (srcCol x1) (dstCol x1) x2 (coefAt x4 3)
          (weightAt x3 3) (rowAt x5 3) (rowAt x6 3) :=
  layer_generic 3 ((val_main_v172_apply (F := Ideal) x4 _).trans (congrArg x4 (idx1_ext rfl)))
    (fun k d => (val_main_v178_apply (F := Ideal) x3 _).trans (congrArg x3 (idx3_ext rfl rfl rfl)))
    (fun d => (val_main_v200_apply (F := Ideal) x5 _).trans (congrArg x5 (idx2_ext rfl rfl)))
    (fun d => (val_main_v205_apply (F := Ideal) x6 _).trans (congrArg x6 (idx2_ext rfl rfl)))

theorem ref_final :
    val_main_v215 (F := Ideal) x0 x1 x2 x3 x4 x5 x6 x7 x8
      = ofMat (projM (toMat (val_main_v211 (F := Ideal) x0 x1 x2 x3 x4 x5 x6)) (toMat x7) (fun d => x8 (ix1 d))) := by
  funext j
  obtain ⟨n, d, rfl⟩ : ∃ (n : Fin 100000) (d : Fin 128), j = ix2 n d := ⟨j 0, j 1, eq_ix2 j⟩
  rw [val_main_v215_apply, val_main_v214_apply, val_main_v213_apply, val_main_v212_apply,
    (idx1_ext rfl : idx_main_v213 (idx_main_v214 (ix2 n d)) = ix1 d)]
  simp only [(fun k => idx2_ext rfl rfl : ∀ k, lidx_main_v212 (ix2 n d) k = ix2 n k),
    (fun k => idx2_ext rfl rfl : ∀ k, ridx_main_v212 (ix2 n d) k = ix2 k d)]
  rfl

theorem ref_value :
    val_main_v215 (F := Ideal) x0 x1 x2 x3 x4 x5 x6 x7 x8 = netOf (layerR dGR dSR) x0 x1 x2 x3 x4 x5 x6 x7 x8 := by
  unfold netOf
  dsimp only
  rw [ref_final, ref_layer3, ref_layer2, ref_layer1, ref_layer0]

end Cert.ReferenceIdeal.RefValue

end
-- ==== Proof.lean ====
import proofs.«410150_j30107720744960_1_alg».proof.Defs
import proofs.«410150_j30107720744960_1_alg».proof.Proof.Gen.Kernel
import proofs.«410150_j30107720744960_1_alg».proof.Proof.Gen.Kernel.Frame
import proofs.«410150_j30107720744960_1_alg».proof.Proof.Gen.KernelIdeal
import proofs.«410150_j30107720744960_1_alg».proof.Proof.Gen.KernelIdeal.Frame
import proofs.«410150_j30107720744960_1_alg».proof.Proof.Gen.ReferenceIdeal
import proofs.«410150_j30107720744960_1_alg».proof.Proof.Gen.Pre_finite_inputs
import proofs.«410150_j30107720744960_1_alg».proof.Proof.Algebra
import proofs.«410150_j30107720744960_1_alg».proof.Proof.PreFacts
import proofs.«410150_j30107720744960_1_alg».proof.Proof.KernelRun
import proofs.«410150_j30107720744960_1_alg».proof.Proof.KFinal
import proofs.«410150_j30107720744960_1_alg».proof.Proof.RefStages
import proofs.«410150_j30107720744960_1_alg».proof.Proof.RefFinal
import Idealize.ShloMosaic.Adequacy
import Idealize.ShloMosaic.Init

noncomputable section

namespace Cert.Proof

open Idealize.ShloMosaic Idealize.ShloMosaic.TcCoe Idealize.SL.Sem Cert.Gin

theorem dG_eq : Cert.ReferenceIdeal.RefValue.dGR = Cert.KernelIdeal.Val.dGK := rfl
theorem dS_eq : Cert.ReferenceIdeal.RefValue.dSR = Cert.KernelIdeal.Val.dSK := rfl

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c =>
    ⟨(h c Cert.ReferenceIdeal.main_arg0).trans (Cert.ReferenceIdeal.RefValue.fold_arg0 m c),
     (h c Cert.ReferenceIdeal.main_arg1).trans (Cert.ReferenceIdeal.RefValue.fold_arg1 m c),
     (h c Cert.ReferenceIdeal.main_arg2).trans (Cert.ReferenceIdeal.RefValue.fold_arg2 m c),
     (h c Cert.ReferenceIdeal.main_arg3).trans (Cert.ReferenceIdeal.RefValue.fold_arg3 m c),
     (h c Cert.ReferenceIdeal.main_arg4).trans (Cert.ReferenceIdeal.RefValue.fold_arg4 m c),
     (h c Cert.ReferenceIdeal.main_arg5).trans (Cert.ReferenceIdeal.RefValue.fold_arg5 m c),
     (h c Cert.ReferenceIdeal.main_arg6).trans (Cert.ReferenceIdeal.RefValue.fold_arg6 m c),
     (h c Cert.ReferenceIdeal.main_arg7).trans (Cert.ReferenceIdeal.RefValue.fold_arg7 m c),
     (h c Cert.ReferenceIdeal.main_arg8).trans (Cert.ReferenceIdeal.RefValue.fold_arg8 m c)⟩)
    (Cert.ReferenceIdeal.RunP.run_fold (F := Ideal) m ρ)

-- Both runs end at the same network function of the inputs: the kernel's gather and variance agree with the reference's on real inputs with in-range rows.
theorem algebraic : Cert.algebraic_KernelIdeal_ReferenceIdeal := by
  intro m ρ m' ρ' hpre hagree
  refine ⟨fun c => Cert.KernelIdeal.Gen.W31 m ρ c (Proc.devRef .tc Cert.KernelIdeal.main_v109),
    Cert.KernelIdeal.GenRun.run_value (F := Ideal) m ρ, ?_⟩
  refine (θ_run Cert.ReferenceIdeal.defs _ _).mono (fun _ h c => ?_) (Cert.ReferenceIdeal.RunP.run_fold (F := Ideal) m' ρ')
  obtain ⟨h0, h1, h2, h3, h4, h5, h6, h7, h8⟩ := hagree c
  refine ⟨?_,
    (h c Cert.ReferenceIdeal.main_arg0).trans (Cert.ReferenceIdeal.RefValue.fold_arg0 m' c),
    (h c Cert.ReferenceIdeal.main_arg1).trans (Cert.ReferenceIdeal.RefValue.fold_arg1 m' c),
    (h c Cert.ReferenceIdeal.main_arg2).trans (Cert.ReferenceIdeal.RefValue.fold_arg2 m' c),
    (h c Cert.ReferenceIdeal.main_arg3).trans (Cert.ReferenceIdeal.RefValue.fold_arg3 m' c),
    (h c Cert.ReferenceIdeal.main_arg4).trans (Cert.ReferenceIdeal.RefValue.fold_arg4 m' c),
    (h c Cert.ReferenceIdeal.main_arg5).trans (Cert.ReferenceIdeal.RefValue.fold_arg5 m' c),
    (h c Cert.ReferenceIdeal.main_arg6).trans (Cert.ReferenceIdeal.RefValue.fold_arg6 m' c),
    (h c Cert.ReferenceIdeal.main_arg7).trans (Cert.ReferenceIdeal.RefValue.fold_arg7 m' c),
    (h c Cert.ReferenceIdeal.main_arg8).trans (Cert.ReferenceIdeal.RefValue.fold_arg8 m' c)⟩
  refine (h c Cert.ReferenceIdeal.main_v215).trans ?_
  rw [Cert.ReferenceIdeal.RefValue.fold_result m' c, h0, h1, h2, h3, h4, h5, h6, h7, h8,
    Cert.ReferenceIdeal.RefValue.ref_value]
  refine Eq.trans ?_ (Cert.KernelIdeal.Val.kernel_value m ρ c).symm
  obtain ⟨fx, fe, fWs, feps, fg, fb, frow⟩ := Cert.Gin.pre_facts _ _ _ _ _ _ _ _ _ (hpre c)
  rw [dG_eq, dS_eq]
  exact (Cert.Gin.net_eq Cert.KernelIdeal.Val.dGK Cert.KernelIdeal.Val.dSK _ _ _ _ _ _ _ _ _ fx fe fWs feps fg fb frow).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
